-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x373 : Shape := ⟨2, ![50000, 373]⟩
abbrev S2x400000 : Shape := ⟨2, ![2, 400000]⟩
abbrev S50000 : Shape := ⟨1, ![50000]⟩
abbrev S373x256 : Shape := ⟨2, ![373, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x373 : S_.BroadcastsInDim S50000x373 (![] : Fin 0 → Fin S50000x373.rank)
  reducesTo_S50000x373_S_d0_1 : S50000x373.ReducesTo [0, 1] S_
  h_S_ : 0 < S_.numel
  bcast_S_S373x256 : S_.BroadcastsInDim S373x256 (![] : Fin 0 → Fin S373x256.rank)
  reducesTo_S373x256_S_d0_1 : S373x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg26 : FVec F S64 .f32) (main_arg30 : FVec F S1 .f32) (main_v133 : IVec S_ 1) (main_v136 : IVec S64x1 1) : IVec S_ 1 :=
  let main_c_53 : IVec S_ 1 := constantI S_ 1 1#1
  let main_v137 : IVec S_ 1 := (fun x v => Host.reduce IntOp.andi x v reducesTo_S64x1_S_d0_1 h_S_) main_v136 main_c_53
  let main_v138 : IVec S_ 1 := andi main_v133 main_v137
  let main_v139 : FVec F S1 .f32 := Host.absf main_arg30
  let main_cst_54 : FVec F S_ .f32 := constant S_ .f32 0x7F800000#32
  let main_v140 : FVec F S1 .f32 := broadcastInDim S1 ![] bcast_S_S1 main_cst_54
  let main_v141 : IVec S1 1 := cmpf .olt main_v139 main_v140
  let main_c_55 : IVec S_ 1 := constantI S_ 1 1#1
  let main_v142 : IVec S_ 1 := (fun x v => Host.reduce IntOp.andi x v reducesTo_S1_S_d0 h_S_) main_v141 main_c_55
  let main_v143 : IVec S_ 1 := andi main_v138 main_v142
  let main_cst_56 : FVec F S_ .f32 := constant S_ .f32 0x3727C5AC#32
  let main_v144 : FVec F S64 .f32 := broadcastInDim S64 ![] bcast_S_S64 main_cst_56
  let main_v145 : FVec F S64 .f32 := addf main_arg26 main_v144
  let main_cst_57 : FVec F S_ .f32 := constant S_ .f32 0x00000000#32
  let main_v146 : FVec F S64 .f32 := broadcastInDim S64 ![] bcast_S_S64 main_cst_57
  let main_v147 : IVec S64 1 := cmpf .ogt main_v145 main_v146
  let main_c_58 : IVec S_ 1 := constantI S_ 1 1#1
  let main_v148 : IVec S_ 1 := (fun x v => Host.reduce IntOp.andi x v reducesTo_S64_S_d0 h_S_) main_v147 main_c_58
  let main_v149 : IVec S_ 1 := andi main_v143 main_v148
  main_v149

def fn_part7 {F : FTy → Type} [FloatOps F] (main_arg26 : FVec F S64 .f32) (main_arg27 : FVec F S64x64 .f32) (main_arg28 : FVec F S64 .f32) (main_arg29 : FVec F S64x1 .f32) (main_arg30 : FVec F S1 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x64 .f32 := Host.absf main_arg27
  let main_cst_48 : FVec F S_ .f32 := constant S_ .f32 0x7F800000#32
  let main_v125 : FVec F S64x64 .f32 := broadcastInDim S64x64 ![] bcast_S_S64x64 main_cst_48
  let main_v126 : IVec S64x64 1 := cmpf .olt main_v124 main_v125
  let main_c_49 : IVec S_ 1 := constantI S_ 1 1#1
  let main_v127 : IVec S_ 1 := (fun x v => Host.reduce IntOp.andi x v reducesTo_S64x64_S_d0_1 h_S_) main_v126 main_c_49
  let main_v128 : IVec S_ 1 := andi main_v123 main_v127
  let main_v129 : FVec F S64 .f32 := Host.absf main_arg28
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64x1 .f32 := Host.absf main_arg29
  let main_cst_52 : FVec F S_ .f32 := constant S_ .f32 0x7F800000#32
  let main_v135 : FVec F S64x1 .f32 := broadcastInDim S64x1 ![] bcast_S_S64x1 main_cst_52
  let main_v136 : IVec S64x1 1 := cmpf .olt main_v134 main_v135
  fn_part8 (F := F) main_arg26 main_arg30 main_v133 main_v136

def fn_part6 {F : FTy → Type} [FloatOps F] (main_arg23 : FVec F S64 .f32) (main_arg24 : FVec F S64 .f32) (main_arg25 : FVec F S64 .f32) (main_arg26 : FVec F S64 .f32) (main_arg27 : FVec F S64x64 .f32) (main_arg28 : FVec F S64 .f32) (main_arg29 : FVec F S64x1 .f32) (main_arg30 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64 .f32 := Host.absf main_arg26
  fn_part7 (F := F) main_arg26 main_arg27 main_arg28 main_arg29 main_arg30 main_v118 main_v119

def fn_part5 {F : FTy → Type} [FloatOps F] (main_arg20 : FVec F S128 .f32) (main_arg21 : FVec F S128x64 .f32) (main_arg22 : FVec F S64 .f32) (main_arg23 : FVec F S64 .f32) (main_arg24 : FVec F S64 .f32) (main_arg25 : FVec F S64 .f32) (main_arg26 : FVec F S64 .f32) (main_arg27 : FVec F S64x64 .f32) (main_arg28 : FVec F S64 .f32) (main_arg29 : FVec F S64x1 .f32) (main_arg30 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x64 .f32 := Host.absf main_arg21
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_arg27 main_arg28 main_arg29 main_arg30 main_v98 main_v101 main_c_39

def fn_part4 {F : FTy → Type} [FloatOps F] (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64 .f32) (main_arg24 : FVec F S64 .f32) (main_arg25 : FVec F S64 .f32) (main_arg26 : FVec F S64 .f32) (main_arg27 : FVec F S64x64 .f32) (main_arg28 : FVec F S64 .f32) (main_arg29 : FVec F S64x1 .f32) (main_arg30 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_v83 main_v84 main_cst_32

def fn_part3 {F : FTy → Type} [FloatOps F] (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64 .f32) (main_arg24 : FVec F S64 .f32) (main_arg25 : FVec F S64 .f32) (main_arg26 : FVec F S64 .f32) (main_arg27 : FVec F S64x64 .f32) (main_arg28 : FVec F S64 .f32) (main_arg29 : FVec F S64x1 .f32) (main_arg30 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64 .f32) (main_arg24 : FVec F S64 .f32) (main_arg25 : FVec F S64 .f32) (main_arg26 : FVec F S64 .f32) (main_arg27 : FVec F S64x64 .f32) (main_arg28 : FVec F S64 .f32) (main_arg29 : FVec F S64x1 .f32) (main_arg30 : FVec F S1 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg6 : FVec F S256 .f32) (main_arg7 : FVec F S256 .f32) (main_arg8 : FVec F S256 .f32) (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64 .f32) (main_arg24 : FVec F S64 .f32) (main_arg25 : FVec F S64 .f32) (main_arg26 : FVec F S64 .f32) (main_arg27 : FVec F S64x64 .f32) (main_arg28 : FVec F S64 .f32) (main_arg29 : FVec F S64x1 .f32) (main_arg30 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S50000x373 .f32) (main_arg1 : IVec S2x400000 32) (main_arg2 : IVec S50000 32) (main_arg3 : FVec F S373x256 .f32) (main_arg4 : FVec F S256 .f32) (main_arg5 : FVec F S256 .f32) (main_arg6 : FVec F S256 .f32) (main_arg7 : FVec F S256 .f32) (main_arg8 : FVec F S256 .f32) (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64 .f32) (main_arg24 : FVec F S64 .f32) (main_arg25 : FVec F S64 .f32) (main_arg26 : FVec F S64 .f32) (main_arg27 : FVec F S64x64 .f32) (main_arg28 : FVec F S64 .f32) (main_arg29 : FVec F S64x1 .f32) (main_arg30 : FVec F S1 .f32) : IVec S_ 1 :=
  let main_v0 : FVec F S50000x373 .f32 := Host.absf main_arg0
  let main_cst : FVec F S_ .f32 := constant S_ .f32 0x7F800000#32
  let main_v1 : FVec F S50000x373 .f32 := broadcastInDim S50000x373 ![] bcast_S_S50000x373 main_cst
  let main_v2 : IVec S50000x373 1 := cmpf .olt main_v0 main_v1
  let main_c : IVec S_ 1 := constantI S_ 1 1#1
  let main_v3 : IVec S_ 1 := (fun x v => Host.reduce IntOp.andi x v reducesTo_S50000x373_S_d0_1 h_S_) main_v2 main_c
  let main_v4 : FVec F S373x256 .f32 := Host.absf main_arg3
  let main_cst_0 : FVec F S_ .f32 := constant S_ .f32 0x7F800000#32
  let main_v5 : FVec F S373x256 .f32 := broadcastInDim S373x256 ![] bcast_S_S373x256 main_cst_0
  let main_v6 : IVec S373x256 1 := cmpf .olt main_v4 main_v5
  let main_c_1 : IVec S_ 1 := constantI S_ 1 1#1
  let main_v7 : IVec S_ 1 := (fun x v => Host.reduce IntOp.andi x v reducesTo_S373x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S50000x373 : Shape := ⟨2, ![50000, 373]⟩
abbrev S2x400000 : Shape := ⟨2, ![2, 400000]⟩
abbrev S50000 : Shape := ⟨1, ![50000]⟩
abbrev S373x256 : Shape := ⟨2, ![373, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S50000x1 : Shape := ⟨2, ![50000, 1]⟩
abbrev S50000x256 : Shape := ⟨2, ![50000, 256]⟩
abbrev S2000x373 : Shape := ⟨2, ![2000, 373]⟩
abbrev S2000x256 : Shape := ⟨2, ![2000, 256]⟩
abbrev S400000x256 : Shape := ⟨2, ![400000, 256]⟩
abbrev S1x256 : Shape := ⟨2, ![1, 256]⟩
abbrev S50000x128 : Shape := ⟨2, ![50000, 128]⟩
abbrev S2000x128 : Shape := ⟨2, ![2000, 128]⟩
abbrev S400000x128 : Shape := ⟨2, ![400000, 128]⟩
abbrev S1x128 : Shape := ⟨2, ![1, 128]⟩
abbrev S1024x128 : Shape := ⟨2, ![1024, 128]⟩
abbrev S1000x1 : Shape := ⟨2, ![1000, 1]⟩
abbrev S1000x128 : Shape := ⟨2, ![1000, 128]⟩
abbrev S1000x1024 : Shape := ⟨2, ![1000, 1024]⟩
abbrev S1x64 : Shape := ⟨2, ![1, 64]⟩
abbrev S1x1 : Shape := ⟨2, ![1, 1]⟩
abbrev S1024x1 : Shape := ⟨2, ![1024, 1]⟩
abbrev S1024x64 : Shape := ⟨2, ![1024, 64]⟩
abbrev S1024 : Shape := ⟨1, ![1024]⟩

abbrev nBuf : Space → Nat
  | .hbm => 198
  | .vmem => 33
  | .smem => 0
  | _ => 0

abbrev hbmTy0_0 (i : Nat) : BufTy := match i % 128 with
  | 0 => ⟨S50000x373, .f32⟩
  | 1 => ⟨S2x400000, .i32⟩
  | 2 => ⟨S50000, .i32⟩
  | 3 => ⟨S373x256, .f32⟩
  | 4 => ⟨S256, .f32⟩
  | 5 => ⟨S256, .f32⟩
  | 6 => ⟨S256, .f32⟩
  | 7 => ⟨S256, .f32⟩
  | 8 => ⟨S256, .f32⟩
  | 9 => ⟨S256x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128x64, .f32⟩
  | 22 => ⟨S64, .f32⟩
  | 23 => ⟨S64, .f32⟩
  | 24 => ⟨S64, .f32⟩
  | 25 => ⟨S64, .f32⟩
  | 26 => ⟨S64, .f32⟩
  | 27 => ⟨S64x64, .f32⟩
  | 28 => ⟨S64, .f32⟩
  | 29 => ⟨S64x1, .f32⟩
  | 30 => ⟨S1, .f32⟩
  | 31 => ⟨S1x400000, .i32⟩
  | 32 => ⟨S400000, .i32⟩
  | 33 => ⟨S1x400000, .i32⟩
  | 34 => ⟨S400000, .i32⟩
  | 35 => ⟨S_, .f32⟩
  | 36 => ⟨S400000, .f32⟩
  | 37 => ⟨S_, .f32⟩
  | 38 => ⟨S50000, .f32⟩
  | 39 => ⟨S400000x1, .i32⟩
  | 40 => ⟨S50000, .f32⟩
  | 41 => ⟨S_, .f32⟩
  | 42 => ⟨S50000, .f32⟩
  | 43 => ⟨S50000, .f32⟩
  | 44 => ⟨S50000, .f32⟩
  | 45 => ⟨S_, .f32⟩
  | 46 => ⟨S50000, .f32⟩
  | 47 => ⟨S50000, .f32⟩
  | 48 => ⟨S50000, .f32⟩
  | 49 => ⟨S50000x1, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000, .f32⟩
  | 68 => ⟨S400000, .f32⟩
  | 69 => ⟨S400000x1, .f32⟩
  | 70 => ⟨S50000x256, .f32⟩
  | 71 => ⟨S_, .i32⟩
  | 72 => ⟨S400000, .i32⟩
  | 73 => ⟨S400000, .i1⟩
  | 74 => ⟨S_, .i32⟩
  | 75 => ⟨S400000, .i32⟩
  | 76 => ⟨S400000, .i32⟩
  | 77 => ⟨S400000, .i32⟩
  | 78 => ⟨S400000x1, .i32⟩
  | 79 => ⟨S400000x256, .f32⟩
  | 80 => ⟨S400000x256, .f32⟩
  | 81 => ⟨S400000x256, .f32⟩
  | 82 => ⟨S_, .f32⟩
  | 83 => ⟨S50000x256, .f32⟩
  | 84 => ⟨S400000x1, .i32⟩
  | 85 => ⟨S50000x256, .f32⟩
  | 86 => ⟨S50000x256, .f32⟩
  | 87 => ⟨S50000x256, .f32⟩
  | 88 => ⟨S50000x256, .f32⟩
  | 89 => ⟨S1x256, .f32⟩
  | 90 => ⟨S50000x256, .f32⟩
  | 91 => ⟨S50000x256, .f32⟩
  | 92 => ⟨S_, .f32⟩
  | 93 => ⟨S50000x256, .f32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S256, .f32⟩
  | 100 => ⟨S256, .f32⟩
  | 101 => ⟨S256, .f32⟩
  | 102 => ⟨S256, .f32⟩
  | 103 => ⟨S1x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S50000x128, .f32⟩
  | 110 => ⟨S_, .i32⟩
  | 111 => ⟨S400000, .i32⟩
  | 112 => ⟨S400000, .i1⟩
  | 113 => ⟨S_, .i32⟩
  | 114 => ⟨S400000, .i32⟩
  | 115 => ⟨S400000, .i32⟩
  | 116 => ⟨S400000, .i32⟩
  | 117 => ⟨S400000x1, .i32⟩
  | 118 => ⟨S400000x128, .f32⟩
  | 119 => ⟨S400000x128, .f32⟩
  | 120 => ⟨S400000x128, .f32⟩
  | 121 => ⟨S_, .f32⟩
  | 122 => ⟨S50000x128, .f32⟩
  | 123 => ⟨S400000x1, .i32⟩
  | 124 => ⟨S50000x128, .f32⟩
  | 125 => ⟨S50000x128, .f32⟩
  | 126 => ⟨S50000x128, .f32⟩
  | 127 => ⟨S50000x128, .f32⟩
  | _ => ⟨S50000x373, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S50000x128, .f32⟩
  | 21 => ⟨S_, .i32⟩
  | 22 => ⟨S400000, .i32⟩
  | 23 => ⟨S400000, .i1⟩
  | 24 => ⟨S_, .i32⟩
  | 25 => ⟨S400000, .i32⟩
  | 26 => ⟨S400000, .i32⟩
  | 27 => ⟨S400000, .i32⟩
  | 28 => ⟨S400000x1, .i32⟩
  | 29 => ⟨S400000x128, .f32⟩
  | 30 => ⟨S400000x128, .f32⟩
  | 31 => ⟨S400000x128, .f32⟩
  | 32 => ⟨S_, .f32⟩
  | 33 => ⟨S50000x128, .f32⟩
  | 34 => ⟨S400000x1, .i32⟩
  | 35 => ⟨S50000x128, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S128, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S50000x1, .i32⟩
  | 60 => ⟨S1024x128, .f32⟩
  | 61 => ⟨S1x64, .f32⟩
  | 62 => ⟨S1x64, .f32⟩
  | 63 => ⟨S1x64, .f32⟩
  | 64 => ⟨S1x64, .f32⟩
  | 65 => ⟨S1x64, .f32⟩
  | 66 => ⟨S1x64, .f32⟩
  | 67 => ⟨S1x1, .f32⟩
  | 68 => ⟨S1024x1, .f32⟩
  | 69 => ⟨S1024, .f32⟩
  | _ => ⟨S50000x373, .f32⟩

abbrev hbmTy (i : Nat) : BufTy := match i / 128 with
  | 0 => hbmTy0_0 i
  | 1 => hbmTy0_1 i
  | _ => ⟨S50000x373, .f32⟩

abbrev bufTy : (tb : Table) → Fin (tcTables nBuf tb) → BufTy
  | .hbm, ⟨i, _⟩ => hbmTy i
  | .local _ .vmem, ⟨0, _⟩ => ⟨S2000x373, .f32⟩
  | .local _ .vmem, ⟨1, _⟩ => ⟨S2000x373, .f32⟩
  | .local _ .vmem, ⟨2, _⟩ => ⟨S373x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S1000x1, .i32⟩
  | .local _ .vmem, ⟨16, _⟩ => ⟨S1000x1, .i32⟩
  | .local _ .vmem, ⟨17, _⟩ => ⟨S1000x128, .f32⟩
  | .local _ .vmem, ⟨18, _⟩ => ⟨S1000x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S128x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S64x1, .f32⟩
  | .local _ .vmem, ⟨31, _⟩ => ⟨S1x1, .f32⟩
  | .local _ .vmem, ⟨32, _⟩ => ⟨S1024x1, .f32⟩
  | _, _ => ⟨S50000x373, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_cst : Ref sig .tc := ⟨.hbm, 35, rfl⟩
abbrev main_v4 : Ref sig .tc := ⟨.hbm, 36, rfl⟩
abbrev main_cst_0 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst_1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_2 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_c : Ref sig .tc := ⟨.hbm, 50, rfl⟩
abbrev main_v15 : Ref sig .tc := ⟨.hbm, 51, rfl⟩
abbrev main_v16 : Ref sig .tc := ⟨.hbm, 52, rfl⟩
abbrev main_c_3 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_4 : Ref sig .tc := ⟨.hbm, 59, rfl⟩
abbrev main_v22 : Ref sig .tc := ⟨.hbm, 60, rfl⟩
abbrev main_v23 : Ref sig .tc := ⟨.hbm, 61, rfl⟩
abbrev main_c_5 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_c_6 : Ref sig .tc := ⟨.hbm, 71, rfl⟩
abbrev main_v32 : Ref sig .tc := ⟨.hbm, 72, rfl⟩
abbrev main_v33 : Ref sig .tc := ⟨.hbm, 73, rfl⟩
abbrev main_c_7 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_8 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_call0_cst : Ref sig .tc := ⟨.hbm, 92, rfl⟩
abbrev main_call0_v0 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_9 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_10 : Ref sig .tc := ⟨.hbm, 110, rfl⟩
abbrev main_v65 : Ref sig .tc := ⟨.hbm, 111, rfl⟩
abbrev main_v66 : Ref sig .tc := ⟨.hbm, 112, rfl⟩
abbrev main_c_11 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_12 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_call1_cst : Ref sig .tc := ⟨.hbm, 131, rfl⟩
abbrev main_call1_v0 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_13 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_c_14 : Ref sig .tc := ⟨.hbm, 149, rfl⟩
abbrev main_v98 : Ref sig .tc := ⟨.hbm, 150, rfl⟩
abbrev main_v99 : Ref sig .tc := ⟨.hbm, 151, rfl⟩
abbrev main_c_15 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_cst_16 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_call2_cst : Ref sig .tc := ⟨.hbm, 170, rfl⟩
abbrev main_call2_v0 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_17 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_scratch0 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg6_0 : Ref sig .tc := ⟨.vmem, 27, rfl⟩
abbrev cc4_stg7_0 : Ref sig .tc := ⟨.vmem, 28, rfl⟩
abbrev cc4_stg8_0 : Ref sig .tc := ⟨.vmem, 29, rfl⟩
abbrev cc4_stg9_0 : Ref sig .tc := ⟨.vmem, 30, rfl⟩
abbrev cc4_stg10_0 : Ref sig .tc := ⟨.vmem, 31, rfl⟩
abbrev cc4_stg11_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25
abbrev cc4_sem6_0 : DmaSem sig := 26
abbrev cc4_sem7_0 : DmaSem sig := 27
abbrev cc4_sem8_0 : DmaSem sig := 28
abbrev cc4_sem9_0 : DmaSem sig := 29
abbrev cc4_sem10_0 : DmaSem sig := 30
abbrev cc4_sem11_0 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x373 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S373x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_8 : BitVec 32 := 0#32
  let v22 : BitVec 1 := Scalar.cmpi .ne v21 c0_i32_8
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1024x1 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  inb_S2000x373_S2000x373_0_0 : ∀ a, (![0, 0] : Fin 2 → Nat) a + S2000x373.size a ≤ S2000x373.size a
  h_S2000x373 : 0 < S2000x373.numel
  bitsLt_bf16_f32 : FTy.bits .bf16 < FTy.bits .f32
  inb_S373x256_S373x256_0_0 : ∀ a, (![0, 0] : Fin 2 → Nat) a + S373x256.size a ≤ S373x256.size a
  h_S373x256 : 0 < S373x256.numel
  inb_S2000x256_S2000x256_0_0 : ∀ a, (![0, 0] : Fin 2 → Nat) a + S2000x256.size a ≤ S2000x256.size a
  h_S2000x256 : 0 < S2000x256.numel
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S50000_S50000x1 : S50000.ShapeCasts S50000x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x1024_d1_w32 : S1000x1024.Iotas .tc 32 [1]
  broadcasts_S1000x1_S1000x1024 : S1000x1.Broadcasts S1000x1024
  natLt_1_32 : 1 < 32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S64_S1x64 : S64.ShapeCasts S1x64
  shapeCasts_S1_S1x1 : S1.ShapeCasts S1x1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S1024x1_S1024 : S1024x1.ShapeCasts S1024
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  dot_S2000x373_S373x256_S2000x256_1_0_0_1_n_n_wf : DotDims.WF S2000x373 S373x256 S2000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x128_S2000x128_1_0_0_1_n_n_wf : DotDims.WF S2000x256 S256x128 S2000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S2000x128_S128x128_S2000x128_1_0_0_1_n_n_wf : DotDims.WF S2000x128 S128x128 S2000x128 [1] [0] [0] [1] [] []
  dot_S1000x1024_S1000x128_S1024x128_0_0_1_1_n_n_wf : DotDims.WF S1000x1024 S1000x128 S1024x128 [0] [0] [1] [1] [] []
  dot_S1024x128_S128x64_S1024x64_1_0_0_1_n_n_wf : DotDims.WF S1024x128 S128x64 S1024x64 [1] [0] [0] [1] [] []
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x373.size a ≤ S50000x373.size a
  hwx0_0 : ∀ i : grid0.Coords, EltTy.bits .f32 = 32 ∨ (Rect.block (s := S50000x373) S2000x373.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S373x256.size a ≤ S373x256.size a
  hwx0_1 : ∀ i : grid0.Coords, EltTy.bits .f32 = 32 ∨ (Rect.block (s := S373x256) S373x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x1.size a ≤ S50000x1.size a
  hwx3_0 : ∀ i : grid3.Coords, EltTy.bits .i32 = 32 ∨ (Rect.block (s := S50000x1) S1000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S50000x128.size a
  hwx3_1 : ∀ i : grid3.Coords, EltTy.bits .f32 = 32 ∨ (Rect.block (s := S50000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S1024x128.size a
  hwx3_2 : ∀ i : grid3.Coords, EltTy.bits .f32 = 32 ∨ (Rect.block (s := S1024x128) S1024x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S1024x128.size a
  hwx4_0 : ∀ i : grid4.Coords, EltTy.bits .f32 = 32 ∨ (Rect.block (s := S1024x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x64.size a ≤ S64x64.size a
  hwx4_7 : ∀ i : grid4.Coords, EltTy.bits .f32 = 32 ∨ (Rect.block (s := S64x64) S64x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x1.size a ≤ S64x1.size a
  hwx4_9 : ∀ i : grid4.Coords, EltTy.bits .f32 = 32 ∨ (Rect.block (s := S64x1) S64x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x1.size a ≤ S1x1.size a
  hwx4_10 : ∀ i : grid4.Coords, EltTy.bits .f32 = 32 ∨ (Rect.block (s := S1x1) S1x1.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1024x1.size a ≤ S1024x1.size a
  hwx4_11 : ∀ i : grid4.Coords, EltTy.bits .f32 = 32 ∨ (Rect.block (s := S1024x1) S1024x1.size (cc4_transform_11 i) (hinb4_11 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def dot_S2000x373_S373x256_S2000x256_1_0_0_1_n_n : DotDims S2000x373 S373x256 S2000x256 where
  lhsContracting := [1]
  rhsContracting := [0]
  lhsNonContracting := [0]
  rhsNonContracting := [1]
  lhsBatch := []
  rhsBatch := []
  wf := dot_S2000x373_S373x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x1024_S1000x128_S1024x128_0_0_1_1_n_n : DotDims S1000x1024 S1000x128 S1024x128 where
  lhsContracting := [0]
  rhsContracting := [0]
  lhsNonContracting := [1]
  rhsNonContracting := [1]
  lhsBatch := []
  rhsBatch := []
  wf := dot_S1000x1024_S1000x128_S1024x128_0_0_1_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S2000x373.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S373x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v63) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v96) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg15) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v97) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v130) S1000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v129) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v131) S1024x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v131) S1024x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg21) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v132) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v133) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v134) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v135) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v136) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg27) S64x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v137) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg29) S64x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v138) S1x1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v139) S1024x1.size cc4_transform_11 reads4_11 true true 1 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S50000x373 : Shape := ⟨2, ![50000, 373]⟩
abbrev S2x400000 : Shape := ⟨2, ![2, 400000]⟩
abbrev S50000 : Shape := ⟨1, ![50000]⟩
abbrev S373x256 : Shape := ⟨2, ![373, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S50000x256 : Shape := ⟨2, ![50000, 256]⟩
abbrev S400000x256 : Shape := ⟨2, ![400000, 256]⟩
abbrev S50000x1 : Shape := ⟨2, ![50000, 1]⟩
abbrev S1x256 : Shape := ⟨2, ![1, 256]⟩
abbrev S50000x128 : Shape := ⟨2, ![50000, 128]⟩
abbrev S400000x128 : Shape := ⟨2, ![400000, 128]⟩
abbrev S1x128 : Shape := ⟨2, ![1, 128]⟩
abbrev S1024x128 : Shape := ⟨2, ![1024, 128]⟩
abbrev S1024x64 : Shape := ⟨2, ![1024, 64]⟩
abbrev S1x64 : Shape := ⟨2, ![1, 64]⟩
abbrev S1024x1 : Shape := ⟨2, ![1024, 1]⟩
abbrev S1x1 : Shape := ⟨2, ![1, 1]⟩
abbrev S1024 : Shape := ⟨1, ![1024]⟩

abbrev nBuf : Space → Nat
  | .hbm => 271
  | .vmem => 0
  | .smem => 0
  | _ => 0

abbrev hbmTy0_0 (i : Nat) : BufTy := match i % 128 with
  | 0 => ⟨S50000x373, .f32⟩
  | 1 => ⟨S2x400000, .i32⟩
  | 2 => ⟨S50000, .i32⟩
  | 3 => ⟨S373x256, .f32⟩
  | 4 => ⟨S256, .f32⟩
  | 5 => ⟨S256, .f32⟩
  | 6 => ⟨S256, .f32⟩
  | 7 => ⟨S256, .f32⟩
  | 8 => ⟨S256, .f32⟩
  | 9 => ⟨S256x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128x64, .f32⟩
  | 22 => ⟨S64, .f32⟩
  | 23 => ⟨S64, .f32⟩
  | 24 => ⟨S64, .f32⟩
  | 25 => ⟨S64, .f32⟩
  | 26 => ⟨S64, .f32⟩
  | 27 => ⟨S64x64, .f32⟩
  | 28 => ⟨S64, .f32⟩
  | 29 => ⟨S64x1, .f32⟩
  | 30 => ⟨S1, .f32⟩
  | 31 => ⟨S1x400000, .i32⟩
  | 32 => ⟨S400000, .i32⟩
  | 33 => ⟨S1x400000, .i32⟩
  | 34 => ⟨S400000, .i32⟩
  | 35 => ⟨S_, .f32⟩
  | 36 => ⟨S400000, .f32⟩
  | 37 => ⟨S_, .f32⟩
  | 38 => ⟨S50000, .f32⟩
  | 39 => ⟨S400000x1, .i32⟩
  | 40 => ⟨S50000, .f32⟩
  | 41 => ⟨S_, .f32⟩
  | 42 => ⟨S50000, .f32⟩
  | 43 => ⟨S50000, .f32⟩
  | 44 => ⟨S50000, .f32⟩
  | 45 => ⟨S_, .f32⟩
  | 46 => ⟨S50000, .f32⟩
  | 47 => ⟨S50000, .f32⟩
  | 48 => ⟨S50000x256, .f32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000, .f32⟩
  | 67 => ⟨S400000, .f32⟩
  | 68 => ⟨S_, .i32⟩
  | 69 => ⟨S400000, .i32⟩
  | 70 => ⟨S400000, .i1⟩
  | 71 => ⟨S_, .i32⟩
  | 72 => ⟨S400000, .i32⟩
  | 73 => ⟨S400000, .i32⟩
  | 74 => ⟨S400000, .i32⟩
  | 75 => ⟨S400000x1, .i32⟩
  | 76 => ⟨S400000x256, .f32⟩
  | 77 => ⟨S400000x1, .f32⟩
  | 78 => ⟨S400000x256, .f32⟩
  | 79 => ⟨S400000x256, .f32⟩
  | 80 => ⟨S_, .f32⟩
  | 81 => ⟨S50000x256, .f32⟩
  | 82 => ⟨S400000x1, .i32⟩
  | 83 => ⟨S50000x256, .f32⟩
  | 84 => ⟨S50000, .f32⟩
  | 85 => ⟨S50000x1, .f32⟩
  | 86 => ⟨S50000x256, .f32⟩
  | 87 => ⟨S50000x256, .f32⟩
  | 88 => ⟨S50000x256, .f32⟩
  | 89 => ⟨S1x256, .f32⟩
  | 90 => ⟨S50000x256, .f32⟩
  | 91 => ⟨S50000x256, .f32⟩
  | 92 => ⟨S_, .f32⟩
  | 93 => ⟨S50000x256, .f32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S256, .f32⟩
  | 100 => ⟨S256, .f32⟩
  | 101 => ⟨S256, .f32⟩
  | 102 => ⟨S256, .f32⟩
  | 103 => ⟨S1x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S50000x128, .f32⟩
  | 110 => ⟨S_, .i32⟩
  | 111 => ⟨S400000, .i32⟩
  | 112 => ⟨S400000, .i1⟩
  | 113 => ⟨S_, .i32⟩
  | 114 => ⟨S400000, .i32⟩
  | 115 => ⟨S400000, .i32⟩
  | 116 => ⟨S400000, .i32⟩
  | 117 => ⟨S400000x1, .i32⟩
  | 118 => ⟨S400000, .f32⟩
  | 119 => ⟨S_, .i32⟩
  | 120 => ⟨S400000, .i32⟩
  | 121 => ⟨S400000, .i1⟩
  | 122 => ⟨S_, .i32⟩
  | 123 => ⟨S400000, .i32⟩
  | 124 => ⟨S400000, .i32⟩
  | 125 => ⟨S400000, .i32⟩
  | 126 => ⟨S400000x1, .i32⟩
  | 127 => ⟨S400000, .f32⟩
  | _ => ⟨S50000x373, .f32⟩

abbrev hbmTy0_1 (i : Nat) : BufTy := match i % 128 with
  | 0 => ⟨S400000, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x128, .f32⟩
  | 10 => ⟨S400000x1, .f32⟩
  | 11 => ⟨S400000x128, .f32⟩
  | 12 => ⟨S400000x128, .f32⟩
  | 13 => ⟨S_, .f32⟩
  | 14 => ⟨S50000x128, .f32⟩
  | 15 => ⟨S400000x1, .i32⟩
  | 16 => ⟨S50000x128, .f32⟩
  | 17 => ⟨S50000, .f32⟩
  | 18 => ⟨S50000x1, .f32⟩
  | 19 => ⟨S50000x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S128, .f32⟩
  | 33 => ⟨S128, .f32⟩
  | 34 => ⟨S128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S50000x128, .f32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000, .f32⟩
  | 52 => ⟨S_, .i32⟩
  | 53 => ⟨S400000, .i32⟩
  | 54 => ⟨S400000, .i1⟩
  | 55 => ⟨S_, .i32⟩
  | 56 => ⟨S400000, .i32⟩
  | 57 => ⟨S400000, .i32⟩
  | 58 => ⟨S400000, .i32⟩
  | 59 => ⟨S400000x1, .i32⟩
  | 60 => ⟨S400000, .f32⟩
  | 61 => ⟨S400000, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x128, .f32⟩
  | 71 => ⟨S400000x1, .f32⟩
  | 72 => ⟨S400000x128, .f32⟩
  | 73 => ⟨S400000x128, .f32⟩
  | 74 => ⟨S_, .f32⟩
  | 75 => ⟨S50000x128, .f32⟩
  | 76 => ⟨S400000x1, .i32⟩
  | 77 => ⟨S50000x128, .f32⟩
  | 78 => ⟨S50000, .f32⟩
  | 79 => ⟨S50000x1, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S1024x128, .f32⟩
  | 105 => ⟨S50000x1, .i32⟩
  | 106 => ⟨S1024x128, .f32⟩
  | 107 => ⟨S1024x64, .f32⟩
  | 108 => ⟨S1x64, .f32⟩
  | 109 => ⟨S1024x64, .f32⟩
  | 110 => ⟨S1024x64, .f32⟩
  | 111 => ⟨S_, .f32⟩
  | 112 => ⟨S1024x64, .f32⟩
  | 113 => ⟨S1024x64, .f32⟩
  | 114 => ⟨S1x64, .f32⟩
  | 115 => ⟨S1024x64, .f32⟩
  | 116 => ⟨S1024x64, .f32⟩
  | 117 => ⟨S_, .f32⟩
  | 118 => ⟨S64, .f32⟩
  | 119 => ⟨S64, .f32⟩
  | 120 => ⟨S64, .f32⟩
  | 121 => ⟨S64, .f32⟩
  | 122 => ⟨S1x64, .f32⟩
  | 123 => ⟨S1024x64, .f32⟩
  | 124 => ⟨S1024x64, .f32⟩
  | 125 => ⟨S1x64, .f32⟩
  | 126 => ⟨S1024x64, .f32⟩
  | 127 => ⟨S1024x64, .f32⟩
  | _ => ⟨S50000x373, .f32⟩

abbrev hbmTy0_2 (i : Nat) : BufTy := match i % 128 with
  | 0 => ⟨S1024x64, .f32⟩
  | 1 => ⟨S1x64, .f32⟩
  | 2 => ⟨S1024x64, .f32⟩
  | 3 => ⟨S1024x64, .f32⟩
  | 4 => ⟨S_, .f32⟩
  | 5 => ⟨S1024x64, .f32⟩
  | 6 => ⟨S1024x64, .f32⟩
  | 7 => ⟨S1024x1, .f32⟩
  | 8 => ⟨S1x1, .f32⟩
  | 9 => ⟨S1024x1, .f32⟩
  | 10 => ⟨S1024x1, .f32⟩
  | 11 => ⟨S_, .f32⟩
  | 12 => ⟨S1024x1, .f32⟩
  | 13 => ⟨S1024x1, .f32⟩
  | 14 => ⟨S1024, .f32⟩
  | _ => ⟨S50000x373, .f32⟩

abbrev hbmTy (i : Nat) : BufTy := match i / 128 with
  | 0 => hbmTy0_0 i
  | 1 => hbmTy0_1 i
  | 2 => hbmTy0_2 i
  | _ => ⟨S50000x373, .f32⟩

abbrev bufTy : (tb : Table) → Fin (tcTables nBuf tb) → BufTy
  | .hbm, ⟨i, _⟩ => hbmTy i
  | _, _ => ⟨S50000x373, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_cst : Ref sig .tc := ⟨.hbm, 35, rfl⟩
abbrev main_v4 : Ref sig .tc := ⟨.hbm, 36, rfl⟩
abbrev main_cst_0 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst_1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_2 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_c : Ref sig .tc := ⟨.hbm, 49, rfl⟩
abbrev main_v14 : Ref sig .tc := ⟨.hbm, 50, rfl⟩
abbrev main_v15 : Ref sig .tc := ⟨.hbm, 51, rfl⟩
abbrev main_c_3 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_c_4 : Ref sig .tc := ⟨.hbm, 58, rfl⟩
abbrev main_v21 : Ref sig .tc := ⟨.hbm, 59, rfl⟩
abbrev main_v22 : Ref sig .tc := ⟨.hbm, 60, rfl⟩
abbrev main_c_5 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_c_6 : Ref sig .tc := ⟨.hbm, 68, rfl⟩
abbrev main_v29 : Ref sig .tc := ⟨.hbm, 69, rfl⟩
abbrev main_v30 : Ref sig .tc := ⟨.hbm, 70, rfl⟩
abbrev main_c_7 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_8 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_call0_cst : Ref sig .tc := ⟨.hbm, 92, rfl⟩
abbrev main_call0_v0 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_9 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_10 : Ref sig .tc := ⟨.hbm, 110, rfl⟩
abbrev main_v65 : Ref sig .tc := ⟨.hbm, 111, rfl⟩
abbrev main_v66 : Ref sig .tc := ⟨.hbm, 112, rfl⟩
abbrev main_c_11 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_c_12 : Ref sig .tc := ⟨.hbm, 119, rfl⟩
abbrev main_v72 : Ref sig .tc := ⟨.hbm, 120, rfl⟩
abbrev main_v73 : Ref sig .tc := ⟨.hbm, 121, rfl⟩
abbrev main_c_13 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_c_14 : Ref sig .tc := ⟨.hbm, 129, rfl⟩
abbrev main_v80 : Ref sig .tc := ⟨.hbm, 130, rfl⟩
abbrev main_v81 : Ref sig .tc := ⟨.hbm, 131, rfl⟩
abbrev main_c_15 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_16 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_call1_cst : Ref sig .tc := ⟨.hbm, 153, rfl⟩
abbrev main_call1_v0 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_17 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_c_18 : Ref sig .tc := ⟨.hbm, 171, rfl⟩
abbrev main_v116 : Ref sig .tc := ⟨.hbm, 172, rfl⟩
abbrev main_v117 : Ref sig .tc := ⟨.hbm, 173, rfl⟩
abbrev main_c_19 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_c_20 : Ref sig .tc := ⟨.hbm, 180, rfl⟩
abbrev main_v123 : Ref sig .tc := ⟨.hbm, 181, rfl⟩
abbrev main_v124 : Ref sig .tc := ⟨.hbm, 182, rfl⟩
abbrev main_c_21 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_c_22 : Ref sig .tc := ⟨.hbm, 190, rfl⟩
abbrev main_v131 : Ref sig .tc := ⟨.hbm, 191, rfl⟩
abbrev main_v132 : Ref sig .tc := ⟨.hbm, 192, rfl⟩
abbrev main_c_23 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_cst_24 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_call2_cst : Ref sig .tc := ⟨.hbm, 214, rfl⟩
abbrev main_call2_v0 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_25 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_cst_26 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_call3_cst : Ref sig .tc := ⟨.hbm, 239, rfl⟩
abbrev main_call3_v0 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_cst_27 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_call4_cst : Ref sig .tc := ⟨.hbm, 260, rfl⟩
abbrev main_call4_v0 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_call5_cst : Ref sig .tc := ⟨.hbm, 267, rfl⟩
abbrev main_call5_v0 : Ref sig .tc := ⟨.hbm, 268, rfl⟩
abbrev main_v196 : Ref sig .tc := ⟨.hbm, 269, rfl⟩
abbrev main_v197 : Ref sig .tc := ⟨.hbm, 270, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S1024x128 : S_.BroadcastsInDim S1024x128 (![] : Fin 0 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S_S64 : S_.BroadcastsInDim S64 (![] : Fin 0 → Fin S64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  shapeCasts_S1024x1_S1024 : S1024x1.ShapeCasts S1024
  scatter_S50000_S400000x1_S400000_n_0_0_1_wf : ScatterDims.WF S50000 S400000x1 S400000 [] [0] [0] 1
  dot_S50000x373_S373x256_S50000x256_1_0_0_1_n_n_wf : DotDims.WF S50000x373 S373x256 S50000x256 [1] [0] [0] [1] [] []
  gather_S50000_S400000x1_S400000_n_0_n_n_0_1_1_wf : GatherDims.WF S50000 S400000x1 S400000 [] [0] [] [0] [] 1 ![1]
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x128_S50000x128_1_0_0_1_n_n_wf : DotDims.WF S50000x256 S256x128 S50000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S50000x128_S128x128_S50000x128_1_0_0_1_n_n_wf : DotDims.WF S50000x128 S128x128 S50000x128 [1] [0] [0] [1] [] []
  scatter_S1024x128_S50000x1_S50000x128_1_0_0_1_wf : ScatterDims.WF S1024x128 S50000x1 S50000x128 [1] [0] [0] 1
  dot_S1024x128_S128x64_S1024x64_1_0_0_1_n_n_wf : DotDims.WF S1024x128 S128x64 S1024x64 [1] [0] [0] [1] [] []
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x373_S373x256_S50000x256_1_0_0_1_n_n : DotDims S50000x373 S373x256 S50000x256 where
  lhsContracting := [1]
  rhsContracting := [0]
  lhsNonContracting := [0]
  rhsNonContracting := [1]
  lhsBatch := []
  rhsBatch := []
  wf := dot_S50000x373_S373x256_S50000x256_1_0_0_1_n_n_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.K.Mm0Def.lean ====
import proofs.«402287_j53498112639137_1_alg».proof.Proof.Gen.Kernel.Launch
import proofs.«402287_j53498112639137_1_alg».proof.Proof.Gen.Kernel.Skeleton
import proofs.«402287_j53498112639137_1_alg».proof.Proof.Gen.Kernel.Points
import Idealize.ShloMosaic.Lib.Pipeline.FrameBody

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x373 := Rect.unit (s := S2000x373) ![0, 0] S2000x373.size inb_S2000x373_S2000x373_0_0

abbrev r0_1 : Rect S373x256 := Rect.unit (s := S373x256) ![0, 0] S373x256.size inb_S373x256_S373x256_0_0

abbrev r0_2 : Rect S2000x256 := Rect.unit (s := S2000x256) ![0, 0] S2000x256.size inb_S2000x256_S2000x256_0_0

def out0_2 (x0 : Vec F S2000x373 .f32) (x1 : Vec F S373x256 .f32) : Vec F S2000x256 .f32 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

end Cert.Kernel.Hand

end
-- ==== Proof.K.Mm1Def.lean ====
import proofs.«402287_j53498112639137_1_alg».proof.Proof.Gen.Kernel.Launch
import proofs.«402287_j53498112639137_1_alg».proof.Proof.Gen.Kernel.Skeleton
import proofs.«402287_j53498112639137_1_alg».proof.Proof.Gen.Kernel.Points
import Idealize.ShloMosaic.Lib.Pipeline.FrameBody

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x256 := Rect.unit (s := S2000x256) ![0, 0] S2000x256.size inb_S2000x256_S2000x256_0_0

abbrev r1_1 : Rect S256x128 := Rect.unit (s := S256x128) ![0, 0] S256x128.size inb_S256x128_S256x128_0_0

abbrev r1_2 : Rect S2000x128 := Rect.unit (s := S2000x128) ![0, 0] S2000x128.size inb_S2000x128_S2000x128_0_0

def out1_2 (x0 : Vec F S2000x256 .f32) (x1 : Vec F S256x128 .f32) : Vec F S2000x128 .f32 :=
  View.canon [⟨r1_2, k1_pay1 (View.ld x0 r1_0) (View.ld x1 r1_1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

end Cert.Kernel.Hand

end
-- ==== Proof.K.Mm2Def.lean ====
import proofs.«402287_j53498112639137_1_alg».proof.Proof.Gen.Kernel.Launch
import proofs.«402287_j53498112639137_1_alg».proof.Proof.Gen.Kernel.Skeleton
import proofs.«402287_j53498112639137_1_alg».proof.Proof.Gen.Kernel.Points
import Idealize.ShloMosaic.Lib.Pipeline.FrameBody

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0

abbrev r2_1 : Rect S128x128 := Rect.unit (s := S128x128) ![0, 0] S128x128.size inb_S128x128_S128x128_0_0

abbrev r2_2 : Rect S2000x128 := Rect.unit (s := S2000x128) ![0, 0] S2000x128.size inb_S2000x128_S2000x128_0_0

def out2_2 (x0 : Vec F S2000x128 .f32) (x1 : Vec F S128x128 .f32) : Vec F S2000x128 .f32 :=
  View.canon [⟨r2_2, k2_pay1 (View.ld x0 r2_0) (View.ld x1 r2_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

end Cert.Kernel.Hand

end
-- ==== Proof.K.PoolDef.lean ====
import proofs.«402287_j53498112639137_1_alg».proof.Proof.Gen.Kernel.Launch
import proofs.«402287_j53498112639137_1_alg».proof.Proof.Gen.Kernel.Skeleton
import proofs.«402287_j53498112639137_1_alg».proof.Proof.Gen.Kernel.Points
import Idealize.ShloMosaic.Lib.Pipeline.FrameBody

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def step3 (c : Dev nD) (n : ℕ) (a : Vec F S1024x128 .f32) : Vec F S1024x128 .f32 :=
  if h : n < cfg3.N then k3_pay2 (iblk3 V c 0 ⟨n, h⟩) (iblk3 V c 1 ⟨n, h⟩) a else a

def acc3 (c : Dev nD) : ℕ → Vec F S1024x128 .f32
  | 0 => step3 V c 0 k3_pay1
  | n + 1 => step3 V c (n + 1) (acc3 c n)

theorem acc3_zero (c : Dev nD) : acc3 V c 0 = step3 V c 0 k3_pay1 := rfl
theorem acc3_succ (c : Dev nD) (n : ℕ) : acc3 V c (n + 1) = step3 V c (n + 1) (acc3 V c n) := rfl

theorem step3_at (c : Dev nD) (t : Fin cfg3.N) (a : Vec F S1024x128 .f32) :
    step3 V c t.val a = k3_pay2 (iblk3 V c 0 t) (iblk3 V c 1 t) a := by
  unfold step3; rw [dif_pos t.isLt]

theorem acc3_first (c : Dev nD) (t : Fin cfg3.N) (h : t.val = 0) :
    acc3 V c t.val = k3_pay2 (iblk3 V c 0 t) (iblk3 V c 1 t) k3_pay1 := by
  rw [← step3_at V c t k3_pay1, h]; rfl

theorem acc3_later (c : Dev nD) (t : Fin cfg3.N) (h : t.val ≠ 0) :
    acc3 V c t.val = k3_pay2 (iblk3 V c 0 t) (iblk3 V c 1 t) (acc3 V c (t.val - 1)) := by
  rw [← step3_at V c t (acc3 V c (t.val - 1))]
  obtain ⟨k, hk⟩ := Nat.exists_eq_succ_of_ne_zero h
  rw [hk]; rfl

abbrev scr3 : Memref sig .tc .vmem S1024x128 .f32 := Memref.whole cc3_scratch0

def scrAt3 (c : Dev nD) (n : ℕ) : sProp 𝕄 :=
  if n = 0 then iprop(∃ f : Vec F S1024x128 .f32, owns (c : Thread nD τ) scr3 fullShare f)
  else owns (c : Thread nD τ) scr3 fullShare (acc3 V c (n - 1))

theorem scrAt3_zero (c : Dev nD) :
    scrAt3 V c 0 = iprop(∃ f : Vec F S1024x128 .f32, owns (c : Thread nD τ) scr3 fullShare f) := by
  unfold scrAt3; rw [if_pos rfl]

theorem scrAt3_pos (c : Dev nD) (n : ℕ) (h : n ≠ 0) :
    scrAt3 V c n = owns (c : Thread nD τ) scr3 fullShare (acc3 V c (n - 1)) := by
  unfold scrAt3; rw [if_neg h]

theorem scrAt3_succ (c : Dev nD) (n : ℕ) :
    scrAt3 V c (n + 1) = owns (c : Thread nD τ) scr3 fullShare (acc3 V c n) := by
  rw [scrAt3_pos V c (n + 1) (Nat.succ_ne_zero n)]; rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val
  Φ j := iprop(scrAt3 V c j.val
    ∗ Pipeline.scopedRestBut (Ix := Unit) (Name := ℕ) (U := UR sig nD τ) (Lvl := ℕ) (Val := Elt F) spec3 c [cc3_scratch0]
    ∗ ∃ r, prngReg c r)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val := by dsimp only [dat3]

theorem Phi3_eq (c : Dev nD) (j : Fin (cfg3.N + 1)) :
    (dat3 V c).Φ j = iprop(scrAt3 V c j.val
      ∗ Pipeline.scopedRestBut (Ix := Unit) (Name := ℕ) (U := UR sig nD τ) (Lvl := ℕ) (Val := Elt F) spec3 c [cc3_scratch0]
      ∗ ∃ r, prngReg c r) := by
  dsimp only [dat3]

end Cert.Kernel.Hand

end
-- ==== Proof.K.MlpDef.lean ====
import proofs.«402287_j53498112639137_1_alg».proof.Proof.Gen.Kernel.Launch
import proofs.«402287_j53498112639137_1_alg».proof.Proof.Gen.Kernel.Skeleton
import proofs.«402287_j53498112639137_1_alg».proof.Proof.Gen.Kernel.Points
import Idealize.ShloMosaic.Lib.Pipeline.FrameBody

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_S1024x128 : Rect S1024x128 := Rect.unit (s := S1024x128) ![0, 0] S1024x128.size inb_S1024x128_S1024x128_0_0
abbrev r4_S128x64 : Rect S128x64 := Rect.unit (s := S128x64) ![0, 0] S128x64.size inb_S128x64_S128x64_0_0
abbrev r4_S1x64 : Rect S1x64 := Rect.unit (s := S1x64) ![0, 0] S1x64.size inb_S1x64_S1x64_0_0
abbrev r4_S64x64 : Rect S64x64 := Rect.unit (s := S64x64) ![0, 0] S64x64.size inb_S64x64_S64x64_0_0
abbrev r4_S64x1 : Rect S64x1 := Rect.unit (s := S64x1) ![0, 0] S64x1.size inb_S64x1_S64x1_0_0
abbrev r4_S1x1 : Rect S1x1 := Rect.unit (s := S1x1) ![0, 0] S1x1.size inb_S1x1_S1x1_0_0
abbrev r4_S1024x1 : Rect S1024x1 := Rect.unit (s := S1024x1) ![0, 0] S1024x1.size inb_S1024x1_S1024x1_0_0

def out4_11 (x0 : Vec F S1024x128 .f32) (x1 : Vec F S128x64 .f32) (x2 : Vec F S1x64 .f32) (x3 : Vec F S1x64 .f32) (x4 : Vec F S1x64 .f32) (x5 : Vec F S1x64 .f32) (x6 : Vec F S1x64 .f32) (x7 : Vec F S64x64 .f32) (x8 : Vec F S1x64 .f32) (x9 : Vec F S64x1 .f32) (x10 : Vec F S1x1 .f32) : Vec F S1024x1 .f32 :=
  View.canon [⟨r4_S1024x1,
    k4_pay1
      (k4_pay2 (View.ld x0 r4_S1024x128) (View.ld x1 r4_S128x64) (View.ld x2 r4_S1x64) (View.ld x5 r4_S1x64)
        (View.ld x3 r4_S1x64) (View.ld x6 r4_S1x64) (View.ld x4 r4_S1x64) (View.ld x7 r4_S64x64))
      (k4_pay3 (View.ld x8 r4_S1x64))
      (View.ld x9 r4_S64x1) (View.ld x10 r4_S1x1)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]

end Cert.Kernel.Hand

end
-- ==== Proof.K.Fold.lean ====
import proofs.«402287_j53498112639137_1_alg».proof.Proof.K.Mm0Def
import proofs.«402287_j53498112639137_1_alg».proof.Proof.K.Mm1Def
import proofs.«402287_j53498112639137_1_alg».proof.Proof.K.Mm2Def
import proofs.«402287_j53498112639137_1_alg».proof.Proof.K.PoolDef
import proofs.«402287_j53498112639137_1_alg».proof.Proof.K.MlpDef
import proofs.«402287_j53498112639137_1_alg».proof.Proof.Gen.Kernel.Regions
import Idealize.ShloMosaic.Lib.Pipeline.FrameSuffix
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)

variable {F : FTy → Type} [FloatOps F]

variable (m : (ℓ : Loc nD τ sig) → Buf (Elt F) ℓ)

abbrev W0 (c : Dev nD) : Valuation τ sig (Elt F) := fun b => m (c, b)
abbrev V0 : (c : Dev nD) → (b : Ref sig .tc) → Buf (Elt F) ((c : Thread nD τ).loc b) := fun c b => W0 m c b

abbrev W1 (c : Dev nD) : Valuation τ sig (Elt F) := StableHlo.after hostOps0 (W0 m c)
abbrev V1 : (c : Dev nD) → (b : Ref sig .tc) → Buf (Elt F) ((c : Thread nD τ).loc b) := fun c b => W1 m c b

theorem W1_of (c : Dev nD) (r : Ref sig .tc) (h : r ∉ hostOps0_W) : W1 m c r = W0 m c r :=
  StableHlo.after_of_writes_sub hostOps0 _ hostOps0_writes h

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W2_of (c : Dev nD) (r : Ref sig .tc) (h : r ≠ main_v31) : W2 m c r = W1 m c r := by
  by_cases h0 : r = main_arg0
  · subst h0; exact (W2_arr m c 0).trans (((dat0 (V1 m) c).arrAt_in 0 rfl _).trans (A_eq0 (V1 m) c 0))
  by_cases h1 : r = main_arg3
  · subst h1; exact (W2_arr m c 1).trans (((dat0 (V1 m) c).arrAt_in 1 rfl _).trans (A_eq0 (V1 m) c 1))
  exact W2_of_ne m c r (fun w => by
    fin_cases w
    · exact fun e => h0 e.symm
    · exact fun e => h1 e.symm
    · exact fun e => h e.symm)

abbrev W3 (c : Dev nD) : Valuation τ sig (Elt F) := StableHlo.after hostOps1 (W2 m c)
abbrev V3 : (c : Dev nD) → (b : Ref sig .tc) → Buf (Elt F) ((c : Thread nD τ).loc b) := fun c b => W3 m c b

theorem W3_of (c : Dev nD) (r : Ref sig .tc) (h : r ∉ hostOps1_W) : W3 m c r = W2 m c r :=
  StableHlo.after_of_writes_sub hostOps1 _ hostOps1_writes h

abbrev W4 (c : Dev nD) : Valuation τ sig (Elt F) := StableHlo.after hostOps1_1 (W3 m c)
abbrev V4 : (c : Dev nD) → (b : Ref sig .tc) → Buf (Elt F) ((c : Thread nD τ).loc b) := fun c b => W4 m c b

theorem W4_of (c : Dev nD) (r : Ref sig .tc) (h : r ∉ hostOps1_1_W) : W4 m c r = W3 m c r :=
  StableHlo.after_of_writes_sub hostOps1_1 _ hostOps1_1_writes h

abbrev W5 (c : Dev nD) : Valuation τ sig (Elt F) := StableHlo.after hostOps1_2 (W4 m c)
abbrev V5 : (c : Dev nD) → (b : Ref sig .tc) → Buf (Elt F) ((c : Thread nD τ).loc b) := fun c b => W5 m c b

theorem W5_of (c : Dev nD) (r : Ref sig .tc) (h : r ∉ hostOps1_2_W) : W5 m c r = W4 m c r :=
  StableHlo.after_of_writes_sub hostOps1_2 _ hostOps1_2_writes h

def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

theorem W6_of (c : Dev nD) (r : Ref sig .tc) (h : r ≠ main_v64) : W6 m c r = W5 m c r := by
  by_cases h0 : r = main_v63
  · subst h0; exact (W6_arr m c 0).trans (((dat1 (V5 m) c).arrAt_in 0 rfl _).trans (A_eq1 (V5 m) c 0))
  by_cases h1 : r = main_arg9
  · subst h1; exact (W6_arr m c 1).trans (((dat1 (V5 m) c).arrAt_in 1 rfl _).trans (A_eq1 (V5 m) c 1))
  exact W6_of_ne m c r (fun w => by
    fin_cases w
    · exact fun e => h0 e.symm
    · exact fun e => h1 e.symm
    · exact fun e => h e.symm)

abbrev W7 (c : Dev nD) : Valuation τ sig (Elt F) := StableHlo.after hostOps2 (W6 m c)
abbrev V7 : (c : Dev nD) → (b : Ref sig .tc) → Buf (Elt F) ((c : Thread nD τ).loc b) := fun c b => W7 m c b

theorem W7_of (c : Dev nD) (r : Ref sig .tc) (h : r ∉ hostOps2_W) : W7 m c r = W6 m c r :=
  StableHlo.after_of_writes_sub hostOps2 _ hostOps2_writes h

abbrev W8 (c : Dev nD) : Valuation τ sig (Elt F) := StableHlo.after hostOps2_1 (W7 m c)
abbrev V8 : (c : Dev nD) → (b : Ref sig .tc) → Buf (Elt F) ((c : Thread nD τ).loc b) := fun c b => W8 m c b

theorem W8_of (c : Dev nD) (r : Ref sig .tc) (h : r ∉ hostOps2_1_W) : W8 m c r = W7 m c r :=
  StableHlo.after_of_writes_sub hostOps2_1 _ hostOps2_1_writes h

abbrev W9 (c : Dev nD) : Valuation τ sig (Elt F) := StableHlo.after hostOps2_2 (W8 m c)
abbrev V9 : (c : Dev nD) → (b : Ref sig .tc) → Buf (Elt F) ((c : Thread nD τ).loc b) := fun c b => W9 m c b

theorem W9_of (c : Dev nD) (r : Ref sig .tc) (h : r ∉ hostOps2_2_W) : W9 m c r = W8 m c r :=
  StableHlo.after_of_writes_sub hostOps2_2 _ hostOps2_2_writes h

def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)

theorem W10_of (c : Dev nD) (r : Ref sig .tc) (h : r ≠ main_v97) : W10 m c r = W9 m c r := by
  by_cases h0 : r = main_v96
  · subst h0; exact (W10_arr m c 0).trans (((dat2 (V9 m) c).arrAt_in 0 rfl _).trans (A_eq2 (V9 m) c 0))
  by_cases h1 : r = main_arg15
  · subst h1; exact (W10_arr m c 1).trans (((dat2 (V9 m) c).arrAt_in 1 rfl _).trans (A_eq2 (V9 m) c 1))
  exact W10_of_ne m c r (fun w => by
    fin_cases w
    · exact fun e => h0 e.symm
    · exact fun e => h1 e.symm
    · exact fun e => h e.symm)

abbrev W11 (c : Dev nD) : Valuation τ sig (Elt F) := StableHlo.after hostOps3 (W10 m c)
abbrev V11 : (c : Dev nD) → (b : Ref sig .tc) → Buf (Elt F) ((c : Thread nD τ).loc b) := fun c b => W11 m c b

theorem W11_of (c : Dev nD) (r : Ref sig .tc) (h : r ∉ hostOps3_W) : W11 m c r = W10 m c r :=
  StableHlo.after_of_writes_sub hostOps3 _ hostOps3_writes h

abbrev W12 (c : Dev nD) : Valuation τ sig (Elt F) := StableHlo.after hostOps3_1 (W11 m c)
abbrev V12 : (c : Dev nD) → (b : Ref sig .tc) → Buf (Elt F) ((c : Thread nD τ).loc b) := fun c b => W12 m c b

theorem W12_of (c : Dev nD) (r : Ref sig .tc) (h : r ∉ hostOps3_1_W) : W12 m c r = W11 m c r :=
  StableHlo.after_of_writes_sub hostOps3_1 _ hostOps3_1_writes h

abbrev W13 (c : Dev nD) : Valuation τ sig (Elt F) := StableHlo.after hostOps3_2 (W12 m c)
abbrev V13 : (c : Dev nD) → (b : Ref sig .tc) → Buf (Elt F) ((c : Thread nD τ).loc b) := fun c b => W13 m c b

theorem W13_of (c : Dev nD) (r : Ref sig .tc) (h : r ∉ hostOps3_2_W) : W13 m c r = W12 m c r :=
  StableHlo.after_of_writes_sub hostOps3_2 _ hostOps3_2_writes h

def W14 (c : Dev nD) : Valuation τ sig (Elt F) :=
  Pipeline.withArrays spec3 c (W13 m c) fun w => (dat3 (V13 m) c).arrAt w cfg3.N
theorem W14_arr (c : Dev nD) (w : Fin cfg3.W) :
    W14 m c (Proc.devRef .tc (Pipeline.arrRef spec3 w)) = (dat3 (V13 m) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
abbrev V14 : (c : Dev nD) → (b : Ref sig .tc) → Buf (Elt F) ((c : Thread nD τ).loc b) := fun c b => W14 m c b
theorem hF3 (c : Dev nD) (w : Fin cfg3.W) : (dat3 (V13 m) c).arrAt w cfg3.N = V14 m c (Pipeline.arrRef spec3 w) :=
  (W14_arr m c w).symm
theorem hrest3 (c : Dev nD) : ∀ b, b ∉ Finset.univ.image (Pipeline.arrRef spec3) → V14 m c b = V13 m c b :=
  fun b hb => W14_of_ne m c b fun w e => hb (Finset.mem_image.mpr ⟨w, Finset.mem_univ _, e⟩)

theorem W14_of (c : Dev nD) (r : Ref sig .tc) (h : r ≠ main_v131) : W14 m c r = W13 m c r := by
  by_cases h0 : r = main_v130
  · subst h0; exact (W14_arr m c 0).trans (((dat3 (V13 m) c).arrAt_in 0 rfl _).trans (A_eq3 (V13 m) c 0))
  by_cases h1 : r = main_v129
  · subst h1; exact (W14_arr m c 1).trans (((dat3 (V13 m) c).arrAt_in 1 rfl _).trans (A_eq3 (V13 m) c 1))
  exact W14_of_ne m c r (fun w => by
    fin_cases w
    · exact fun e => h0 e.symm
    · exact fun e => h1 e.symm
    · exact fun e => h e.symm)

abbrev W15 (c : Dev nD) : Valuation τ sig (Elt F) := StableHlo.after hostOps4 (W14 m c)
abbrev V15 : (c : Dev nD) → (b : Ref sig .tc) → Buf (Elt F) ((c : Thread nD τ).loc b) := fun c b => W15 m c b

theorem W15_of (c : Dev nD) (r : Ref sig .tc) (h : r ∉ hostOps4_W) : W15 m c r = W14 m c r :=
  StableHlo.after_of_writes_sub hostOps4 _ hostOps4_writes h

def W16 (c : Dev nD) : Valuation τ sig (Elt F) :=
  Pipeline.withArrays spec4 c (W15 m c) fun w => (dat4 (V15 m) c).arrAt w cfg4.N
theorem W16_arr (c : Dev nD) (w : Fin cfg4.W) :
    W16 m c (Proc.devRef .tc (Pipeline.arrRef spec4 w)) = (dat4 (V15 m) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m c (Proc.devRef .tc b) = W15 m c (Proc.devRef .tc b) := by
  unfold W16; exact Pipeline.withArrays_of_ne spec4 c _ _ b hb
abbrev V16 : (c : Dev nD) → (b : Ref sig .tc) → Buf (Elt F) ((c : Thread nD τ).loc b) := fun c b => W16 m c b
theorem hF4 (c : Dev nD) (w : Fin cfg4.W) : (dat4 (V15 m) c).arrAt w cfg4.N = V16 m c (Pipeline.arrRef spec4 w) :=
  (W16_arr m c w).symm
theorem hrest4 (c : Dev nD) : ∀ b, b ∉ Finset.univ.image (Pipeline.arrRef spec4) → V16 m c b = V15 m c b :=
  fun b hb => W16_of_ne m c b fun w e => hb (Finset.mem_image.mpr ⟨w, Finset.mem_univ _, e⟩)

theorem W16_of (c : Dev nD) (r : Ref sig .tc) (h : r ≠ main_v139) : W16 m c r = W15 m c r := by
  by_cases h0 : r = main_v131
  · subst h0; exact (W16_arr m c 0).trans (((dat4 (V15 m) c).arrAt_in 0 rfl _).trans (A_eq4 (V15 m) c 0))
  by_cases h1 : r = main_arg21
  · subst h1; exact (W16_arr m c 1).trans (((dat4 (V15 m) c).arrAt_in 1 rfl _).trans (A_eq4 (V15 m) c 1))
  by_cases h2 : r = main_v132
  · subst h2; exact (W16_arr m c 2).trans (((dat4 (V15 m) c).arrAt_in 2 rfl _).trans (A_eq4 (V15 m) c 2))
  by_cases h3 : r = main_v133
  · subst h3; exact (W16_arr m c 3).trans (((dat4 (V15 m) c).arrAt_in 3 rfl _).trans (A_eq4 (V15 m) c 3))
  by_cases h4 : r = main_v134
  · subst h4; exact (W16_arr m c 4).trans (((dat4 (V15 m) c).arrAt_in 4 rfl _).trans (A_eq4 (V15 m) c 4))
  by_cases h5 : r = main_v135
  · subst h5; exact (W16_arr m c 5).trans (((dat4 (V15 m) c).arrAt_in 5 rfl _).trans (A_eq4 (V15 m) c 5))
  by_cases h6 : r = main_v136
  · subst h6; exact (W16_arr m c 6).trans (((dat4 (V15 m) c).arrAt_in 6 rfl _).trans (A_eq4 (V15 m) c 6))
  by_cases h7 : r = main_arg27
  · subst h7; exact (W16_arr m c 7).trans (((dat4 (V15 m) c).arrAt_in 7 rfl _).trans (A_eq4 (V15 m) c 7))
  by_cases h8 : r = main_v137
  · subst h8; exact (W16_arr m c 8).trans (((dat4 (V15 m) c).arrAt_in 8 rfl _).trans (A_eq4 (V15 m) c 8))
  by_cases h9 : r = main_arg29
  · subst h9; exact (W16_arr m c 9).trans (((dat4 (V15 m) c).arrAt_in 9 rfl _).trans (A_eq4 (V15 m) c 9))
  by_cases h10 : r = main_v138
  · subst h10; exact (W16_arr m c 10).trans (((dat4 (V15 m) c).arrAt_in 10 rfl _).trans (A_eq4 (V15 m) c 10))
  exact W16_of_ne m c r (fun w => by
    fin_cases w
    · exact fun e => h0 e.symm
    · exact fun e => h1 e.symm
    · exact fun e => h2 e.symm
    · exact fun e => h3 e.symm
    · exact fun e => h4 e.symm
    · exact fun e => h5 e.symm
    · exact fun e => h6 e.symm
    · exact fun e => h7 e.symm
    · exact fun e => h8 e.symm
    · exact fun e => h9 e.symm
    · exact fun e => h10 e.symm
    · exact fun e => h e.symm)

abbrev W17 (c : Dev nD) : Valuation τ sig (Elt F) := StableHlo.after hostOps5 (W16 m c)
abbrev V17 : (c : Dev nD) → (b : Ref sig .tc) → Buf (Elt F) ((c : Thread nD τ).loc b) := fun c b => W17 m c b

theorem W17_of (c : Dev nD) (r : Ref sig .tc) (h : r ∉ hostOps5_W) : W17 m c r = W16 m c r :=
  StableHlo.after_of_writes_sub hostOps5 _ hostOps5_writes h

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30]

-- No stretch of host operations writes an argument array, and none is a region's output.
theorem args_clear : ∀ r ∈ args, ¬ (Proc.devRef .tc r : DevRef τ sig).isScoped ∧
    r ∉ hostOps0_W ∧ r ≠ main_v31 ∧ r ∉ hostOps1_W ∧ r ∉ hostOps1_1_W ∧ r ∉ hostOps1_2_W ∧
    r ≠ main_v64 ∧ r ∉ hostOps2_W ∧ r ∉ hostOps2_1_W ∧ r ∉ hostOps2_2_W ∧
    r ≠ main_v97 ∧ r ∉ hostOps3_W ∧ r ∉ hostOps3_1_W ∧ r ∉ hostOps3_2_W ∧
    r ≠ main_v131 ∧ r ∉ hostOps4_W ∧ r ≠ main_v139 ∧ r ∉ hostOps5_W := by decide

-- So it holds the launch contents at every boundary; stated at the boundaries that are read.
theorem W_args (c : Dev nD) {r : Ref sig .tc} (hr : r ∈ args) :
    W1 m c r = m ((c : Thread nD τ).loc r) ∧ W5 m c r = m ((c : Thread nD τ).loc r) ∧ W9 m c r = m ((c : Thread nD τ).loc r) ∧ W12 m c r = m ((c : Thread nD τ).loc r)
      ∧ W14 m c r = m ((c : Thread nD τ).loc r) ∧ W15 m c r = m ((c : Thread nD τ).loc r) ∧ W17 m c r = m ((c : Thread nD τ).loc r) := by
  obtain ⟨-, h0, h1, h2, h3, h4, h5, h6, h7, h8, h9, h10, h11, h12, h13, h14, h15, h16⟩ := args_clear r hr
  have e1 := W1_of m c r h0
  have e5 := (W5_of m c r h4).trans <| (W4_of m c r h3).trans <| (W3_of m c r h2).trans <| (W2_of m c r h1).trans e1
  have e9 := (W9_of m c r h8).trans <| (W8_of m c r h7).trans <| (W7_of m c r h6).trans <| (W6_of m c r h5).trans e5
  have e12 := (W12_of m c r h11).trans <| (W11_of m c r h10).trans <| (W10_of m c r h9).trans e9
  have e14 := (W14_of m c r h13).trans <| (W13_of m c r h12).trans e12
  have e15 := (W15_of m c r h14).trans e14
  exact ⟨e1, e5, e9, e12, e14, e15, (W17_of m c r h16).trans <| (W16_of m c r h15).trans e15⟩

end Cert.Kernel.Hand

end
-- ==== Proof.K.Mm0.lean ====
import proofs.«402287_j53498112639137_1_alg».proof.Proof.K.Mm0Def
import Idealize.ShloMosaic.Lib.Tactic

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem cover0_2 (p0 : Vec F S2000x256 .f32) (y : S2000x256.Idx) :
    ∃ pc ∈ ([⟨r0_2, p0⟩] : List (View.Piece (Elt F) S2000x256 .f32)), y ∈ pc.1.set :=
  View.cover_of_tiled [⟨r0_2, p0⟩] S2000x256.size (by rfl) y

set_option maxHeartbeats 1000000 in
theorem sound_kernel0 (c : Dev nD) (E : Set ℕ) (i : grid0.Coords)
    (arg1 : Memref sig .tc .vmem S2000x373 .f32) (harg1 : arg1.IsWhole)
    (arg2 : Memref sig .tc .vmem S373x256 .f32) (harg2 : arg2.IsWhole)
    (arg3 : Memref sig .tc .vmem S2000x256 .f32) (harg3 : arg3.IsWhole)
    (x0 : Vec F S2000x373 .f32) (x1 : Vec F S373x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Mm1.lean ====
import proofs.«402287_j53498112639137_1_alg».proof.Proof.K.Mm1Def
import Idealize.ShloMosaic.Lib.Tactic

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem cover1_2 (p0 : Vec F S2000x128 .f32) (y : S2000x128.Idx) :
    ∃ pc ∈ ([⟨r1_2, p0⟩] : List (View.Piece (Elt F) S2000x128 .f32)), y ∈ pc.1.set :=
  View.cover_of_tiled [⟨r1_2, p0⟩] S2000x128.size (by rfl) y

set_option maxHeartbeats 1000000 in
theorem sound_kernel1 (c : Dev nD) (E : Set ℕ) (i : grid1.Coords)
    (arg1 : Memref sig .tc .vmem S2000x256 .f32) (harg1 : arg1.IsWhole)
    (arg2 : Memref sig .tc .vmem S256x128 .f32) (harg2 : arg2.IsWhole)
    (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Mm2.lean ====
import proofs.«402287_j53498112639137_1_alg».proof.Proof.K.Mm2Def
import Idealize.ShloMosaic.Lib.Tactic

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem cover2_2 (p0 : Vec F S2000x128 .f32) (y : S2000x128.Idx) :
    ∃ pc ∈ ([⟨r2_2, p0⟩] : List (View.Piece (Elt F) S2000x128 .f32)), y ∈ pc.1.set :=
  View.cover_of_tiled [⟨r2_2, p0⟩] S2000x128.size (by rfl) y

set_option maxHeartbeats 1000000 in
theorem sound_kernel2 (c : Dev nD) (E : Set ℕ) (i : grid2.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Pool.lean ====
import proofs.«402287_j53498112639137_1_alg».proof.Proof.K.PoolDef
import Idealize.ShloMosaic.Lib.Pipeline.Value
import Idealize.ShloMosaic.Lib.Tactic

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1

theorem hcond3_1 : ∀ t : Fin cfg3.N, cond3_1 (grid3.coords t) ↔ t.val = 49 :=
  (by decide +kernel : ∀ t : Fin grid3.N, cond3_1 (grid3.coords t) ↔ t.val = 49)

theorem hz2 : (![0, 0] : Fin 2 → ℕ) = fun _ => 0 := by funext a; fin_cases a <;> rfl

set_option maxHeartbeats 1000000 in
theorem sound_kernel3_A (c : Dev nD) (E : Set ℕ) (i : grid3.Coords)
    (arg1 : Memref sig .tc .vmem S1000x1 .i32) (harg1 : arg1.IsWhole) (arg2 : Memref sig .tc .vmem S1000x128 .f32) (harg2 : arg2.IsWhole)
    (arg3 : Memref sig .tc .vmem S1024x128 .f32) (harg3 : arg3.IsWhole) (arg4 : Memref sig .tc .vmem S1024x128 .f32) (harg4 : arg4.IsWhole)
    (hc0 : cond3_0 i) (hc1 : ¬cond3_1 i)
    (x0 : Vec F S1000x1 .i32) (x1 : Vec F S1000x128 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (k3_pay2 x0 x1 k3_pay1)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d4, %f4, -, H4⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H4
  ipureintro
  sl_unfold_run_names
  rw [View.read_writes_eq_canon _ _ _ (fun y => ⟨_, List.mem_cons_self, View.mem_set_unit_zero hz2 inb_S1024x128_S1024x128_0_0 y⟩),
    View.canon_cons_unit_zero (S := S1024x128) hz2]
  simp only [View.readAt_eq_ld, harg1.read_unread, harg2.read_unread,
    View.ld_unit_zero (S := S1000x1) hz2, View.ld_unit_zero (S := S1000x128) hz2, View.ld_unit_zero (S := S1024x128) hz2,
    View.readCov_unit_zero (S := S1024x128) _ hz2]

set_option maxHeartbeats 1000000 in
theorem sound_kernel3_B (c : Dev nD) (E : Set ℕ) (i : grid3.Coords)
    (arg1 : Memref sig .tc .vmem S1000x1 .i32) (harg1 : arg1.IsWhole) (arg2 : Memref sig .tc .vmem S1000x128 .f32) (harg2 : arg2.IsWhole)
    (arg3 : Memref sig .tc .vmem S1024x128 .f32) (harg3 : arg3.IsWhole) (arg4 : Memref sig .tc .vmem S1024x128 .f32) (harg4 : arg4.IsWhole)
    (hc0 : ¬cond3_0 i) (hc1 : ¬cond3_1 i)
    (x0 : Vec F S1000x1 .i32) (x1 : Vec F S1000x128 .f32) (xs : Vec F S1024x128 .f32) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1
            ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f4, %hf4, H4⟩, Hk⟩
  obtain rfl := harg1.eq_unread hf0; obtain rfl := harg2.eq_unread hf1; obtain rfl := harg4.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H4
  ipureintro
  sl_unfold_run_names
  rw [View.read_writes_eq_canon _ _ _ (fun y => ⟨_, List.mem_cons_self, View.mem_set_unit_zero hz2 inb_S1024x128_S1024x128_0_0 y⟩),
    View.canon_cons_unit_zero (S := S1024x128) hz2]
  simp only [View.readAt_eq_ld, harg1.read_unread, harg2.read_unread, harg4.read_unread,
    View.ld_unit_zero (S := S1000x1) hz2, View.ld_unit_zero (S := S1000x128) hz2, View.ld_unit_zero (S := S1024x128) hz2,
    View.readCov_unit_zero (S := S1024x128) _ hz2]

set_option maxHeartbeats 1000000 in
theorem sound_kernel3_C (c : Dev nD) (E : Set ℕ) (i : grid3.Coords)
    (arg1 : Memref sig .tc .vmem S1000x1 .i32) (harg1 : arg1.IsWhole) (arg2 : Memref sig .tc .vmem S1000x128 .f32) (harg2 : arg2.IsWhole)
    (arg3 : Memref sig .tc .vmem S1024x128 .f32) (harg3 : arg3.IsWhole) (arg4 : Memref sig .tc .vmem S1024x128 .f32) (harg4 : arg4.IsWhole)
    (hc0 : ¬cond3_0 i) (hc1 : cond3_1 i)
    (x0 : Vec F S1000x1 .i32) (x1 : Vec F S1000x128 .f32) (xs : Vec F S1024x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k3_pay2 x0 x1 xs)
            ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d3, %f3, -, H3⟩, ⟨%f4, %hf4, H4⟩, Hk⟩
  obtain rfl := harg1.eq_unread hf0; obtain rfl := harg2.eq_unread hf1; obtain rfl := harg4.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_run_names
    rw [View.read_writes_eq_canon _ _ _ (fun y => ⟨_, List.mem_cons_self, View.mem_set_unit_zero hz2 inb_S1024x128_S1024x128_0_0 y⟩),
      View.canon_cons_unit_zero (S := S1024x128) hz2]
    simp only [View.readAt_eq_ld, harg1.read_unread, harg2.read_unread, harg4.read_unread,
      View.ld_unit_zero (S := S1000x1) hz2, View.ld_unit_zero (S := S1000x128) hz2, View.ld_unit_zero (S := S1024x128) hz2,
      View.readCov_unit_zero (S := S1024x128) _ hz2]
  iexists _; isplitr
  swap; · iexact H4
  ipureintro
  sl_unfold_run_names
  rw [View.read_writes_eq_canon _ _ _ (fun y => ⟨_, List.mem_cons_self, View.mem_set_unit_zero hz2 inb_S1024x128_S1024x128_0_0 y⟩),
    View.canon_cons_unit_zero (S := S1024x128) hz2]
  simp only [View.readAt_eq_ld, harg1.read_unread, harg2.read_unread, harg4.read_unread,
    View.ld_unit_zero (S := S1000x1) hz2, View.ld_unit_zero (S := S1000x128) hz2, View.ld_unit_zero (S := S1024x128) hz2,
    View.readCov_unit_zero (S := S1024x128) _ hz2]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

abbrev ms3_0 (t : Fin cfg3.N) : Memref sig .tc .vmem S1000x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)

theorem idle3_2 : ∀ t : Fin cfg3.N, cfg3.idle 2 (cfg3.grid.coords t) = true ↔ t.val ≠ 49 :=
  (by decide +kernel : ∀ t : Fin grid3.N, idle3 2 (grid3.coords t) = true ↔ t.val ≠ 49)

theorem leaves3_2_idle (c : Dev nD) (t : Fin cfg3.N) (h : t.val ≠ 49) :
    (dat3 V c).leavesExact 2 t
      = iprop(∃ d, owns (c : Thread nD τ) (ms3_2 t) fullShare ((dat3 V c).before 2 t d)) :=
  (dat3 V c).leavesExact_idle 2 t ((idle3_2 t).mpr h) (Bool.eq_false_iff.mpr fun hf => by
    have hN : t.val < 50 := lt_of_lt_of_eq t.isLt (show cfg3.N = 50 from N_3)
    have := (flush3_2 t).mp hf
    omega)

theorem leaves3_2_last (c : Dev nD) (t : Fin cfg3.N) (h : t.val = 49) :
    (dat3 V c).leavesExact 2 t = owns (c : Thread nD τ) (ms3_2 t) fullShare (acc3 V c t.val) := by
  unfold Dat.leavesExact
  rw [Bool.eq_false_iff.mpr fun hi => (idle3_2 t).mp hi h, after3_2]

abbrev rest3 (c : Dev nD) : sProp 𝕄 :=
  iprop(Pipeline.scopedRestBut (Ix := Unit) (Name := ℕ) (U := UR sig nD τ) (Lvl := ℕ) (Val := Elt F) spec3 c [cc3_scratch0]
    ∗ ∃ r, prngReg c r)

theorem Phi3_castSucc (c : Dev nD) (t : Fin cfg3.N) :
    (dat3 V c).Φ t.castSucc = iprop(scrAt3 V c t.val ∗ rest3 (F := F) c) := Phi3_eq V c t.castSucc

theorem Phi3_succ (c : Dev nD) (t : Fin cfg3.N) :
    (dat3 V c).Φ t.succ = iprop(owns (c : Thread nD τ) scr3 fullShare (acc3 V c t.val) ∗ rest3 (F := F) c) := by
  rw [← scrAt3_succ V c t.val]; exact Phi3_eq V c t.succ

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ (dat3 V c).leavesExact 2 t)

set_option maxHeartbeats 1000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [Phi3_castSucc, Phi3_succ, show (dat3 V c).owesAt () t.succ = (dat3 V c).owesAt () t.castSucc from rfl,
    after3_0, after3_1]
  have hN : t.val < 50 := lt_of_lt_of_eq t.isLt (show cfg3.N = 50 from N_3)
  by_cases h0 : t.val = 0
  · rw [show scrAt3 V c t.val = iprop(∃ f : Vec F S1024x128 .f32, owns (c : Thread nD τ) scr3 fullShare f) from by
        rw [h0]; exact scrAt3_zero V c,
      acc3_first V c t h0, leaves3_2_idle V c t (by omega)]
    iintro ⟨⟨Hs, Hr⟩, Ho, ⟨%d0, H0⟩, ⟨%d1, H1⟩, H2⟩
    iapply (sound_kernel3_A c Set.univ (grid3.coords t) (ms3_0 t) (hs3_0 t) (ms3_1 t) (hs3_1 t) (ms3_2 t) (hs3_2 t)
      scr3 (Memref.isWhole_whole _) ((hcond3_0 t).mpr h0) (fun h => by have := (hcond3_1 t).mp h; omega)
      (iblk3 V c 0 t) (iblk3 V c 1 t) _)
    isplitl [H0]; · iexact H0
    isplitl [H1]; · iexact H1
    isplitl [Hs]; · iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · rw [scrAt3_pos V c t.val h0]
    by_cases h49 : t.val = 49
    · rw [leaves3_2_last V c t h49, acc3_later V c t h0]
      iintro ⟨⟨Hs, Hr⟩, Ho, ⟨%d0, H0⟩, ⟨%d1, H1⟩, ⟨%d2, H2⟩⟩
      iapply (sound_kernel3_C c Set.univ (grid3.coords t) (ms3_0 t) (hs3_0 t) (ms3_1 t) (hs3_1 t) (ms3_2 t) (hs3_2 t)
        scr3 (Memref.isWhole_whole _) (fun h => h0 ((hcond3_0 t).mp h)) ((hcond3_1 t).mpr h49)
        (iblk3 V c 0 t) (iblk3 V c 1 t) (acc3 V c (t.val - 1)) _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · rw [leaves3_2_idle V c t h49, acc3_later V c t h0]
      iintro ⟨⟨Hs, Hr⟩, Ho, ⟨%d0, H0⟩, ⟨%d1, H1⟩, H2⟩
      iapply (sound_kernel3_B c Set.univ (grid3.coords t) (ms3_0 t) (hs3_0 t) (ms3_1 t) (hs3_1 t) (ms3_2 t) (hs3_2 t)
        scr3 (Memref.isWhole_whole _) (fun h => h0 ((hcond3_0 t).mp h)) (fun h => h49 ((hcond3_1 t).mp h))
        (iblk3 V c 0 t) (iblk3 V c 1 t) (acc3 V c (t.val - 1)) _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

theorem body_obligation3 (c : Dev nD) : BodyObligation (dat3 (F := F) V c) (defs₀ (F := F)) Variants.none () Set.univ := fun t => by
  rw [bigSep_W3, bigSep_W3]
  exact sound_body3 V c t

theorem scr_owns (c : Dev nD) (X : Vec F S1024x128 .f32) :
    (owns (c : Thread nD τ) scr3 fullShare X : sProp 𝕄) = (((c : Thread nD τ).loc cc3_scratch0) ↦{fullShare} X) :=
  owns_whole (c : Thread nD τ) cc3_scratch0 fullShare X

theorem Phi3_in (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [scopedRest3_split, Phi3_eq, Fin.val_zero, scrAt3_zero]
  simp only [scr_owns]
  iintro ⟨Hp, ⟨%f, Hs⟩, Hr⟩
  isplitl [Hs]; · iexists f; iexact Hs
  isplitl [Hr]; · iexact Hr
  iexact Hp

theorem Phi3_out (c : Dev nD) :
    (dat3 V c).Φ (Fin.last cfg3.N)
      ⊢ iprop(Pipeline.scopedRest (Ix := Unit) (Name := ℕ) (U := UR sig nD τ) (Lvl := ℕ) (Val := Elt F) spec3 c ∗ ∃ r, prngReg c r) := by
  rw [scopedRest3_split, Phi3_eq, Fin.val_last, scrAt3_pos V c cfg3.N (by rw [show cfg3.N = 50 from N_3]; decide), scr_owns]
  iintro ⟨Hs, Hr, Hp⟩
  isplitr [Hp]
  · isplitl [Hs]; · iexists _; iexact Hs
    iexact Hr
  iexact Hp

end Cert.Kernel.Hand

end
-- ==== Proof.K.Mlp.lean ====
import proofs.«402287_j53498112639137_1_alg».proof.Proof.K.MlpDef
import Idealize.ShloMosaic.Lib.Ring
import Idealize.ShloMosaic.Lib.Tactic

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

theorem before4_0 (c : Dev nD) (t : Fin cfg4.N) (d) : (dat4 V c).before 0 t d = iblk4 V c 0 t :=
  ((dat4 V c).before_fetched 0 t (fetch4_0 t) d).trans (by unfold Dat.fetched Dat.blockOf iblk4; rw [A_eq4]; try rfl)
theorem before4_1 (c : Dev nD) (t : Fin cfg4.N) (d) : (dat4 V c).before 1 t d = iblk4 V c 1 t :=
  ((dat4 V c).before_fetched 1 t (fetch4_1 t) d).trans (by unfold Dat.fetched Dat.blockOf iblk4; rw [A_eq4]; try rfl)
theorem before4_2 (c : Dev nD) (t : Fin cfg4.N) (d) : (dat4 V c).before 2 t d = iblk4 V c 2 t :=
  ((dat4 V c).before_fetched 2 t (fetch4_2 t) d).trans (by unfold Dat.fetched Dat.blockOf iblk4; rw [A_eq4]; try rfl)
theorem before4_3 (c : Dev nD) (t : Fin cfg4.N) (d) : (dat4 V c).before 3 t d = iblk4 V c 3 t :=
  ((dat4 V c).before_fetched 3 t (fetch4_3 t) d).trans (by unfold Dat.fetched Dat.blockOf iblk4; rw [A_eq4]; try rfl)
theorem before4_4 (c : Dev nD) (t : Fin cfg4.N) (d) : (dat4 V c).before 4 t d = iblk4 V c 4 t :=
  ((dat4 V c).before_fetched 4 t (fetch4_4 t) d).trans (by unfold Dat.fetched Dat.blockOf iblk4; rw [A_eq4]; try rfl)
theorem before4_5 (c : Dev nD) (t : Fin cfg4.N) (d) : (dat4 V c).before 5 t d = iblk4 V c 5 t :=
  ((dat4 V c).before_fetched 5 t (fetch4_5 t) d).trans (by unfold Dat.fetched Dat.blockOf iblk4; rw [A_eq4]; try rfl)
theorem before4_6 (c : Dev nD) (t : Fin cfg4.N) (d) : (dat4 V c).before 6 t d = iblk4 V c 6 t :=
  ((dat4 V c).before_fetched 6 t (fetch4_6 t) d).trans (by unfold Dat.fetched Dat.blockOf iblk4; rw [A_eq4]; try rfl)
theorem before4_7 (c : Dev nD) (t : Fin cfg4.N) (d) : (dat4 V c).before 7 t d = iblk4 V c 7 t :=
  ((dat4 V c).before_fetched 7 t (fetch4_7 t) d).trans (by unfold Dat.fetched Dat.blockOf iblk4; rw [A_eq4]; try rfl)
theorem before4_8 (c : Dev nD) (t : Fin cfg4.N) (d) : (dat4 V c).before 8 t d = iblk4 V c 8 t :=
  ((dat4 V c).before_fetched 8 t (fetch4_8 t) d).trans (by unfold Dat.fetched Dat.blockOf iblk4; rw [A_eq4]; try rfl)
theorem before4_9 (c : Dev nD) (t : Fin cfg4.N) (d) : (dat4 V c).before 9 t d = iblk4 V c 9 t :=
  ((dat4 V c).before_fetched 9 t (fetch4_9 t) d).trans (by unfold Dat.fetched Dat.blockOf iblk4; rw [A_eq4]; try rfl)
theorem before4_10 (c : Dev nD) (t : Fin cfg4.N) (d) : (dat4 V c).before 10 t d = iblk4 V c 10 t :=
  ((dat4 V c).before_fetched 10 t (fetch4_10 t) d).trans (by unfold Dat.fetched Dat.blockOf iblk4; rw [A_eq4]; try rfl)

theorem cover4_11 (p0 : Vec F S1024x1 .f32) (y : S1024x1.Idx) :
    ∃ pc ∈ ([⟨r4_S1024x1, p0⟩] : List (View.Piece (Elt F) S1024x1 .f32)), y ∈ pc.1.set :=
  View.cover_of_tiled [⟨r4_S1024x1, p0⟩] S1024x1.size (by rfl) y

set_option maxHeartbeats 4000000 in
theorem sound_kernel4 (c : Dev nD) (E : Set ℕ) (i : grid4.Coords) (arg1 : Memref sig .tc .vmem S1024x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S1x1 .f32) (harg11 : arg11.IsWhole) (arg12 : Memref sig .tc .vmem S1024x1 .f32) (harg12 : arg12.IsWhole)
    (x0 : Vec F S1024x128 .f32) (x1 : Vec F S128x64 .f32) (x2 : Vec F S1x64 .f32) (x3 : Vec F S1x64 .f32) (x4 : Vec F S1x64 .f32) (x5 : Vec F S1x64 .f32) (x6 : Vec F S1x64 .f32) (x7 : Vec F S64x64 .f32) (x8 : Vec F S1x64 .f32) (x9 : Vec F S64x1 .f32) (x10 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (out4_11 x0 x1 x2 x3 x4 x5 x6 x7 x8 x9 x10)) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11 arg12 harg12) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover4_11 _)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t))

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel4 c Set.univ _ _ _ _ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
import proofs.«402287_j53498112639137_1_alg».proof.Proof.K.Fold
import proofs.«402287_j53498112639137_1_alg».proof.Proof.K.Mm0
import proofs.«402287_j53498112639137_1_alg».proof.Proof.K.Mm1
import proofs.«402287_j53498112639137_1_alg».proof.Proof.K.Mm2
import proofs.«402287_j53498112639137_1_alg».proof.Proof.K.Pool
import proofs.«402287_j53498112639137_1_alg».proof.Proof.K.Mlp
import Idealize.ShloMosaic.Lib.Pipeline.Regions
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
  | ⟨2, _⟩ => fun c => dat2 (V9 m) c
  | ⟨3, _⟩ => fun c => dat3 (V13 m) c
  | ⟨4, _⟩ => fun c => dat4 (V15 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W17 m c) ∗ ∃ r, prngReg c r)

-- One construction for the regions that carry nothing from one grid point to the next.
set_option backward.isDefEq.respectTransparency.types false in
def regA (p : Fin 5) (lf : Pipeline.LaunchFacts (nD := nD) (τ := τ) cfgs p) (Wa Wb : Dev nD → Valuation τ sig (Elt F))
    (hbody : ∀ c, Pipeline.BodyObligationLoose (pdats m p c) defs₀ 𝒱₀ () Set.univ)
    (howed : ∀ c t, (pdats m p c).owed t = 0) (hq : ∀ c w, (pdats m p c).q w = fullShare)
    (hrec : ∀ c t, (pdats m p c).recorded t = Set.univ)
    (hA : ∀ c w, (pdats m p c).A w = Wa c (Pipeline.arrRef (pcfgs (F := F) p).spec w))
    (hΦ : ∀ c i, (pdats m p c).Φ i = Pipeline.ΦA (pcfgs (F := F) p).spec c)
    (hF : ∀ c w, (pdats m p c).arrAt w (Pipeline.pin (pcfgs (F := F)) adm p).N = Wb c (Pipeline.arrRef (pcfgs (F := F) p).spec w))
    (hrest : ∀ c b, b ∉ Finset.univ.image (Pipeline.arrRef (pcfgs (F := F) p).spec) → Wb c b = Wa c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := hbody c
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Wa c b)
  hentry c := by
    rw [Pipeline.ownSems0_none]
    have hsplit := Pipeline.arrays_of_unscopedBufs (p := p) (pcfgs (F := F)) adm (pdats m) lf.win lf.arr_whole c
      ((pdats m p c).share_full (hq c)) (fun b => Wa c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wa c b) (fun b => Wb c b) ((pdats m p c).arrAt · _) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

set_option backward.isDefEq.respectTransparency.types false in
def reg0 : Pipeline.RegionSeg (pcfgs (F := F)) adm (pdats m) () defs₀ 𝒱₀ L lv 0 :=
  regA m 0 launch0 (W1 m) (W2 m) (fun c => (body_obligation0 (V1 m) c).loose) (fun _ _ => rfl) (fun _ _ => rfl)
    (fun _ _ => rfl) (fun _ _ => rfl) (fun _ _ => rfl) (hF0 m) (hrest0 m)

set_option backward.isDefEq.respectTransparency.types false in
def reg1 : Pipeline.RegionSeg (pcfgs (F := F)) adm (pdats m) () defs₀ 𝒱₀ L lv 1 :=
  regA m 1 launch1 (W5 m) (W6 m) (fun c => (body_obligation1 (V5 m) c).loose) (fun _ _ => rfl) (fun _ _ => rfl)
    (fun _ _ => rfl) (fun _ _ => rfl) (fun _ _ => rfl) (hF1 m) (hrest1 m)

set_option backward.isDefEq.respectTransparency.types false in
def reg2 : Pipeline.RegionSeg (pcfgs (F := F)) adm (pdats m) () defs₀ 𝒱₀ L lv 2 :=
  regA m 2 launch2 (W9 m) (W10 m) (fun c => (body_obligation2 (V9 m) c).loose) (fun _ _ => rfl) (fun _ _ => rfl)
    (fun _ _ => rfl) (fun _ _ => rfl) (fun _ _ => rfl) (hF2 m) (hrest2 m)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V13 m) c).loose
  hwaits := Pipeline.hwaits_of_owed_zero _ _ _ _ L lv 3 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec3 c (V13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V13 m) c).Φ 0 from rfl]
    iintro ⟨Hp, -, Hr⟩
    iapply (Phi3_in (V13 m) c)
    isplitl [Hp]; · iexact Hp
    iexact Hr
  hout c := by
    rw [Pipeline.ownSems0_none, show (pdats m 3 c).Φ (Fin.last _) = (dat3 (V13 m) c).Φ (Fin.last cfg3.N) from rfl]
    iintro H
    ihave H' := (Phi3_out (V13 m) c) $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V13 m c) (V14 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m) () defs₀ 𝒱₀ L lv 4 :=
  regA m 4 launch4 (W15 m) (W16 m) (fun c => (body_obligation4 (V15 m) c).loose) (fun _ _ => rfl) (fun _ _ => rfl)
    (fun _ _ => rfl) (fun _ _ => rfl) (fun _ _ => rfl) (hF4 m) (hrest4 m)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)),
    .region (reg2 m),
    .host (hseg hostOps3 hostOps3_sub hostOps3_fresh (W10 m)),
    .host (hseg hostOps3_1 hostOps3_1_sub hostOps3_1_fresh (W11 m)),
    .host (hseg hostOps3_2 hostOps3_2_sub hostOps3_2_fresh (W12 m)),
    .region (reg3 m),
    .host (hseg hostOps4 hostOps4_sub hostOps4_fresh (W14 m)),
    .region (reg4 m),
    .host (hseg hostOps5 hostOps5_sub hostOps5_fresh (W16 m)) ]

theorem last_step (c : Dev nD) :
    iprop(StableHlo.held (c : Thread nD τ) (Pipeline.ucRefs τ sig) (W17 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh] <;> iassumption
  iexact HO

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, .rfl, .rfl, .rfl, .rfl, .rfl, .rfl, .rfl, last_step m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c => h c)

end Cert.Kernel.Hand

end
-- ==== Proof.K.Frame.lean ====
import proofs.«402287_j53498112639137_1_alg».proof.Proof.K.Run

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ) (ρ : Dev nD → PrngReg)

-- The run ends with the result buffer at the last boundary's contents and every argument array as launched.
theorem run_result : θ_run defs (onTc (τ := τ) (main (F := F))) ⟨m, fun _ => 0, ρ⟩ (fun r => ∀ c : Dev nD,
      r.2.mem ((c.tc : Thread nD τ).loc main_v140) = W17 m c main_v140
      ∧ ∀ b ∈ args, r.2.mem ((c.tc : Thread nD τ).loc b) = m ((c.tc : Thread nD τ).loc b)) :=
  (θ_run defs _ _).mono (fun r h c => ⟨h c _ (mem_uc main_v140 (by decide)), fun b hb =>
    (h c _ (mem_uc b (args_clear b hb).1)).trans (W_args m c hb).2.2.2.2.2.2⟩)
    (run_all m ρ)

end Cert.Kernel.Hand

end
-- ==== Proof.KI.Mm0Def.lean ====
import proofs.«402287_j53498112639137_1_alg».proof.Proof.Gen.KernelIdeal.Launch
import proofs.«402287_j53498112639137_1_alg».proof.Proof.Gen.KernelIdeal.Skeleton
import proofs.«402287_j53498112639137_1_alg».proof.Proof.Gen.KernelIdeal.Points
import Idealize.ShloMosaic.Lib.Pipeline.FrameBody

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x373 := Rect.unit (s := S2000x373) ![0, 0] S2000x373.size inb_S2000x373_S2000x373_0_0

abbrev r0_1 : Rect S373x256 := Rect.unit (s := S373x256) ![0, 0] S373x256.size inb_S373x256_S373x256_0_0

abbrev r0_2 : Rect S2000x256 := Rect.unit (s := S2000x256) ![0, 0] S2000x256.size inb_S2000x256_S2000x256_0_0

def out0_2 (x0 : Vec F S2000x373 .f32) (x1 : Vec F S373x256 .f32) : Vec F S2000x256 .f32 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

end Cert.KernelIdeal.Hand

end
-- ==== Proof.KI.Mm1Def.lean ====
import proofs.«402287_j53498112639137_1_alg».proof.Proof.Gen.KernelIdeal.Launch
import proofs.«402287_j53498112639137_1_alg».proof.Proof.Gen.KernelIdeal.Skeleton
import proofs.«402287_j53498112639137_1_alg».proof.Proof.Gen.KernelIdeal.Points
import Idealize.ShloMosaic.Lib.Pipeline.FrameBody

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x256 := Rect.unit (s := S2000x256) ![0, 0] S2000x256.size inb_S2000x256_S2000x256_0_0

abbrev r1_1 : Rect S256x128 := Rect.unit (s := S256x128) ![0, 0] S256x128.size inb_S256x128_S256x128_0_0

abbrev r1_2 : Rect S2000x128 := Rect.unit (s := S2000x128) ![0, 0] S2000x128.size inb_S2000x128_S2000x128_0_0

def out1_2 (x0 : Vec F S2000x256 .f32) (x1 : Vec F S256x128 .f32) : Vec F S2000x128 .f32 :=
  View.canon [⟨r1_2, k1_pay1 (View.ld x0 r1_0) (View.ld x1 r1_1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

end Cert.KernelIdeal.Hand

end
-- ==== Proof.KI.Mm2Def.lean ====
import proofs.«402287_j53498112639137_1_alg».proof.Proof.Gen.KernelIdeal.Launch
import proofs.«402287_j53498112639137_1_alg».proof.Proof.Gen.KernelIdeal.Skeleton
import proofs.«402287_j53498112639137_1_alg».proof.Proof.Gen.KernelIdeal.Points
import Idealize.ShloMosaic.Lib.Pipeline.FrameBody

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0

abbrev r2_1 : Rect S128x128 := Rect.unit (s := S128x128) ![0, 0] S128x128.size inb_S128x128_S128x128_0_0

abbrev r2_2 : Rect S2000x128 := Rect.unit (s := S2000x128) ![0, 0] S2000x128.size inb_S2000x128_S2000x128_0_0

def out2_2 (x0 : Vec F S2000x128 .f32) (x1 : Vec F S128x128 .f32) : Vec F S2000x128 .f32 :=
  View.canon [⟨r2_2, k2_pay1 (View.ld x0 r2_0) (View.ld x1 r2_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

end Cert.KernelIdeal.Hand

end
-- ==== Proof.KI.PoolDef.lean ====
import proofs.«402287_j53498112639137_1_alg».proof.Proof.Gen.KernelIdeal.Launch
import proofs.«402287_j53498112639137_1_alg».proof.Proof.Gen.KernelIdeal.Skeleton
import proofs.«402287_j53498112639137_1_alg».proof.Proof.Gen.KernelIdeal.Points
import Idealize.ShloMosaic.Lib.Pipeline.FrameBody

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def step3 (c : Dev nD) (n : ℕ) (a : Vec F S1024x128 .f32) : Vec F S1024x128 .f32 :=
  if h : n < cfg3.N then k3_pay2 (iblk3 V c 0 ⟨n, h⟩) (iblk3 V c 1 ⟨n, h⟩) a else a

def acc3 (c : Dev nD) : ℕ → Vec F S1024x128 .f32
  | 0 => step3 V c 0 k3_pay1
  | n + 1 => step3 V c (n + 1) (acc3 c n)

theorem acc3_zero (c : Dev nD) : acc3 V c 0 = step3 V c 0 k3_pay1 := rfl
theorem acc3_succ (c : Dev nD) (n : ℕ) : acc3 V c (n + 1) = step3 V c (n + 1) (acc3 V c n) := rfl

theorem step3_at (c : Dev nD) (t : Fin cfg3.N) (a : Vec F S1024x128 .f32) :
    step3 V c t.val a = k3_pay2 (iblk3 V c 0 t) (iblk3 V c 1 t) a := by
  unfold step3; rw [dif_pos t.isLt]

theorem acc3_first (c : Dev nD) (t : Fin cfg3.N) (h : t.val = 0) :
    acc3 V c t.val = k3_pay2 (iblk3 V c 0 t) (iblk3 V c 1 t) k3_pay1 := by
  rw [← step3_at V c t k3_pay1, h]; rfl

theorem acc3_later (c : Dev nD) (t : Fin cfg3.N) (h : t.val ≠ 0) :
    acc3 V c t.val = k3_pay2 (iblk3 V c 0 t) (iblk3 V c 1 t) (acc3 V c (t.val - 1)) := by
  rw [← step3_at V c t (acc3 V c (t.val - 1))]
  obtain ⟨k, hk⟩ := Nat.exists_eq_succ_of_ne_zero h
  rw [hk]; rfl

abbrev scr3 : Memref sig .tc .vmem S1024x128 .f32 := Memref.whole cc3_scratch0

def scrAt3 (c : Dev nD) (n : ℕ) : sProp 𝕄 :=
  if n = 0 then iprop(∃ f : Vec F S1024x128 .f32, owns (c : Thread nD τ) scr3 fullShare f)
  else owns (c : Thread nD τ) scr3 fullShare (acc3 V c (n - 1))

theorem scrAt3_zero (c : Dev nD) :
    scrAt3 V c 0 = iprop(∃ f : Vec F S1024x128 .f32, owns (c : Thread nD τ) scr3 fullShare f) := by
  unfold scrAt3; rw [if_pos rfl]

theorem scrAt3_pos (c : Dev nD) (n : ℕ) (h : n ≠ 0) :
    scrAt3 V c n = owns (c : Thread nD τ) scr3 fullShare (acc3 V c (n - 1)) := by
  unfold scrAt3; rw [if_neg h]

theorem scrAt3_succ (c : Dev nD) (n : ℕ) :
    scrAt3 V c (n + 1) = owns (c : Thread nD τ) scr3 fullShare (acc3 V c n) := by
  rw [scrAt3_pos V c (n + 1) (Nat.succ_ne_zero n)]; rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val
  Φ j := iprop(scrAt3 V c j.val
    ∗ Pipeline.scopedRestBut (Ix := Unit) (Name := ℕ) (U := UR sig nD τ) (Lvl := ℕ) (Val := Elt F) spec3 c [cc3_scratch0]
    ∗ ∃ r, prngReg c r)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val := by dsimp only [dat3]

theorem Phi3_eq (c : Dev nD) (j : Fin (cfg3.N + 1)) :
    (dat3 V c).Φ j = iprop(scrAt3 V c j.val
      ∗ Pipeline.scopedRestBut (Ix := Unit) (Name := ℕ) (U := UR sig nD τ) (Lvl := ℕ) (Val := Elt F) spec3 c [cc3_scratch0]
      ∗ ∃ r, prngReg c r) := by
  dsimp only [dat3]

end Cert.KernelIdeal.Hand

end
-- ==== Proof.KI.MlpDef.lean ====
import proofs.«402287_j53498112639137_1_alg».proof.Proof.Gen.KernelIdeal.Launch
import proofs.«402287_j53498112639137_1_alg».proof.Proof.Gen.KernelIdeal.Skeleton
import proofs.«402287_j53498112639137_1_alg».proof.Proof.Gen.KernelIdeal.Points
import Idealize.ShloMosaic.Lib.Pipeline.FrameBody

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_S1024x128 : Rect S1024x128 := Rect.unit (s := S1024x128) ![0, 0] S1024x128.size inb_S1024x128_S1024x128_0_0
abbrev r4_S128x64 : Rect S128x64 := Rect.unit (s := S128x64) ![0, 0] S128x64.size inb_S128x64_S128x64_0_0
abbrev r4_S1x64 : Rect S1x64 := Rect.unit (s := S1x64) ![0, 0] S1x64.size inb_S1x64_S1x64_0_0
abbrev r4_S64x64 : Rect S64x64 := Rect.unit (s := S64x64) ![0, 0] S64x64.size inb_S64x64_S64x64_0_0
abbrev r4_S64x1 : Rect S64x1 := Rect.unit (s := S64x1) ![0, 0] S64x1.size inb_S64x1_S64x1_0_0
abbrev r4_S1x1 : Rect S1x1 := Rect.unit (s := S1x1) ![0, 0] S1x1.size inb_S1x1_S1x1_0_0
abbrev r4_S1024x1 : Rect S1024x1 := Rect.unit (s := S1024x1) ![0, 0] S1024x1.size inb_S1024x1_S1024x1_0_0

def out4_11 (x0 : Vec F S1024x128 .f32) (x1 : Vec F S128x64 .f32) (x2 : Vec F S1x64 .f32) (x3 : Vec F S1x64 .f32) (x4 : Vec F S1x64 .f32) (x5 : Vec F S1x64 .f32) (x6 : Vec F S1x64 .f32) (x7 : Vec F S64x64 .f32) (x8 : Vec F S1x64 .f32) (x9 : Vec F S64x1 .f32) (x10 : Vec F S1x1 .f32) : Vec F S1024x1 .f32 :=
  View.canon [⟨r4_S1024x1,
    k4_pay1
      (k4_pay2 (View.ld x0 r4_S1024x128) (View.ld x1 r4_S128x64) (View.ld x2 r4_S1x64) (View.ld x5 r4_S1x64)
        (View.ld x3 r4_S1x64) (View.ld x6 r4_S1x64) (View.ld x4 r4_S1x64) (View.ld x7 r4_S64x64))
      (k4_pay3 (View.ld x8 r4_S1x64))
      (View.ld x9 r4_S64x1) (View.ld x10 r4_S1x1)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]

end Cert.KernelIdeal.Hand

end
-- ==== Proof.KI.Fold.lean ====
import proofs.«402287_j53498112639137_1_alg».proof.Proof.KI.Mm0Def
import proofs.«402287_j53498112639137_1_alg».proof.Proof.KI.Mm1Def
import proofs.«402287_j53498112639137_1_alg».proof.Proof.KI.Mm2Def
import proofs.«402287_j53498112639137_1_alg».proof.Proof.KI.PoolDef
import proofs.«402287_j53498112639137_1_alg».proof.Proof.KI.MlpDef
import proofs.«402287_j53498112639137_1_alg».proof.Proof.Gen.KernelIdeal.Regions
import Idealize.ShloMosaic.Lib.Pipeline.FrameSuffix
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)

variable {F : FTy → Type} [FloatOps F]

variable (m : (ℓ : Loc nD τ sig) → Buf (Elt F) ℓ)

abbrev W0 (c : Dev nD) : Valuation τ sig (Elt F) := fun b => m (c, b)
abbrev V0 : (c : Dev nD) → (b : Ref sig .tc) → Buf (Elt F) ((c : Thread nD τ).loc b) := fun c b => W0 m c b

abbrev W1 (c : Dev nD) : Valuation τ sig (Elt F) := StableHlo.after hostOps0 (W0 m c)
abbrev V1 : (c : Dev nD) → (b : Ref sig .tc) → Buf (Elt F) ((c : Thread nD τ).loc b) := fun c b => W1 m c b

theorem W1_of (c : Dev nD) (r : Ref sig .tc) (h : r ∉ hostOps0_W) : W1 m c r = W0 m c r :=
  StableHlo.after_of_writes_sub hostOps0 _ hostOps0_writes h

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W2_of (c : Dev nD) (r : Ref sig .tc) (h : r ≠ main_v31) : W2 m c r = W1 m c r := by
  by_cases h0 : r = main_arg0
  · subst h0; exact (W2_arr m c 0).trans (((dat0 (V1 m) c).arrAt_in 0 rfl _).trans (A_eq0 (V1 m) c 0))
  by_cases h1 : r = main_arg3
  · subst h1; exact (W2_arr m c 1).trans (((dat0 (V1 m) c).arrAt_in 1 rfl _).trans (A_eq0 (V1 m) c 1))
  exact W2_of_ne m c r (fun w => by
    fin_cases w
    · exact fun e => h0 e.symm
    · exact fun e => h1 e.symm
    · exact fun e => h e.symm)

abbrev W3 (c : Dev nD) : Valuation τ sig (Elt F) := StableHlo.after hostOps1 (W2 m c)
abbrev V3 : (c : Dev nD) → (b : Ref sig .tc) → Buf (Elt F) ((c : Thread nD τ).loc b) := fun c b => W3 m c b

theorem W3_of (c : Dev nD) (r : Ref sig .tc) (h : r ∉ hostOps1_W) : W3 m c r = W2 m c r :=
  StableHlo.after_of_writes_sub hostOps1 _ hostOps1_writes h

abbrev W4 (c : Dev nD) : Valuation τ sig (Elt F) := StableHlo.after hostOps1_1 (W3 m c)
abbrev V4 : (c : Dev nD) → (b : Ref sig .tc) → Buf (Elt F) ((c : Thread nD τ).loc b) := fun c b => W4 m c b

theorem W4_of (c : Dev nD) (r : Ref sig .tc) (h : r ∉ hostOps1_1_W) : W4 m c r = W3 m c r :=
  StableHlo.after_of_writes_sub hostOps1_1 _ hostOps1_1_writes h

abbrev W5 (c : Dev nD) : Valuation τ sig (Elt F) := StableHlo.after hostOps1_2 (W4 m c)
abbrev V5 : (c : Dev nD) → (b : Ref sig .tc) → Buf (Elt F) ((c : Thread nD τ).loc b) := fun c b => W5 m c b

theorem W5_of (c : Dev nD) (r : Ref sig .tc) (h : r ∉ hostOps1_2_W) : W5 m c r = W4 m c r :=
  StableHlo.after_of_writes_sub hostOps1_2 _ hostOps1_2_writes h

def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

theorem W6_of (c : Dev nD) (r : Ref sig .tc) (h : r ≠ main_v64) : W6 m c r = W5 m c r := by
  by_cases h0 : r = main_v63
  · subst h0; exact (W6_arr m c 0).trans (((dat1 (V5 m) c).arrAt_in 0 rfl _).trans (A_eq1 (V5 m) c 0))
  by_cases h1 : r = main_arg9
  · subst h1; exact (W6_arr m c 1).trans (((dat1 (V5 m) c).arrAt_in 1 rfl _).trans (A_eq1 (V5 m) c 1))
  exact W6_of_ne m c r (fun w => by
    fin_cases w
    · exact fun e => h0 e.symm
    · exact fun e => h1 e.symm
    · exact fun e => h e.symm)

abbrev W7 (c : Dev nD) : Valuation τ sig (Elt F) := StableHlo.after hostOps2 (W6 m c)
abbrev V7 : (c : Dev nD) → (b : Ref sig .tc) → Buf (Elt F) ((c : Thread nD τ).loc b) := fun c b => W7 m c b

theorem W7_of (c : Dev nD) (r : Ref sig .tc) (h : r ∉ hostOps2_W) : W7 m c r = W6 m c r :=
  StableHlo.after_of_writes_sub hostOps2 _ hostOps2_writes h

abbrev W8 (c : Dev nD) : Valuation τ sig (Elt F) := StableHlo.after hostOps2_1 (W7 m c)
abbrev V8 : (c : Dev nD) → (b : Ref sig .tc) → Buf (Elt F) ((c : Thread nD τ).loc b) := fun c b => W8 m c b

theorem W8_of (c : Dev nD) (r : Ref sig .tc) (h : r ∉ hostOps2_1_W) : W8 m c r = W7 m c r :=
  StableHlo.after_of_writes_sub hostOps2_1 _ hostOps2_1_writes h

abbrev W9 (c : Dev nD) : Valuation τ sig (Elt F) := StableHlo.after hostOps2_2 (W8 m c)
abbrev V9 : (c : Dev nD) → (b : Ref sig .tc) → Buf (Elt F) ((c : Thread nD τ).loc b) := fun c b => W9 m c b

theorem W9_of (c : Dev nD) (r : Ref sig .tc) (h : r ∉ hostOps2_2_W) : W9 m c r = W8 m c r :=
  StableHlo.after_of_writes_sub hostOps2_2 _ hostOps2_2_writes h

def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)

theorem W10_of (c : Dev nD) (r : Ref sig .tc) (h : r ≠ main_v97) : W10 m c r = W9 m c r := by
  by_cases h0 : r = main_v96
  · subst h0; exact (W10_arr m c 0).trans (((dat2 (V9 m) c).arrAt_in 0 rfl _).trans (A_eq2 (V9 m) c 0))
  by_cases h1 : r = main_arg15
  · subst h1; exact (W10_arr m c 1).trans (((dat2 (V9 m) c).arrAt_in 1 rfl _).trans (A_eq2 (V9 m) c 1))
  exact W10_of_ne m c r (fun w => by
    fin_cases w
    · exact fun e => h0 e.symm
    · exact fun e => h1 e.symm
    · exact fun e => h e.symm)

abbrev W11 (c : Dev nD) : Valuation τ sig (Elt F) := StableHlo.after hostOps3 (W10 m c)
abbrev V11 : (c : Dev nD) → (b : Ref sig .tc) → Buf (Elt F) ((c : Thread nD τ).loc b) := fun c b => W11 m c b

theorem W11_of (c : Dev nD) (r : Ref sig .tc) (h : r ∉ hostOps3_W) : W11 m c r = W10 m c r :=
  StableHlo.after_of_writes_sub hostOps3 _ hostOps3_writes h

abbrev W12 (c : Dev nD) : Valuation τ sig (Elt F) := StableHlo.after hostOps3_1 (W11 m c)
abbrev V12 : (c : Dev nD) → (b : Ref sig .tc) → Buf (Elt F) ((c : Thread nD τ).loc b) := fun c b => W12 m c b

theorem W12_of (c : Dev nD) (r : Ref sig .tc) (h : r ∉ hostOps3_1_W) : W12 m c r = W11 m c r :=
  StableHlo.after_of_writes_sub hostOps3_1 _ hostOps3_1_writes h

abbrev W13 (c : Dev nD) : Valuation τ sig (Elt F) := StableHlo.after hostOps3_2 (W12 m c)
abbrev V13 : (c : Dev nD) → (b : Ref sig .tc) → Buf (Elt F) ((c : Thread nD τ).loc b) := fun c b => W13 m c b

theorem W13_of (c : Dev nD) (r : Ref sig .tc) (h : r ∉ hostOps3_2_W) : W13 m c r = W12 m c r :=
  StableHlo.after_of_writes_sub hostOps3_2 _ hostOps3_2_writes h

def W14 (c : Dev nD) : Valuation τ sig (Elt F) :=
  Pipeline.withArrays spec3 c (W13 m c) fun w => (dat3 (V13 m) c).arrAt w cfg3.N
theorem W14_arr (c : Dev nD) (w : Fin cfg3.W) :
    W14 m c (Proc.devRef .tc (Pipeline.arrRef spec3 w)) = (dat3 (V13 m) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
abbrev V14 : (c : Dev nD) → (b : Ref sig .tc) → Buf (Elt F) ((c : Thread nD τ).loc b) := fun c b => W14 m c b
theorem hF3 (c : Dev nD) (w : Fin cfg3.W) : (dat3 (V13 m) c).arrAt w cfg3.N = V14 m c (Pipeline.arrRef spec3 w) :=
  (W14_arr m c w).symm
theorem hrest3 (c : Dev nD) : ∀ b, b ∉ Finset.univ.image (Pipeline.arrRef spec3) → V14 m c b = V13 m c b :=
  fun b hb => W14_of_ne m c b fun w e => hb (Finset.mem_image.mpr ⟨w, Finset.mem_univ _, e⟩)

theorem W14_of (c : Dev nD) (r : Ref sig .tc) (h : r ≠ main_v131) : W14 m c r = W13 m c r := by
  by_cases h0 : r = main_v130
  · subst h0; exact (W14_arr m c 0).trans (((dat3 (V13 m) c).arrAt_in 0 rfl _).trans (A_eq3 (V13 m) c 0))
  by_cases h1 : r = main_v129
  · subst h1; exact (W14_arr m c 1).trans (((dat3 (V13 m) c).arrAt_in 1 rfl _).trans (A_eq3 (V13 m) c 1))
  exact W14_of_ne m c r (fun w => by
    fin_cases w
    · exact fun e => h0 e.symm
    · exact fun e => h1 e.symm
    · exact fun e => h e.symm)

abbrev W15 (c : Dev nD) : Valuation τ sig (Elt F) := StableHlo.after hostOps4 (W14 m c)
abbrev V15 : (c : Dev nD) → (b : Ref sig .tc) → Buf (Elt F) ((c : Thread nD τ).loc b) := fun c b => W15 m c b

theorem W15_of (c : Dev nD) (r : Ref sig .tc) (h : r ∉ hostOps4_W) : W15 m c r = W14 m c r :=
  StableHlo.after_of_writes_sub hostOps4 _ hostOps4_writes h

def W16 (c : Dev nD) : Valuation τ sig (Elt F) :=
  Pipeline.withArrays spec4 c (W15 m c) fun w => (dat4 (V15 m) c).arrAt w cfg4.N
theorem W16_arr (c : Dev nD) (w : Fin cfg4.W) :
    W16 m c (Proc.devRef .tc (Pipeline.arrRef spec4 w)) = (dat4 (V15 m) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m c (Proc.devRef .tc b) = W15 m c (Proc.devRef .tc b) := by
  unfold W16; exact Pipeline.withArrays_of_ne spec4 c _ _ b hb
abbrev V16 : (c : Dev nD) → (b : Ref sig .tc) → Buf (Elt F) ((c : Thread nD τ).loc b) := fun c b => W16 m c b
theorem hF4 (c : Dev nD) (w : Fin cfg4.W) : (dat4 (V15 m) c).arrAt w cfg4.N = V16 m c (Pipeline.arrRef spec4 w) :=
  (W16_arr m c w).symm
theorem hrest4 (c : Dev nD) : ∀ b, b ∉ Finset.univ.image (Pipeline.arrRef spec4) → V16 m c b = V15 m c b :=
  fun b hb => W16_of_ne m c b fun w e => hb (Finset.mem_image.mpr ⟨w, Finset.mem_univ _, e⟩)

theorem W16_of (c : Dev nD) (r : Ref sig .tc) (h : r ≠ main_v139) : W16 m c r = W15 m c r := by
  by_cases h0 : r = main_v131
  · subst h0; exact (W16_arr m c 0).trans (((dat4 (V15 m) c).arrAt_in 0 rfl _).trans (A_eq4 (V15 m) c 0))
  by_cases h1 : r = main_arg21
  · subst h1; exact (W16_arr m c 1).trans (((dat4 (V15 m) c).arrAt_in 1 rfl _).trans (A_eq4 (V15 m) c 1))
  by_cases h2 : r = main_v132
  · subst h2; exact (W16_arr m c 2).trans (((dat4 (V15 m) c).arrAt_in 2 rfl _).trans (A_eq4 (V15 m) c 2))
  by_cases h3 : r = main_v133
  · subst h3; exact (W16_arr m c 3).trans (((dat4 (V15 m) c).arrAt_in 3 rfl _).trans (A_eq4 (V15 m) c 3))
  by_cases h4 : r = main_v134
  · subst h4; exact (W16_arr m c 4).trans (((dat4 (V15 m) c).arrAt_in 4 rfl _).trans (A_eq4 (V15 m) c 4))
  by_cases h5 : r = main_v135
  · subst h5; exact (W16_arr m c 5).trans (((dat4 (V15 m) c).arrAt_in 5 rfl _).trans (A_eq4 (V15 m) c 5))
  by_cases h6 : r = main_v136
  · subst h6; exact (W16_arr m c 6).trans (((dat4 (V15 m) c).arrAt_in 6 rfl _).trans (A_eq4 (V15 m) c 6))
  by_cases h7 : r = main_arg27
  · subst h7; exact (W16_arr m c 7).trans (((dat4 (V15 m) c).arrAt_in 7 rfl _).trans (A_eq4 (V15 m) c 7))
  by_cases h8 : r = main_v137
  · subst h8; exact (W16_arr m c 8).trans (((dat4 (V15 m) c).arrAt_in 8 rfl _).trans (A_eq4 (V15 m) c 8))
  by_cases h9 : r = main_arg29
  · subst h9; exact (W16_arr m c 9).trans (((dat4 (V15 m) c).arrAt_in 9 rfl _).trans (A_eq4 (V15 m) c 9))
  by_cases h10 : r = main_v138
  · subst h10; exact (W16_arr m c 10).trans (((dat4 (V15 m) c).arrAt_in 10 rfl _).trans (A_eq4 (V15 m) c 10))
  exact W16_of_ne m c r (fun w => by
    fin_cases w
    · exact fun e => h0 e.symm
    · exact fun e => h1 e.symm
    · exact fun e => h2 e.symm
    · exact fun e => h3 e.symm
    · exact fun e => h4 e.symm
    · exact fun e => h5 e.symm
    · exact fun e => h6 e.symm
    · exact fun e => h7 e.symm
    · exact fun e => h8 e.symm
    · exact fun e => h9 e.symm
    · exact fun e => h10 e.symm
    · exact fun e => h e.symm)

abbrev W17 (c : Dev nD) : Valuation τ sig (Elt F) := StableHlo.after hostOps5 (W16 m c)
abbrev V17 : (c : Dev nD) → (b : Ref sig .tc) → Buf (Elt F) ((c : Thread nD τ).loc b) := fun c b => W17 m c b

theorem W17_of (c : Dev nD) (r : Ref sig .tc) (h : r ∉ hostOps5_W) : W17 m c r = W16 m c r :=
  StableHlo.after_of_writes_sub hostOps5 _ hostOps5_writes h

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30]

-- No stretch of host operations writes an argument array, and none is a region's output.
theorem args_clear : ∀ r ∈ args, ¬ (Proc.devRef .tc r : DevRef τ sig).isScoped ∧
    r ∉ hostOps0_W ∧ r ≠ main_v31 ∧ r ∉ hostOps1_W ∧ r ∉ hostOps1_1_W ∧ r ∉ hostOps1_2_W ∧
    r ≠ main_v64 ∧ r ∉ hostOps2_W ∧ r ∉ hostOps2_1_W ∧ r ∉ hostOps2_2_W ∧
    r ≠ main_v97 ∧ r ∉ hostOps3_W ∧ r ∉ hostOps3_1_W ∧ r ∉ hostOps3_2_W ∧
    r ≠ main_v131 ∧ r ∉ hostOps4_W ∧ r ≠ main_v139 ∧ r ∉ hostOps5_W := by decide

-- So it holds the launch contents at every boundary; stated at the boundaries that are read.
theorem W_args (c : Dev nD) {r : Ref sig .tc} (hr : r ∈ args) :
    W1 m c r = m ((c : Thread nD τ).loc r) ∧ W5 m c r = m ((c : Thread nD τ).loc r) ∧ W9 m c r = m ((c : Thread nD τ).loc r) ∧ W12 m c r = m ((c : Thread nD τ).loc r)
      ∧ W14 m c r = m ((c : Thread nD τ).loc r) ∧ W15 m c r = m ((c : Thread nD τ).loc r) ∧ W17 m c r = m ((c : Thread nD τ).loc r) := by
  obtain ⟨-, h0, h1, h2, h3, h4, h5, h6, h7, h8, h9, h10, h11, h12, h13, h14, h15, h16⟩ := args_clear r hr
  have e1 := W1_of m c r h0
  have e5 := (W5_of m c r h4).trans <| (W4_of m c r h3).trans <| (W3_of m c r h2).trans <| (W2_of m c r h1).trans e1
  have e9 := (W9_of m c r h8).trans <| (W8_of m c r h7).trans <| (W7_of m c r h6).trans <| (W6_of m c r h5).trans e5
  have e12 := (W12_of m c r h11).trans <| (W11_of m c r h10).trans <| (W10_of m c r h9).trans e9
  have e14 := (W14_of m c r h13).trans <| (W13_of m c r h12).trans e12
  have e15 := (W15_of m c r h14).trans e14
  exact ⟨e1, e5, e9, e12, e14, e15, (W17_of m c r h16).trans <| (W16_of m c r h15).trans e15⟩

end Cert.KernelIdeal.Hand

end
-- ==== Proof.KI.Mm0.lean ====
import proofs.«402287_j53498112639137_1_alg».proof.Proof.KI.Mm0Def
import Idealize.ShloMosaic.Lib.Tactic

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem cover0_2 (p0 : Vec F S2000x256 .f32) (y : S2000x256.Idx) :
    ∃ pc ∈ ([⟨r0_2, p0⟩] : List (View.Piece (Elt F) S2000x256 .f32)), y ∈ pc.1.set :=
  View.cover_of_tiled [⟨r0_2, p0⟩] S2000x256.size (by rfl) y

set_option maxHeartbeats 1000000 in
theorem sound_kernel0 (c : Dev nD) (E : Set ℕ) (i : grid0.Coords)
    (arg1 : Memref sig .tc .vmem S2000x373 .f32) (harg1 : arg1.IsWhole)
    (arg2 : Memref sig .tc .vmem S373x256 .f32) (harg2 : arg2.IsWhole)
    (arg3 : Memref sig .tc .vmem S2000x256 .f32) (harg3 : arg3.IsWhole)
    (x0 : Vec F S2000x373 .f32) (x1 : Vec F S373x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Mm1.lean ====
import proofs.«402287_j53498112639137_1_alg».proof.Proof.KI.Mm1Def
import Idealize.ShloMosaic.Lib.Tactic

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem cover1_2 (p0 : Vec F S2000x128 .f32) (y : S2000x128.Idx) :
    ∃ pc ∈ ([⟨r1_2, p0⟩] : List (View.Piece (Elt F) S2000x128 .f32)), y ∈ pc.1.set :=
  View.cover_of_tiled [⟨r1_2, p0⟩] S2000x128.size (by rfl) y

set_option maxHeartbeats 1000000 in
theorem sound_kernel1 (c : Dev nD) (E : Set ℕ) (i : grid1.Coords)
    (arg1 : Memref sig .tc .vmem S2000x256 .f32) (harg1 : arg1.IsWhole)
    (arg2 : Memref sig .tc .vmem S256x128 .f32) (harg2 : arg2.IsWhole)
    (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Mm2.lean ====
import proofs.«402287_j53498112639137_1_alg».proof.Proof.KI.Mm2Def
import Idealize.ShloMosaic.Lib.Tactic

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem cover2_2 (p0 : Vec F S2000x128 .f32) (y : S2000x128.Idx) :
    ∃ pc ∈ ([⟨r2_2, p0⟩] : List (View.Piece (Elt F) S2000x128 .f32)), y ∈ pc.1.set :=
  View.cover_of_tiled [⟨r2_2, p0⟩] S2000x128.size (by rfl) y

set_option maxHeartbeats 1000000 in
theorem sound_kernel2 (c : Dev nD) (E : Set ℕ) (i : grid2.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Pool.lean ====
import proofs.«402287_j53498112639137_1_alg».proof.Proof.KI.PoolDef
import Idealize.ShloMosaic.Lib.Pipeline.Value
import Idealize.ShloMosaic.Lib.Tactic

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1

theorem hcond3_1 : ∀ t : Fin cfg3.N, cond3_1 (grid3.coords t) ↔ t.val = 49 :=
  (by decide +kernel : ∀ t : Fin grid3.N, cond3_1 (grid3.coords t) ↔ t.val = 49)

theorem hz2 : (![0, 0] : Fin 2 → ℕ) = fun _ => 0 := by funext a; fin_cases a <;> rfl

set_option maxHeartbeats 1000000 in
theorem sound_kernel3_A (c : Dev nD) (E : Set ℕ) (i : grid3.Coords)
    (arg1 : Memref sig .tc .vmem S1000x1 .i32) (harg1 : arg1.IsWhole) (arg2 : Memref sig .tc .vmem S1000x128 .f32) (harg2 : arg2.IsWhole)
    (arg3 : Memref sig .tc .vmem S1024x128 .f32) (harg3 : arg3.IsWhole) (arg4 : Memref sig .tc .vmem S1024x128 .f32) (harg4 : arg4.IsWhole)
    (hc0 : cond3_0 i) (hc1 : ¬cond3_1 i)
    (x0 : Vec F S1000x1 .i32) (x1 : Vec F S1000x128 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (k3_pay2 x0 x1 k3_pay1)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d4, %f4, -, H4⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H4
  ipureintro
  sl_unfold_run_names
  rw [View.read_writes_eq_canon _ _ _ (fun y => ⟨_, List.mem_cons_self, View.mem_set_unit_zero hz2 inb_S1024x128_S1024x128_0_0 y⟩),
    View.canon_cons_unit_zero (S := S1024x128) hz2]
  simp only [View.readAt_eq_ld, harg1.read_unread, harg2.read_unread,
    View.ld_unit_zero (S := S1000x1) hz2, View.ld_unit_zero (S := S1000x128) hz2, View.ld_unit_zero (S := S1024x128) hz2,
    View.readCov_unit_zero (S := S1024x128) _ hz2]

set_option maxHeartbeats 1000000 in
theorem sound_kernel3_B (c : Dev nD) (E : Set ℕ) (i : grid3.Coords)
    (arg1 : Memref sig .tc .vmem S1000x1 .i32) (harg1 : arg1.IsWhole) (arg2 : Memref sig .tc .vmem S1000x128 .f32) (harg2 : arg2.IsWhole)
    (arg3 : Memref sig .tc .vmem S1024x128 .f32) (harg3 : arg3.IsWhole) (arg4 : Memref sig .tc .vmem S1024x128 .f32) (harg4 : arg4.IsWhole)
    (hc0 : ¬cond3_0 i) (hc1 : ¬cond3_1 i)
    (x0 : Vec F S1000x1 .i32) (x1 : Vec F S1000x128 .f32) (xs : Vec F S1024x128 .f32) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1
            ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f4, %hf4, H4⟩, Hk⟩
  obtain rfl := harg1.eq_unread hf0; obtain rfl := harg2.eq_unread hf1; obtain rfl := harg4.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H4
  ipureintro
  sl_unfold_run_names
  rw [View.read_writes_eq_canon _ _ _ (fun y => ⟨_, List.mem_cons_self, View.mem_set_unit_zero hz2 inb_S1024x128_S1024x128_0_0 y⟩),
    View.canon_cons_unit_zero (S := S1024x128) hz2]
  simp only [View.readAt_eq_ld, harg1.read_unread, harg2.read_unread, harg4.read_unread,
    View.ld_unit_zero (S := S1000x1) hz2, View.ld_unit_zero (S := S1000x128) hz2, View.ld_unit_zero (S := S1024x128) hz2,
    View.readCov_unit_zero (S := S1024x128) _ hz2]

set_option maxHeartbeats 1000000 in
theorem sound_kernel3_C (c : Dev nD) (E : Set ℕ) (i : grid3.Coords)
    (arg1 : Memref sig .tc .vmem S1000x1 .i32) (harg1 : arg1.IsWhole) (arg2 : Memref sig .tc .vmem S1000x128 .f32) (harg2 : arg2.IsWhole)
    (arg3 : Memref sig .tc .vmem S1024x128 .f32) (harg3 : arg3.IsWhole) (arg4 : Memref sig .tc .vmem S1024x128 .f32) (harg4 : arg4.IsWhole)
    (hc0 : ¬cond3_0 i) (hc1 : cond3_1 i)
    (x0 : Vec F S1000x1 .i32) (x1 : Vec F S1000x128 .f32) (xs : Vec F S1024x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k3_pay2 x0 x1 xs)
            ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d3, %f3, -, H3⟩, ⟨%f4, %hf4, H4⟩, Hk⟩
  obtain rfl := harg1.eq_unread hf0; obtain rfl := harg2.eq_unread hf1; obtain rfl := harg4.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_run_names
    rw [View.read_writes_eq_canon _ _ _ (fun y => ⟨_, List.mem_cons_self, View.mem_set_unit_zero hz2 inb_S1024x128_S1024x128_0_0 y⟩),
      View.canon_cons_unit_zero (S := S1024x128) hz2]
    simp only [View.readAt_eq_ld, harg1.read_unread, harg2.read_unread, harg4.read_unread,
      View.ld_unit_zero (S := S1000x1) hz2, View.ld_unit_zero (S := S1000x128) hz2, View.ld_unit_zero (S := S1024x128) hz2,
      View.readCov_unit_zero (S := S1024x128) _ hz2]
  iexists _; isplitr
  swap; · iexact H4
  ipureintro
  sl_unfold_run_names
  rw [View.read_writes_eq_canon _ _ _ (fun y => ⟨_, List.mem_cons_self, View.mem_set_unit_zero hz2 inb_S1024x128_S1024x128_0_0 y⟩),
    View.canon_cons_unit_zero (S := S1024x128) hz2]
  simp only [View.readAt_eq_ld, harg1.read_unread, harg2.read_unread, harg4.read_unread,
    View.ld_unit_zero (S := S1000x1) hz2, View.ld_unit_zero (S := S1000x128) hz2, View.ld_unit_zero (S := S1024x128) hz2,
    View.readCov_unit_zero (S := S1024x128) _ hz2]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

abbrev ms3_0 (t : Fin cfg3.N) : Memref sig .tc .vmem S1000x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)

theorem idle3_2 : ∀ t : Fin cfg3.N, cfg3.idle 2 (cfg3.grid.coords t) = true ↔ t.val ≠ 49 :=
  (by decide +kernel : ∀ t : Fin grid3.N, idle3 2 (grid3.coords t) = true ↔ t.val ≠ 49)

theorem leaves3_2_idle (c : Dev nD) (t : Fin cfg3.N) (h : t.val ≠ 49) :
    (dat3 V c).leavesExact 2 t
      = iprop(∃ d, owns (c : Thread nD τ) (ms3_2 t) fullShare ((dat3 V c).before 2 t d)) :=
  (dat3 V c).leavesExact_idle 2 t ((idle3_2 t).mpr h) (Bool.eq_false_iff.mpr fun hf => by
    have hN : t.val < 50 := lt_of_lt_of_eq t.isLt (show cfg3.N = 50 from N_3)
    have := (flush3_2 t).mp hf
    omega)

theorem leaves3_2_last (c : Dev nD) (t : Fin cfg3.N) (h : t.val = 49) :
    (dat3 V c).leavesExact 2 t = owns (c : Thread nD τ) (ms3_2 t) fullShare (acc3 V c t.val) := by
  unfold Dat.leavesExact
  rw [Bool.eq_false_iff.mpr fun hi => (idle3_2 t).mp hi h, after3_2]

abbrev rest3 (c : Dev nD) : sProp 𝕄 :=
  iprop(Pipeline.scopedRestBut (Ix := Unit) (Name := ℕ) (U := UR sig nD τ) (Lvl := ℕ) (Val := Elt F) spec3 c [cc3_scratch0]
    ∗ ∃ r, prngReg c r)

theorem Phi3_castSucc (c : Dev nD) (t : Fin cfg3.N) :
    (dat3 V c).Φ t.castSucc = iprop(scrAt3 V c t.val ∗ rest3 (F := F) c) := Phi3_eq V c t.castSucc

theorem Phi3_succ (c : Dev nD) (t : Fin cfg3.N) :
    (dat3 V c).Φ t.succ = iprop(owns (c : Thread nD τ) scr3 fullShare (acc3 V c t.val) ∗ rest3 (F := F) c) := by
  rw [← scrAt3_succ V c t.val]; exact Phi3_eq V c t.succ

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ (dat3 V c).leavesExact 2 t)

set_option maxHeartbeats 1000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [Phi3_castSucc, Phi3_succ, show (dat3 V c).owesAt () t.succ = (dat3 V c).owesAt () t.castSucc from rfl,
    after3_0, after3_1]
  have hN : t.val < 50 := lt_of_lt_of_eq t.isLt (show cfg3.N = 50 from N_3)
  by_cases h0 : t.val = 0
  · rw [show scrAt3 V c t.val = iprop(∃ f : Vec F S1024x128 .f32, owns (c : Thread nD τ) scr3 fullShare f) from by
        rw [h0]; exact scrAt3_zero V c,
      acc3_first V c t h0, leaves3_2_idle V c t (by omega)]
    iintro ⟨⟨Hs, Hr⟩, Ho, ⟨%d0, H0⟩, ⟨%d1, H1⟩, H2⟩
    iapply (sound_kernel3_A c Set.univ (grid3.coords t) (ms3_0 t) (hs3_0 t) (ms3_1 t) (hs3_1 t) (ms3_2 t) (hs3_2 t)
      scr3 (Memref.isWhole_whole _) ((hcond3_0 t).mpr h0) (fun h => by have := (hcond3_1 t).mp h; omega)
      (iblk3 V c 0 t) (iblk3 V c 1 t) _)
    isplitl [H0]; · iexact H0
    isplitl [H1]; · iexact H1
    isplitl [Hs]; · iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · rw [scrAt3_pos V c t.val h0]
    by_cases h49 : t.val = 49
    · rw [leaves3_2_last V c t h49, acc3_later V c t h0]
      iintro ⟨⟨Hs, Hr⟩, Ho, ⟨%d0, H0⟩, ⟨%d1, H1⟩, ⟨%d2, H2⟩⟩
      iapply (sound_kernel3_C c Set.univ (grid3.coords t) (ms3_0 t) (hs3_0 t) (ms3_1 t) (hs3_1 t) (ms3_2 t) (hs3_2 t)
        scr3 (Memref.isWhole_whole _) (fun h => h0 ((hcond3_0 t).mp h)) ((hcond3_1 t).mpr h49)
        (iblk3 V c 0 t) (iblk3 V c 1 t) (acc3 V c (t.val - 1)) _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · rw [leaves3_2_idle V c t h49, acc3_later V c t h0]
      iintro ⟨⟨Hs, Hr⟩, Ho, ⟨%d0, H0⟩, ⟨%d1, H1⟩, H2⟩
      iapply (sound_kernel3_B c Set.univ (grid3.coords t) (ms3_0 t) (hs3_0 t) (ms3_1 t) (hs3_1 t) (ms3_2 t) (hs3_2 t)
        scr3 (Memref.isWhole_whole _) (fun h => h0 ((hcond3_0 t).mp h)) (fun h => h49 ((hcond3_1 t).mp h))
        (iblk3 V c 0 t) (iblk3 V c 1 t) (acc3 V c (t.val - 1)) _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

theorem body_obligation3 (c : Dev nD) : BodyObligation (dat3 (F := F) V c) (defs₀ (F := F)) Variants.none () Set.univ := fun t => by
  rw [bigSep_W3, bigSep_W3]
  exact sound_body3 V c t

theorem scr_owns (c : Dev nD) (X : Vec F S1024x128 .f32) :
    (owns (c : Thread nD τ) scr3 fullShare X : sProp 𝕄) = (((c : Thread nD τ).loc cc3_scratch0) ↦{fullShare} X) :=
  owns_whole (c : Thread nD τ) cc3_scratch0 fullShare X

theorem Phi3_in (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [scopedRest3_split, Phi3_eq, Fin.val_zero, scrAt3_zero]
  simp only [scr_owns]
  iintro ⟨Hp, ⟨%f, Hs⟩, Hr⟩
  isplitl [Hs]; · iexists f; iexact Hs
  isplitl [Hr]; · iexact Hr
  iexact Hp

theorem Phi3_out (c : Dev nD) :
    (dat3 V c).Φ (Fin.last cfg3.N)
      ⊢ iprop(Pipeline.scopedRest (Ix := Unit) (Name := ℕ) (U := UR sig nD τ) (Lvl := ℕ) (Val := Elt F) spec3 c ∗ ∃ r, prngReg c r) := by
  rw [scopedRest3_split, Phi3_eq, Fin.val_last, scrAt3_pos V c cfg3.N (by rw [show cfg3.N = 50 from N_3]; decide), scr_owns]
  iintro ⟨Hs, Hr, Hp⟩
  isplitr [Hp]
  · isplitl [Hs]; · iexists _; iexact Hs
    iexact Hr
  iexact Hp

end Cert.KernelIdeal.Hand

end
-- ==== Proof.KI.Mlp.lean ====
import proofs.«402287_j53498112639137_1_alg».proof.Proof.KI.MlpDef
import Idealize.ShloMosaic.Lib.Ring
import Idealize.ShloMosaic.Lib.Tactic

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

theorem before4_0 (c : Dev nD) (t : Fin cfg4.N) (d) : (dat4 V c).before 0 t d = iblk4 V c 0 t :=
  ((dat4 V c).before_fetched 0 t (fetch4_0 t) d).trans (by unfold Dat.fetched Dat.blockOf iblk4; rw [A_eq4]; try rfl)
theorem before4_1 (c : Dev nD) (t : Fin cfg4.N) (d) : (dat4 V c).before 1 t d = iblk4 V c 1 t :=
  ((dat4 V c).before_fetched 1 t (fetch4_1 t) d).trans (by unfold Dat.fetched Dat.blockOf iblk4; rw [A_eq4]; try rfl)
theorem before4_2 (c : Dev nD) (t : Fin cfg4.N) (d) : (dat4 V c).before 2 t d = iblk4 V c 2 t :=
  ((dat4 V c).before_fetched 2 t (fetch4_2 t) d).trans (by unfold Dat.fetched Dat.blockOf iblk4; rw [A_eq4]; try rfl)
theorem before4_3 (c : Dev nD) (t : Fin cfg4.N) (d) : (dat4 V c).before 3 t d = iblk4 V c 3 t :=
  ((dat4 V c).before_fetched 3 t (fetch4_3 t) d).trans (by unfold Dat.fetched Dat.blockOf iblk4; rw [A_eq4]; try rfl)
theorem before4_4 (c : Dev nD) (t : Fin cfg4.N) (d) : (dat4 V c).before 4 t d = iblk4 V c 4 t :=
  ((dat4 V c).before_fetched 4 t (fetch4_4 t) d).trans (by unfold Dat.fetched Dat.blockOf iblk4; rw [A_eq4]; try rfl)
theorem before4_5 (c : Dev nD) (t : Fin cfg4.N) (d) : (dat4 V c).before 5 t d = iblk4 V c 5 t :=
  ((dat4 V c).before_fetched 5 t (fetch4_5 t) d).trans (by unfold Dat.fetched Dat.blockOf iblk4; rw [A_eq4]; try rfl)
theorem before4_6 (c : Dev nD) (t : Fin cfg4.N) (d) : (dat4 V c).before 6 t d = iblk4 V c 6 t :=
  ((dat4 V c).before_fetched 6 t (fetch4_6 t) d).trans (by unfold Dat.fetched Dat.blockOf iblk4; rw [A_eq4]; try rfl)
theorem before4_7 (c : Dev nD) (t : Fin cfg4.N) (d) : (dat4 V c).before 7 t d = iblk4 V c 7 t :=
  ((dat4 V c).before_fetched 7 t (fetch4_7 t) d).trans (by unfold Dat.fetched Dat.blockOf iblk4; rw [A_eq4]; try rfl)
theorem before4_8 (c : Dev nD) (t : Fin cfg4.N) (d) : (dat4 V c).before 8 t d = iblk4 V c 8 t :=
  ((dat4 V c).before_fetched 8 t (fetch4_8 t) d).trans (by unfold Dat.fetched Dat.blockOf iblk4; rw [A_eq4]; try rfl)
theorem before4_9 (c : Dev nD) (t : Fin cfg4.N) (d) : (dat4 V c).before 9 t d = iblk4 V c 9 t :=
  ((dat4 V c).before_fetched 9 t (fetch4_9 t) d).trans (by unfold Dat.fetched Dat.blockOf iblk4; rw [A_eq4]; try rfl)
theorem before4_10 (c : Dev nD) (t : Fin cfg4.N) (d) : (dat4 V c).before 10 t d = iblk4 V c 10 t :=
  ((dat4 V c).before_fetched 10 t (fetch4_10 t) d).trans (by unfold Dat.fetched Dat.blockOf iblk4; rw [A_eq4]; try rfl)

theorem cover4_11 (p0 : Vec F S1024x1 .f32) (y : S1024x1.Idx) :
    ∃ pc ∈ ([⟨r4_S1024x1, p0⟩] : List (View.Piece (Elt F) S1024x1 .f32)), y ∈ pc.1.set :=
  View.cover_of_tiled [⟨r4_S1024x1, p0⟩] S1024x1.size (by rfl) y

set_option maxHeartbeats 4000000 in
theorem sound_kernel4 (c : Dev nD) (E : Set ℕ) (i : grid4.Coords) (arg1 : Memref sig .tc .vmem S1024x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S1x1 .f32) (harg11 : arg11.IsWhole) (arg12 : Memref sig .tc .vmem S1024x1 .f32) (harg12 : arg12.IsWhole)
    (x0 : Vec F S1024x128 .f32) (x1 : Vec F S128x64 .f32) (x2 : Vec F S1x64 .f32) (x3 : Vec F S1x64 .f32) (x4 : Vec F S1x64 .f32) (x5 : Vec F S1x64 .f32) (x6 : Vec F S1x64 .f32) (x7 : Vec F S64x64 .f32) (x8 : Vec F S1x64 .f32) (x9 : Vec F S64x1 .f32) (x10 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (out4_11 x0 x1 x2 x3 x4 x5 x6 x7 x8 x9 x10)) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11 arg12 harg12) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover4_11 _)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t))

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel4 c Set.univ _ _ _ _ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«402287_j53498112639137_1_alg».proof.Proof.KI.Fold
import proofs.«402287_j53498112639137_1_alg».proof.Proof.KI.Mm0
import proofs.«402287_j53498112639137_1_alg».proof.Proof.KI.Mm1
import proofs.«402287_j53498112639137_1_alg».proof.Proof.KI.Mm2
import proofs.«402287_j53498112639137_1_alg».proof.Proof.KI.Pool
import proofs.«402287_j53498112639137_1_alg».proof.Proof.KI.Mlp
import Idealize.ShloMosaic.Lib.Pipeline.Regions
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
  | ⟨2, _⟩ => fun c => dat2 (V9 m) c
  | ⟨3, _⟩ => fun c => dat3 (V13 m) c
  | ⟨4, _⟩ => fun c => dat4 (V15 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W17 m c) ∗ ∃ r, prngReg c r)

-- One construction for the regions that carry nothing from one grid point to the next.
set_option backward.isDefEq.respectTransparency.types false in
def regA (p : Fin 5) (lf : Pipeline.LaunchFacts (nD := nD) (τ := τ) cfgs p) (Wa Wb : Dev nD → Valuation τ sig (Elt F))
    (hbody : ∀ c, Pipeline.BodyObligationLoose (pdats m p c) defs₀ 𝒱₀ () Set.univ)
    (howed : ∀ c t, (pdats m p c).owed t = 0) (hq : ∀ c w, (pdats m p c).q w = fullShare)
    (hrec : ∀ c t, (pdats m p c).recorded t = Set.univ)
    (hA : ∀ c w, (pdats m p c).A w = Wa c (Pipeline.arrRef (pcfgs (F := F) p).spec w))
    (hΦ : ∀ c i, (pdats m p c).Φ i = Pipeline.ΦA (pcfgs (F := F) p).spec c)
    (hF : ∀ c w, (pdats m p c).arrAt w (Pipeline.pin (pcfgs (F := F)) adm p).N = Wb c (Pipeline.arrRef (pcfgs (F := F) p).spec w))
    (hrest : ∀ c b, b ∉ Finset.univ.image (Pipeline.arrRef (pcfgs (F := F) p).spec) → Wb c b = Wa c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := hbody c
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Wa c b)
  hentry c := by
    rw [Pipeline.ownSems0_none]
    have hsplit := Pipeline.arrays_of_unscopedBufs (p := p) (pcfgs (F := F)) adm (pdats m) lf.win lf.arr_whole c
      ((pdats m p c).share_full (hq c)) (fun b => Wa c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wa c b) (fun b => Wb c b) ((pdats m p c).arrAt · _) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

set_option backward.isDefEq.respectTransparency.types false in
def reg0 : Pipeline.RegionSeg (pcfgs (F := F)) adm (pdats m) () defs₀ 𝒱₀ L lv 0 :=
  regA m 0 launch0 (W1 m) (W2 m) (fun c => (body_obligation0 (V1 m) c).loose) (fun _ _ => rfl) (fun _ _ => rfl)
    (fun _ _ => rfl) (fun _ _ => rfl) (fun _ _ => rfl) (hF0 m) (hrest0 m)

set_option backward.isDefEq.respectTransparency.types false in
def reg1 : Pipeline.RegionSeg (pcfgs (F := F)) adm (pdats m) () defs₀ 𝒱₀ L lv 1 :=
  regA m 1 launch1 (W5 m) (W6 m) (fun c => (body_obligation1 (V5 m) c).loose) (fun _ _ => rfl) (fun _ _ => rfl)
    (fun _ _ => rfl) (fun _ _ => rfl) (fun _ _ => rfl) (hF1 m) (hrest1 m)

set_option backward.isDefEq.respectTransparency.types false in
def reg2 : Pipeline.RegionSeg (pcfgs (F := F)) adm (pdats m) () defs₀ 𝒱₀ L lv 2 :=
  regA m 2 launch2 (W9 m) (W10 m) (fun c => (body_obligation2 (V9 m) c).loose) (fun _ _ => rfl) (fun _ _ => rfl)
    (fun _ _ => rfl) (fun _ _ => rfl) (fun _ _ => rfl) (hF2 m) (hrest2 m)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V13 m) c).loose
  hwaits := Pipeline.hwaits_of_owed_zero _ _ _ _ L lv 3 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec3 c (V13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V13 m) c).Φ 0 from rfl]
    iintro ⟨Hp, -, Hr⟩
    iapply (Phi3_in (V13 m) c)
    isplitl [Hp]; · iexact Hp
    iexact Hr
  hout c := by
    rw [Pipeline.ownSems0_none, show (pdats m 3 c).Φ (Fin.last _) = (dat3 (V13 m) c).Φ (Fin.last cfg3.N) from rfl]
    iintro H
    ihave H' := (Phi3_out (V13 m) c) $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V13 m c) (V14 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m) () defs₀ 𝒱₀ L lv 4 :=
  regA m 4 launch4 (W15 m) (W16 m) (fun c => (body_obligation4 (V15 m) c).loose) (fun _ _ => rfl) (fun _ _ => rfl)
    (fun _ _ => rfl) (fun _ _ => rfl) (fun _ _ => rfl) (hF4 m) (hrest4 m)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)),
    .region (reg2 m),
    .host (hseg hostOps3 hostOps3_sub hostOps3_fresh (W10 m)),
    .host (hseg hostOps3_1 hostOps3_1_sub hostOps3_1_fresh (W11 m)),
    .host (hseg hostOps3_2 hostOps3_2_sub hostOps3_2_fresh (W12 m)),
    .region (reg3 m),
    .host (hseg hostOps4 hostOps4_sub hostOps4_fresh (W14 m)),
    .region (reg4 m),
    .host (hseg hostOps5 hostOps5_sub hostOps5_fresh (W16 m)) ]

theorem last_step (c : Dev nD) :
    iprop(StableHlo.held (c : Thread nD τ) (Pipeline.ucRefs τ sig) (W17 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh] <;> iassumption
  iexact HO

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, .rfl, .rfl, .rfl, .rfl, .rfl, .rfl, .rfl, last_step m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c => h c)

end Cert.KernelIdeal.Hand

end
-- ==== Proof.KI.Frame.lean ====
import proofs.«402287_j53498112639137_1_alg».proof.Proof.KI.Run

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

-- The run ends with the result buffer at the last boundary's contents and every argument array as launched.
theorem run_result : θ_run defs (onTc (τ := τ) (main (F := F))) ⟨m, fun _ => 0, ρ⟩ (fun r => ∀ c : Dev nD,
      r.2.mem ((c.tc : Thread nD τ).loc main_v140) = W17 m c main_v140
      ∧ ∀ b ∈ args, r.2.mem ((c.tc : Thread nD τ).loc b) = m ((c.tc : Thread nD τ).loc b)) :=
  (θ_run defs _ _).mono (fun r h c => ⟨h c _ (mem_uc main_v140 (by decide)), fun b hb =>
    (h c _ (mem_uc b (args_clear b hb).1)).trans (W_args m c hb).2.2.2.2.2.2⟩)
    (run_all m ρ)

end Cert.KernelIdeal.Hand

end
-- ==== Proof.Val.PreV4.lean ====
import proofs.«402287_j53498112639137_1_alg».proof.Defs
import proofs.«402287_j53498112639137_1_alg».proof.Proof.Gen.Pre_finite_inputs
import Idealize.ShloMosaic.Lib.ReduceAll
import Idealize.ShloMosaic.Lib.IdealHost

namespace Cert.Proof.Val

open Idealize.ShloMosaic Idealize.ShloMosaic.ValueIdx Idealize.SL.Sem
open Cert.Pre_finite_inputs

local instance : Subsingleton Cert.Pre_finite_inputs.S_.Idx := ⟨fun a b => funext fun d => d.elim0⟩

private theorem ofBool_eq_one {b : Bool} (h : BitVec.ofBool b = 1#1) : b = true := by
  cases b
  · exact absurd h (by decide)
  · rfl

abbrev mainArg26 (m : (ℓ : Loc Cert.KernelIdeal.nD Cert.KernelIdeal.τ Cert.KernelIdeal.sig) → Buf (Elt Ideal) ℓ)
    (c : Dev Cert.KernelIdeal.nD) : FVec Ideal Cert.KernelIdeal.S64 .f32 :=
  m ((c.tc : Thread Cert.KernelIdeal.nD Cert.KernelIdeal.τ).loc Cert.KernelIdeal.main_arg26)

theorem v4_pos (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S64.Idx) :
    (0 : EReal) < mainArg26 m c j + Ideal.ofBits .f32 0x3727C5AC#32 := by
  have h0 := congrFun (h c) ValueIdx.ix0
  dsimp only [Cert.Pre_finite_inputs.fn, fn_part1, fn_part2, fn_part3, fn_part4, fn_part5, fn_part6, fn_part7,
    fn_part8, andi] at h0
  obtain ⟨-, h148⟩ := IntOp.andi_eq_one.1 h0
  have hj := Host.reduce_andi_all _ _ _ _ _ h148 j
  rw [cmpf_apply, addf_apply, broadcastInDim_scalar_apply, broadcastInDim_scalar_apply, constant_apply,
    constant_apply, Ideal.ofBits_zero_f32] at hj
  change BitVec.ofBool (decide ((0 : EReal) < _)) = 1#1 at hj
  exact of_decide_eq_true (ofBool_eq_one hj)

end Cert.Proof.Val
-- ==== Proof.Val.GlueTail.lean ====
import proofs.«402287_j53498112639137_1_alg».proof.Proof.KI.Fold
import Idealize.ShloMosaic.Lib.Pipeline.Value
import Idealize.ShloMosaic.Lib.StableHlo.Run
import Idealize.ShloMosaic.Lib.ValueIdx
import Idealize.ShloMosaic.PureOps.Ideal
import proofs.«402287_j53498112639137_1_alg».proof.Proof.Gen.ReferenceIdeal

noncomputable section

namespace Cert.Proof.Val

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

theorem W1_arg0 (c : Dev nD) : Hand.W1 m c main_arg0 = m ((c.tc : Thread nD τ).loc main_arg0) :=
  (Hand.W_args m c (r := main_arg0) (by decide)).1

theorem W1_arg3 (c : Dev nD) : Hand.W1 m c main_arg3 = m ((c.tc : Thread nD τ).loc main_arg3) :=
  (Hand.W_args m c (r := main_arg3) (by decide)).1

theorem W5_arg9 (c : Dev nD) : Hand.W5 m c main_arg9 = m ((c.tc : Thread nD τ).loc main_arg9) :=
  (Hand.W_args m c (r := main_arg9) (by decide)).2.1

theorem W9_arg15 (c : Dev nD) : Hand.W9 m c main_arg15 = m ((c.tc : Thread nD τ).loc main_arg15) :=
  (Hand.W_args m c (r := main_arg15) (by decide)).2.2.1

theorem W12_arg2 (c : Dev nD) : Hand.W12 m c main_arg2 = m ((c.tc : Thread nD τ).loc main_arg2) :=
  (Hand.W_args m c (r := main_arg2) (by decide)).2.2.2.1

theorem W14_arg22 (c : Dev nD) : Hand.W14 m c main_arg22 = m ((c.tc : Thread nD τ).loc main_arg22) :=
  (Hand.W_args m c (r := main_arg22) (by decide)).2.2.2.2.1
theorem W14_arg23 (c : Dev nD) : Hand.W14 m c main_arg23 = m ((c.tc : Thread nD τ).loc main_arg23) :=
  (Hand.W_args m c (r := main_arg23) (by decide)).2.2.2.2.1
theorem W14_arg24 (c : Dev nD) : Hand.W14 m c main_arg24 = m ((c.tc : Thread nD τ).loc main_arg24) :=
  (Hand.W_args m c (r := main_arg24) (by decide)).2.2.2.2.1
theorem W14_arg25 (c : Dev nD) : Hand.W14 m c main_arg25 = m ((c.tc : Thread nD τ).loc main_arg25) :=
  (Hand.W_args m c (r := main_arg25) (by decide)).2.2.2.2.1
theorem W14_arg26 (c : Dev nD) : Hand.W14 m c main_arg26 = m ((c.tc : Thread nD τ).loc main_arg26) :=
  (Hand.W_args m c (r := main_arg26) (by decide)).2.2.2.2.1
theorem W14_arg28 (c : Dev nD) : Hand.W14 m c main_arg28 = m ((c.tc : Thread nD τ).loc main_arg28) :=
  (Hand.W_args m c (r := main_arg28) (by decide)).2.2.2.2.1
theorem W14_arg30 (c : Dev nD) : Hand.W14 m c main_arg30 = m ((c.tc : Thread nD τ).loc main_arg30) :=
  (Hand.W_args m c (r := main_arg30) (by decide)).2.2.2.2.1

theorem W15_arg21 (c : Dev nD) : Hand.W15 m c main_arg21 = m ((c.tc : Thread nD τ).loc main_arg21) :=
  (Hand.W_args m c (r := main_arg21) (by decide)).2.2.2.2.2.1
theorem W15_arg27 (c : Dev nD) : Hand.W15 m c main_arg27 = m ((c.tc : Thread nD τ).loc main_arg27) :=
  (Hand.W_args m c (r := main_arg27) (by decide)).2.2.2.2.2.1
theorem W15_arg29 (c : Dev nD) : Hand.W15 m c main_arg29 = m ((c.tc : Thread nD τ).loc main_arg29) :=
  (Hand.W_args m c (r := main_arg29) (by decide)).2.2.2.2.2.1

theorem V1_arg0 (c : Dev nD) : Hand.V1 m c main_arg0 = m ((c.tc : Thread nD τ).loc main_arg0) := W1_arg0 m c
theorem V1_arg3 (c : Dev nD) : Hand.V1 m c main_arg3 = m ((c.tc : Thread nD τ).loc main_arg3) := W1_arg3 m c
theorem V5_arg9 (c : Dev nD) : Hand.V5 m c main_arg9 = m ((c.tc : Thread nD τ).loc main_arg9) := W5_arg9 m c
theorem V9_arg15 (c : Dev nD) : Hand.V9 m c main_arg15 = m ((c.tc : Thread nD τ).loc main_arg15) := W9_arg15 m c
theorem V15_arg21 (c : Dev nD) : Hand.V15 m c main_arg21 = m ((c.tc : Thread nD τ).loc main_arg21) := W15_arg21 m c
theorem V15_arg27 (c : Dev nD) : Hand.V15 m c main_arg27 = m ((c.tc : Thread nD τ).loc main_arg27) := W15_arg27 m c
theorem V15_arg29 (c : Dev nD) : Hand.V15 m c main_arg29 = m ((c.tc : Thread nD τ).loc main_arg29) := W15_arg29 m c

theorem column_eq {α : Type} {n : Nat} (x : (⟨1, ![n]⟩ : Shape).Idx → α) (hn : n ≠ 1)
    (hs : (⟨1, ![n]⟩ : Shape).ShapeCasts ⟨2, ![n, 1]⟩) (hb : (⟨1, ![n]⟩ : Shape).BroadcastsInDim ⟨2, ![n, 1]⟩ ![0]) :
    shapeCast (⟨2, ![n, 1]⟩ : Shape) x hs = broadcastInDim (⟨2, ![n, 1]⟩ : Shape) ![0] hb x := by
  funext j
  have h1 : (j 1).val = 0 := by have := (j 1).isLt; simp at this; omega
  refine (shapeCast_apply x hs j (ValueIdx.ix1 (j 0 : Fin n)) ?_).trans
    (broadcastInDim_apply ![0] hb x j (ValueIdx.ix1 (j 0 : Fin n)) fun a => ?_).symm
  · rw [Shape.rowMajor_val_one, Shape.rowMajor_val_two, h1]
    show (j 0).val = (j 0).val * 1 + 0
    omega
  · match a with
    | ⟨0, _⟩ =>
      show (j 0).val = if n = 1 then 0 else (j 0).val
      rw [if_neg hn]

theorem V13_v130 (c : Dev nD) :
    (Hand.V13 m c main_v130 : Vec Ideal S50000x1 .i32)
      = broadcastInDim Cert.ReferenceIdeal.S50000x1 ![0] Cert.ReferenceIdeal.Gen.bcast_S50000_S50000x1_0
          (m ((c.tc : Thread nD τ).loc main_arg2)) := by
  have e : (Hand.V13 m c main_v130 : Vec Ideal S50000x1 .i32)
      = shapeCast S50000x1 (Hand.W12 m c main_arg2 : Vec Ideal S50000 .i32) shapeCasts_S50000_S50000x1 := by
    show StableHlo.after hostOps3_2 (Hand.W12 m c) (Proc.devRef .tc main_v130) = _
    after_results
    rfl
  rw [e, W12_arg2]
  exact column_eq (n := 50000) _ (by decide) _ _

theorem V15_v132 (c : Dev nD) :
    (Hand.V15 m c main_v132 : Vec Ideal S1x64 .f32) = shapeCast S1x64 (m ((c.tc : Thread nD τ).loc main_arg22) : Vec Ideal S64 .f32) shapeCasts_S64_S1x64 := by
  have e : (Hand.V15 m c main_v132 : Vec Ideal S1x64 .f32)
      = shapeCast S1x64 (Hand.W14 m c main_arg22 : Vec Ideal S64 .f32) shapeCasts_S64_S1x64 := by
    show StableHlo.after hostOps4 (Hand.W14 m c) (Proc.devRef .tc main_v132) = _
    after_results
    rfl
  rw [e, W14_arg22]
theorem V15_v133 (c : Dev nD) :
    (Hand.V15 m c main_v133 : Vec Ideal S1x64 .f32) = shapeCast S1x64 (m ((c.tc : Thread nD τ).loc main_arg23) : Vec Ideal S64 .f32) shapeCasts_S64_S1x64 := by
  have e : (Hand.V15 m c main_v133 : Vec Ideal S1x64 .f32)
      = shapeCast S1x64 (Hand.W14 m c main_arg23 : Vec Ideal S64 .f32) shapeCasts_S64_S1x64 := by
    show StableHlo.after hostOps4 (Hand.W14 m c) (Proc.devRef .tc main_v133) = _
    after_results
    rfl
  rw [e, W14_arg23]
theorem V15_v134 (c : Dev nD) :
    (Hand.V15 m c main_v134 : Vec Ideal S1x64 .f32) = shapeCast S1x64 (m ((c.tc : Thread nD τ).loc main_arg24) : Vec Ideal S64 .f32) shapeCasts_S64_S1x64 := by
  have e : (Hand.V15 m c main_v134 : Vec Ideal S1x64 .f32)
      = shapeCast S1x64 (Hand.W14 m c main_arg24 : Vec Ideal S64 .f32) shapeCasts_S64_S1x64 := by
    show StableHlo.after hostOps4 (Hand.W14 m c) (Proc.devRef .tc main_v134) = _
    after_results
    rfl
  rw [e, W14_arg24]
theorem V15_v135 (c : Dev nD) :
    (Hand.V15 m c main_v135 : Vec Ideal S1x64 .f32) = shapeCast S1x64 (m ((c.tc : Thread nD τ).loc main_arg25) : Vec Ideal S64 .f32) shapeCasts_S64_S1x64 := by
  have e : (Hand.V15 m c main_v135 : Vec Ideal S1x64 .f32)
      = shapeCast S1x64 (Hand.W14 m c main_arg25 : Vec Ideal S64 .f32) shapeCasts_S64_S1x64 := by
    show StableHlo.after hostOps4 (Hand.W14 m c) (Proc.devRef .tc main_v135) = _
    after_results
    rfl
  rw [e, W14_arg25]
theorem V15_v136 (c : Dev nD) :
    (Hand.V15 m c main_v136 : Vec Ideal S1x64 .f32) = shapeCast S1x64 (m ((c.tc : Thread nD τ).loc main_arg26) : Vec Ideal S64 .f32) shapeCasts_S64_S1x64 := by
  have e : (Hand.V15 m c main_v136 : Vec Ideal S1x64 .f32)
      = shapeCast S1x64 (Hand.W14 m c main_arg26 : Vec Ideal S64 .f32) shapeCasts_S64_S1x64 := by
    show StableHlo.after hostOps4 (Hand.W14 m c) (Proc.devRef .tc main_v136) = _
    after_results
    rfl
  rw [e, W14_arg26]
theorem V15_v137 (c : Dev nD) :
    (Hand.V15 m c main_v137 : Vec Ideal S1x64 .f32) = shapeCast S1x64 (m ((c.tc : Thread nD τ).loc main_arg28) : Vec Ideal S64 .f32) shapeCasts_S64_S1x64 := by
  have e : (Hand.V15 m c main_v137 : Vec Ideal S1x64 .f32)
      = shapeCast S1x64 (Hand.W14 m c main_arg28 : Vec Ideal S64 .f32) shapeCasts_S64_S1x64 := by
    show StableHlo.after hostOps4 (Hand.W14 m c) (Proc.devRef .tc main_v137) = _
    after_results
    rfl
  rw [e, W14_arg28]
theorem V15_v138 (c : Dev nD) :
    (Hand.V15 m c main_v138 : Vec Ideal S1x1 .f32) = shapeCast S1x1 (m ((c.tc : Thread nD τ).loc main_arg30) : Vec Ideal S1 .f32) shapeCasts_S1_S1x1 := by
  have e : (Hand.V15 m c main_v138 : Vec Ideal S1x1 .f32)
      = shapeCast S1x1 (Hand.W14 m c main_arg30 : Vec Ideal S1 .f32) shapeCasts_S1_S1x1 := by
    show StableHlo.after hostOps4 (Hand.W14 m c) (Proc.devRef .tc main_v138) = _
    after_results
    rfl
  rw [e, W14_arg30]

theorem V2_v31 (c : Dev nD) : Hand.V2 m c main_v31 = (Hand.dat0 (Hand.V1 m) c).arrAt 2 cfg0.N := Hand.W2_arr m c 2

theorem V6_v64 (c : Dev nD) : Hand.V6 m c main_v64 = (Hand.dat1 (Hand.V5 m) c).arrAt 2 cfg1.N := Hand.W6_arr m c 2

theorem V10_v97 (c : Dev nD) : Hand.V10 m c main_v97 = (Hand.dat2 (Hand.V9 m) c).arrAt 2 cfg2.N := Hand.W10_arr m c 2

theorem V15_v131 (c : Dev nD) : Hand.V15 m c main_v131 = (Hand.dat3 (Hand.V13 m) c).arrAt 2 cfg3.N :=
  (Hand.W15_of m c main_v131 (by decide)).trans (Hand.W14_arr m c 2)

theorem V16_v139 (c : Dev nD) : Hand.V16 m c main_v139 = (Hand.dat4 (Hand.V15 m) c).arrAt 11 cfg4.N := Hand.W16_arr m c 11

theorem W17_v140 (c : Dev nD) :
    (Hand.W17 m c main_v140 : Vec Ideal S1024 .f32)
      = shapeCast S1024 (Hand.V16 m c main_v139 : Vec Ideal S1024x1 .f32) shapeCasts_S1024x1_S1024 := by
  show StableHlo.after hostOps5 (Hand.W16 m c) (Proc.devRef .tc main_v140) = _
  after_results
  rfl

end Cert.Proof.Val

end
-- ==== Proof.Val.RefLayers.lean ====
import proofs.«402287_j53498112639137_1_alg».proof.Proof.Gen.ReferenceIdeal

noncomputable section

namespace Cert.Proof.Val

open Cert.ReferenceIdeal Cert.ReferenceIdeal.Gen Idealize.ShloMosaic

variable {F : FTy → Type} [FloatOps F]

def refSrc (ei : (⟨S2x400000, .i32⟩ : BufTy).Contents (Elt F)) : (⟨S400000, .i32⟩ : BufTy).Contents (Elt F) :=
  shapeCast _ (extractStridedSlice S1x400000 ![0, 0] ei slices_S2x400000_S1x400000_0_0) shapeCasts_S1x400000_S400000

def refDst (ei : (⟨S2x400000, .i32⟩ : BufTy).Contents (Elt F)) : (⟨S400000, .i32⟩ : BufTy).Contents (Elt F) :=
  shapeCast _ (extractStridedSlice S1x400000 ![1, 0] ei slices_S2x400000_S1x400000_1_0) shapeCasts_S1x400000_S400000

def refWrap (i : (⟨S400000, .i32⟩ : BufTy).Contents (Elt F)) : (⟨S400000, .i32⟩ : BufTy).Contents (Elt F) :=
  select (cmpi .slt i (broadcastInDim S400000 ![] bcast_S_S400000 (constantI S_ 32 0#32))) (addi i (broadcastInDim S400000 ![] bcast_S_S400000 (constantI S_ 32 50000#32))) i

def refDis (ei : (⟨S2x400000, .i32⟩ : BufTy).Contents (Elt F)) : (⟨S50000, .f32⟩ : BufTy).Contents (Elt F) :=
  Host.divf (broadcastInDim S50000 ![] bcast_S_S50000 (constant S_ .f32 0x3F800000#32)) (Host.sqrt (addf (Host.scatterAdd scatter_S50000_S400000x1_S400000_n_0_0_1 (broadcastInDim S50000 ![] bcast_S_S50000 (constant S_ .f32 0x00000000#32)) (broadcastInDim S400000x1 ![0] bcast_S400000_S400000x1_0 (refDst ei)) (broadcastInDim S400000 ![] bcast_S_S400000 (constant S_ .f32 0x3F800000#32))) (broadcastInDim S50000 ![] bcast_S_S50000 (constant S_ .f32 0x3F800000#32))))

def refNorm (ei : (⟨S2x400000, .i32⟩ : BufTy).Contents (Elt F)) : (⟨S400000, .f32⟩ : BufTy).Contents (Elt F) :=
  mulf (Host.gather gather_S50000_S400000x1_S400000_n_0_n_n_0_1_1 (refDis ei) (broadcastInDim S400000x1 ![0] bcast_S400000_S400000x1_0 (refWrap (refSrc ei)))) (Host.gather gather_S50000_S400000x1_S400000_n_0_n_n_0_1_1 (refDis ei) (broadcastInDim S400000x1 ![0] bcast_S400000_S400000x1_0 (refWrap (refDst ei))))

def layer256 (ei : (⟨S2x400000, .i32⟩ : BufTy).Contents (Elt F)) (h : (⟨S50000x256, .f32⟩ : BufTy).Contents (Elt F))
    (b g be mu v : (⟨S256, .f32⟩ : BufTy).Contents (Elt F)) : (⟨S50000x256, .f32⟩ : BufTy).Contents (Elt F) :=
  addf (mulf (subf (maximumf (addf (addf (Host.scatterAdd scatter_S50000x256_S400000x1_S400000x256_1_0_0_1 (broadcastInDim S50000x256 ![] bcast_S_S50000x256 (constant S_ .f32 0x00000000#32)) (broadcastInDim S400000x1 ![0] bcast_S400000_S400000x1_0 (refDst ei)) (mulf (Host.gather gather_S50000x256_S400000x1_S400000x256_1_0_n_n_0_1_1256 h (broadcastInDim S400000x1 ![0] bcast_S400000_S400000x1_0 (refWrap (refSrc ei)))) (broadcastInDim S400000x256 ![0, 1] bcast_S400000x1_S400000x256_0_1 (broadcastInDim S400000x1 ![0] bcast_S400000_S400000x1_0 (refNorm ei))))) (mulf h (broadcastInDim S50000x256 ![0, 1] bcast_S50000x1_S50000x256_0_1 (broadcastInDim S50000x1 ![0] bcast_S50000_S50000x1_0 (mulf (refDis ei) (refDis ei)))))) (broadcastInDim S50000x256 ![0, 1] bcast_S1x256_S50000x256_0_1 (broadcastInDim S1x256 ![1] bcast_S256_S1x256_1 b))) (broadcastInDim S50000x256 ![] bcast_S_S50000x256 (constant S_ .f32 0x00000000#32))) (broadcastInDim S50000x256 ![0, 1] bcast_S1x256_S50000x256_0_1 (broadcastInDim S1x256 ![1] bcast_S256_S1x256_1 mu))) (broadcastInDim S50000x256 ![0, 1] bcast_S1x256_S50000x256_0_1 (broadcastInDim S1x256 ![1] bcast_S256_S1x256_1 (Host.divf g (Host.sqrt (addf v (broadcastInDim S256 ![] bcast_S_S256 (constant S_ .f32 0x3727C5AC#32)))))))) (broadcastInDim S50000x256 ![0, 1] bcast_S1x256_S50000x256_0_1 (broadcastInDim S1x256 ![1] bcast_S256_S1x256_1 be))

def layer128 (ei : (⟨S2x400000, .i32⟩ : BufTy).Contents (Elt F)) (h : (⟨S50000x128, .f32⟩ : BufTy).Contents (Elt F))
    (b g be mu v : (⟨S128, .f32⟩ : BufTy).Contents (Elt F)) : (⟨S50000x128, .f32⟩ : BufTy).Contents (Elt F) :=
  addf (mulf (subf (maximumf (addf (addf (Host.scatterAdd scatter_S50000x128_S400000x1_S400000x128_1_0_0_1 (broadcastInDim S50000x128 ![] bcast_S_S50000x128 (constant S_ .f32 0x00000000#32)) (broadcastInDim S400000x1 ![0] bcast_S400000_S400000x1_0 (refDst ei)) (mulf (Host.gather gather_S50000x128_S400000x1_S400000x128_1_0_n_n_0_1_1128 h (broadcastInDim S400000x1 ![0] bcast_S400000_S400000x1_0 (refWrap (refSrc ei)))) (broadcastInDim S400000x128 ![0, 1] bcast_S400000x1_S400000x128_0_1 (broadcastInDim S400000x1 ![0] bcast_S400000_S400000x1_0 (refNorm ei))))) (mulf h (broadcastInDim S50000x128 ![0, 1] bcast_S50000x1_S50000x128_0_1 (broadcastInDim S50000x1 ![0] bcast_S50000_S50000x1_0 (mulf (refDis ei) (refDis ei)))))) (broadcastInDim S50000x128 ![0, 1] bcast_S1x128_S50000x128_0_1 (broadcastInDim S1x128 ![1] bcast_S128_S1x128_1 b))) (broadcastInDim S50000x128 ![] bcast_S_S50000x128 (constant S_ .f32 0x00000000#32))) (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.divf g (Host.sqrt (addf v (broadcastInDim S128 ![] bcast_S_S128 (constant S_ .f32 0x3727C5AC#32)))))))) (broadcastInDim S50000x128 ![0, 1] bcast_S1x128_S50000x128_0_1 (broadcastInDim S1x128 ![1] bcast_S128_S1x128_1 be))

def poolR (batch : (⟨S50000, .i32⟩ : BufTy).Contents (Elt F)) (h : (⟨S50000x128, .f32⟩ : BufTy).Contents (Elt F)) :
    (⟨S1024x128, .f32⟩ : BufTy).Contents (Elt F) :=
  Host.scatterAdd scatter_S1024x128_S50000x1_S50000x128_1_0_0_1 (broadcastInDim S1024x128 ![] bcast_S_S1024x128 (constant S_ .f32 0x00000000#32)) (broadcastInDim S50000x1 ![0] bcast_S50000_S50000x1_0 batch) h

end Cert.Proof.Val

end
-- ==== Proof.Val.GlueEdge.lean ====
import proofs.«402287_j53498112639137_1_alg».proof.Proof.KI.Fold
import proofs.«402287_j53498112639137_1_alg».proof.Proof.Val.RefLayers
import Idealize.ShloMosaic.Lib.StableHlo.Run

noncomputable section

namespace Cert.Proof.Val

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

theorem W0_apply (c : Dev nD) (r : Ref sig .tc) : Hand.W0 m c (Proc.devRef .tc r) = m ((c.tc : Thread nD τ).loc r) := rfl

set_option maxHeartbeats 8000000 in
theorem edge_src (c : Dev nD) : Hand.W1 m c (Proc.devRef .tc main_v1) = refSrc (m ((c.tc : Thread nD τ).loc main_arg1)) := by
  show StableHlo.after hostOps0 (Hand.W0 m c) (Proc.devRef .tc main_v1) = _
  after_results_simp
  unfold refSrc
  rfl

set_option maxHeartbeats 8000000 in
theorem edge_dst (c : Dev nD) : Hand.W1 m c (Proc.devRef .tc main_v3) = refDst (m ((c.tc : Thread nD τ).loc main_arg1)) := by
  show StableHlo.after hostOps0 (Hand.W0 m c) (Proc.devRef .tc main_v3) = _
  after_results_simp
  unfold refDst
  rfl

set_option maxHeartbeats 16000000 in
theorem edge_dis (c : Dev nD) : Hand.W1 m c (Proc.devRef .tc main_v12) = refDis (m ((c.tc : Thread nD τ).loc main_arg1)) := by
  show StableHlo.after hostOps0 (Hand.W0 m c) (Proc.devRef .tc main_v12) = _
  after_results_simp
  unfold refDis refDst
  rfl

set_option maxHeartbeats 16000000 in
theorem edge_dis2 (c : Dev nD) : Hand.W1 m c (Proc.devRef .tc main_v14) =
    broadcastInDim Cert.ReferenceIdeal.S50000x1 ![0] Cert.ReferenceIdeal.Facts₀.bcast_S50000_S50000x1_0 (mulf (refDis (m ((c.tc : Thread nD τ).loc main_arg1))) (refDis (m ((c.tc : Thread nD τ).loc main_arg1)))) := by
  show StableHlo.after hostOps0 (Hand.W0 m c) (Proc.devRef .tc main_v14) = _
  after_results_simp
  unfold refDis refDst
  rfl

set_option maxHeartbeats 32000000 in
theorem edge_norm (c : Dev nD) : Hand.W1 m c (Proc.devRef .tc main_v30) =
    broadcastInDim Cert.ReferenceIdeal.S400000x1 ![0] Cert.ReferenceIdeal.Facts₀.bcast_S400000_S400000x1_0 (refNorm (m ((c.tc : Thread nD τ).loc main_arg1))) := by
  show StableHlo.after hostOps0 (Hand.W0 m c) (Proc.devRef .tc main_v30) = _
  after_results_simp
  unfold refNorm refDis refWrap refSrc refDst
  rfl

theorem W6_eq_W1 (c : Dev nD) (r : Ref sig .tc) (h1 : r ≠ main_v31) (h2 : r ∉ hostOps1_W) (h3 : r ∉ hostOps1_1_W)
    (h4 : r ∉ hostOps1_2_W) (h5 : r ≠ main_v64) : Hand.W6 m c r = Hand.W1 m c r :=
  (Hand.W6_of m c r h5).trans <| (Hand.W5_of m c r h4).trans <| (Hand.W4_of m c r h3).trans <|
  (Hand.W3_of m c r h2).trans <| Hand.W2_of m c r h1

theorem W10_eq_W6 (c : Dev nD) (r : Ref sig .tc) (h6 : r ∉ hostOps2_W) (h7 : r ∉ hostOps2_1_W)
    (h8 : r ∉ hostOps2_2_W) (h9 : r ≠ main_v97) : Hand.W10 m c r = Hand.W6 m c r :=
  (Hand.W10_of m c r h9).trans <| (Hand.W9_of m c r h8).trans <| (Hand.W8_of m c r h7).trans <| Hand.W7_of m c r h6

theorem W2_launch (c : Dev nD) (r : Ref sig .tc) (h0 : r ∉ hostOps0_W) (h1 : r ≠ main_v31) :
    Hand.W2 m c (Proc.devRef .tc r) = m ((c.tc : Thread nD τ).loc r) :=
  (Hand.W2_of m c r h1).trans (Hand.W1_of m c r h0)

theorem W6_launch (c : Dev nD) (r : Ref sig .tc) (h0 : r ∉ hostOps0_W) (h1 : r ≠ main_v31) (h2 : r ∉ hostOps1_W)
    (h3 : r ∉ hostOps1_1_W) (h4 : r ∉ hostOps1_2_W) (h5 : r ≠ main_v64) :
    Hand.W6 m c (Proc.devRef .tc r) = m ((c.tc : Thread nD τ).loc r) :=
  (W6_eq_W1 m c r h1 h2 h3 h4 h5).trans (Hand.W1_of m c r h0)

theorem W10_launch (c : Dev nD) (r : Ref sig .tc) (h0 : r ∉ hostOps0_W) (h1 : r ≠ main_v31) (h2 : r ∉ hostOps1_W)
    (h3 : r ∉ hostOps1_1_W) (h4 : r ∉ hostOps1_2_W) (h5 : r ≠ main_v64) (h6 : r ∉ hostOps2_W) (h7 : r ∉ hostOps2_1_W)
    (h8 : r ∉ hostOps2_2_W) (h9 : r ≠ main_v97) :
    Hand.W10 m c (Proc.devRef .tc r) = m ((c.tc : Thread nD τ).loc r) :=
  (W10_eq_W6 m c r h6 h7 h8 h9).trans (W6_launch m c r h0 h1 h2 h3 h4 h5)

theorem W2_v1 (c : Dev nD) : Hand.W2 m c (Proc.devRef .tc main_v1) =
    refSrc (m ((c.tc : Thread nD τ).loc main_arg1)) :=
  (Hand.W2_of m c main_v1 (by decide)).trans (edge_src m c)

theorem W2_v3 (c : Dev nD) : Hand.W2 m c (Proc.devRef .tc main_v3) =
    refDst (m ((c.tc : Thread nD τ).loc main_arg1)) :=
  (Hand.W2_of m c main_v3 (by decide)).trans (edge_dst m c)

theorem W2_v14 (c : Dev nD) : Hand.W2 m c (Proc.devRef .tc main_v14) =
    broadcastInDim Cert.ReferenceIdeal.S50000x1 ![0] Cert.ReferenceIdeal.Facts₀.bcast_S50000_S50000x1_0 (mulf (refDis (m ((c.tc : Thread nD τ).loc main_arg1))) (refDis (m ((c.tc : Thread nD τ).loc main_arg1)))) :=
  (Hand.W2_of m c main_v14 (by decide)).trans (edge_dis2 m c)

theorem W2_v30 (c : Dev nD) : Hand.W2 m c (Proc.devRef .tc main_v30) =
    broadcastInDim Cert.ReferenceIdeal.S400000x1 ![0] Cert.ReferenceIdeal.Facts₀.bcast_S400000_S400000x1_0 (refNorm (m ((c.tc : Thread nD τ).loc main_arg1))) :=
  (Hand.W2_of m c main_v30 (by decide)).trans (edge_norm m c)

theorem W6_v1 (c : Dev nD) : Hand.W6 m c (Proc.devRef .tc main_v1) =
    refSrc (m ((c.tc : Thread nD τ).loc main_arg1)) :=
  (W6_eq_W1 m c main_v1 (by decide) (by decide) (by decide) (by decide) (by decide)).trans (edge_src m c)

theorem W6_v3 (c : Dev nD) : Hand.W6 m c (Proc.devRef .tc main_v3) =
    refDst (m ((c.tc : Thread nD τ).loc main_arg1)) :=
  (W6_eq_W1 m c main_v3 (by decide) (by decide) (by decide) (by decide) (by decide)).trans (edge_dst m c)

theorem W6_v14 (c : Dev nD) : Hand.W6 m c (Proc.devRef .tc main_v14) =
    broadcastInDim Cert.ReferenceIdeal.S50000x1 ![0] Cert.ReferenceIdeal.Facts₀.bcast_S50000_S50000x1_0 (mulf (refDis (m ((c.tc : Thread nD τ).loc main_arg1))) (refDis (m ((c.tc : Thread nD τ).loc main_arg1)))) :=
  (W6_eq_W1 m c main_v14 (by decide) (by decide) (by decide) (by decide) (by decide)).trans (edge_dis2 m c)

theorem W6_v30 (c : Dev nD) : Hand.W6 m c (Proc.devRef .tc main_v30) =
    broadcastInDim Cert.ReferenceIdeal.S400000x1 ![0] Cert.ReferenceIdeal.Facts₀.bcast_S400000_S400000x1_0 (refNorm (m ((c.tc : Thread nD τ).loc main_arg1))) :=
  (W6_eq_W1 m c main_v30 (by decide) (by decide) (by decide) (by decide) (by decide)).trans (edge_norm m c)

theorem W10_v1 (c : Dev nD) : Hand.W10 m c (Proc.devRef .tc main_v1) =
    refSrc (m ((c.tc : Thread nD τ).loc main_arg1)) :=
  ((W10_eq_W6 m c main_v1 (by decide) (by decide) (by decide) (by decide)).trans (W6_eq_W1 m c main_v1 (by decide) (by decide) (by decide) (by decide) (by decide))).trans (edge_src m c)

theorem W10_v3 (c : Dev nD) : Hand.W10 m c (Proc.devRef .tc main_v3) =
    refDst (m ((c.tc : Thread nD τ).loc main_arg1)) :=
  ((W10_eq_W6 m c main_v3 (by decide) (by decide) (by decide) (by decide)).trans (W6_eq_W1 m c main_v3 (by decide) (by decide) (by decide) (by decide) (by decide))).trans (edge_dst m c)

theorem W10_v14 (c : Dev nD) : Hand.W10 m c (Proc.devRef .tc main_v14) =
    broadcastInDim Cert.ReferenceIdeal.S50000x1 ![0] Cert.ReferenceIdeal.Facts₀.bcast_S50000_S50000x1_0 (mulf (refDis (m ((c.tc : Thread nD τ).loc main_arg1))) (refDis (m ((c.tc : Thread nD τ).loc main_arg1)))) :=
  ((W10_eq_W6 m c main_v14 (by decide) (by decide) (by decide) (by decide)).trans (W6_eq_W1 m c main_v14 (by decide) (by decide) (by decide) (by decide) (by decide))).trans (edge_dis2 m c)

theorem W10_v30 (c : Dev nD) : Hand.W10 m c (Proc.devRef .tc main_v30) =
    broadcastInDim Cert.ReferenceIdeal.S400000x1 ![0] Cert.ReferenceIdeal.Facts₀.bcast_S400000_S400000x1_0 (refNorm (m ((c.tc : Thread nD τ).loc main_arg1))) :=
  ((W10_eq_W6 m c main_v30 (by decide) (by decide) (by decide) (by decide)).trans (W6_eq_W1 m c main_v30 (by decide) (by decide) (by decide) (by decide) (by decide))).trans (edge_norm m c)

end Cert.Proof.Val

end
-- ==== Proof.Val.GlueLayer1.lean ====
import proofs.«402287_j53498112639137_1_alg».proof.Proof.Val.GlueEdge

noncomputable section

namespace Cert.Proof.Val

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 8000000 in
theorem layer1_k (c : Dev nD) :
    Hand.V5 m c main_v63 = layer256 (m ((c.tc : Thread nD τ).loc main_arg1)) (Hand.V2 m c main_v31) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  show StableHlo.after hostOps1_2 (StableHlo.after hostOps1_1 (StableHlo.after hostOps1 (Hand.W2 m c)))
    (Proc.devRef .tc main_v63) = _
  after_results_simp
  simp only [TRef.ofBuf, TRef.toBuf, cast_eq]
  rw [W2_v1, W2_v3, W2_v14, W2_v30,
    W2_launch m c main_arg4 (by decide) (by decide), W2_launch m c main_arg5 (by decide) (by decide),
    W2_launch m c main_arg6 (by decide) (by decide), W2_launch m c main_arg7 (by decide) (by decide),
    W2_launch m c main_arg8 (by decide) (by decide)]
  unfold layer256
  rfl

end Cert.Proof.Val

end
-- ==== Proof.Val.GlueLayer2.lean ====
import proofs.«402287_j53498112639137_1_alg».proof.Proof.KI.Fold
import proofs.«402287_j53498112639137_1_alg».proof.Proof.Val.RefLayers
import proofs.«402287_j53498112639137_1_alg».proof.Proof.Val.GlueEdge
import Idealize.ShloMosaic.Lib.StableHlo.Run

noncomputable section

namespace Cert.Proof.Val

open Cert.KernelIdeal Cert.KernelIdeal.Gen
open Idealize.ShloMosaic Idealize.ShloMosaic.StableHlo Idealize.ShloMosaic.TcCoe Idealize.SL.Sem

variable {F : FTy → Type} [FloatOps F]

namespace Layer2

def agg (src dst : (⟨S400000, .i32⟩ : BufTy).Contents (Elt F)) (nrm : (⟨S400000x1, .f32⟩ : BufTy).Contents (Elt F))
    (d2 : (⟨S50000x1, .f32⟩ : BufTy).Contents (Elt F)) (h : (⟨S50000x128, .f32⟩ : BufTy).Contents (Elt F))
    (b : (⟨S128, .f32⟩ : BufTy).Contents (Elt F)) : (⟨S50000x128, .f32⟩ : BufTy).Contents (Elt F) :=
  addf (addf (Host.scatterAdd scatter_S50000x128_S400000x1_S400000x128_1_0_0_1
        (broadcastInDim S50000x128 ![] bcast_S_S50000x128 (constant S_ .f32 0x00000000#32))
        (broadcastInDim S400000x1 ![0] bcast_S400000_S400000x1_0 dst)
        (mulf (Host.gather gather_S50000x128_S400000x1_S400000x128_1_0_n_n_0_1_1128 h
            (broadcastInDim S400000x1 ![0] bcast_S400000_S400000x1_0
              (select (cmpi .slt src (broadcastInDim S400000 ![] bcast_S_S400000 (constantI S_ 32 0#32)))
                (addi src (broadcastInDim S400000 ![] bcast_S_S400000 (constantI S_ 32 50000#32))) src)))
          (broadcastInDim S400000x128 ![0, 1] bcast_S400000x1_S400000x128_0_1 nrm)))
      (mulf h (broadcastInDim S50000x128 ![0, 1] bcast_S50000x1_S50000x128_0_1 d2)))
    (broadcastInDim S50000x128 ![0, 1] bcast_S1x128_S50000x128_0_1 (broadcastInDim S1x128 ![1] bcast_S128_S1x128_1 b))

def relu (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

def bn (x : (⟨S50000x128, .f32⟩ : BufTy).Contents (Elt F)) (g be mu v : (⟨S128, .f32⟩ : BufTy).Contents (Elt F)) :
    (⟨S50000x128, .f32⟩ : BufTy).Contents (Elt F) :=
  addf (mulf (subf x (broadcastInDim S50000x128 ![0, 1] bcast_S1x128_S50000x128_0_1 (broadcastInDim S1x128 ![1] bcast_S128_S1x128_1 mu)))
      (broadcastInDim S50000x128 ![0, 1] bcast_S1x128_S50000x128_0_1 (broadcastInDim S1x128 ![1] bcast_S128_S1x128_1
        (Host.divf g (Host.sqrt (addf v (broadcastInDim S128 ![] bcast_S_S128 (constant S_ .f32 0x3727C5AC#32))))))))
    (broadcastInDim S50000x128 ![0, 1] bcast_S1x128_S50000x128_0_1 (broadcastInDim S1x128 ![1] bcast_S128_S1x128_1 be))

theorem layer_eq (ei : (⟨Cert.ReferenceIdeal.S2x400000, .i32⟩ : BufTy).Contents (Elt F))
    (h : (⟨S50000x128, .f32⟩ : BufTy).Contents (Elt F)) (b g be mu v : (⟨S128, .f32⟩ : BufTy).Contents (Elt F)) :
    bn (relu (agg (refSrc ei) (refDst ei)
        (broadcastInDim Cert.ReferenceIdeal.S400000x1 ![0] Cert.ReferenceIdeal.Facts₀.bcast_S400000_S400000x1_0 (refNorm ei))
        (broadcastInDim Cert.ReferenceIdeal.S50000x1 ![0] Cert.ReferenceIdeal.Facts₀.bcast_S50000_S50000x1_0 (mulf (refDis ei) (refDis ei))) h b)) g be mu v
      = layer128 ei h b g be mu v := rfl

variable (A : Valuation τ sig (Elt F))

set_option maxHeartbeats 2000000 in
theorem agg_of : StableHlo.after (hostOps2 (F := F)) A (Proc.devRef .tc main_v82) =
    agg (A (Proc.devRef .tc main_v1)) (A (Proc.devRef .tc main_v3)) (A (Proc.devRef .tc main_v30))
      (A (Proc.devRef .tc main_v14)) (A (Proc.devRef .tc main_v64)) (A (Proc.devRef .tc main_arg10)) := by
  after_results_simp
  rfl

set_option maxHeartbeats 400000 in
theorem relu_of : StableHlo.after (hostOps2_1 (F := F)) A (Proc.devRef .tc main_v83) =
    relu (A (Proc.devRef .tc main_v82)) := by
  after_results
  rfl

set_option maxHeartbeats 400000 in
theorem bn_of : StableHlo.after (hostOps2_2 (F := F)) A (Proc.devRef .tc main_v96) =
    bn (A (Proc.devRef .tc main_v83)) (A (Proc.devRef .tc main_arg11)) (A (Proc.devRef .tc main_arg12))
      (A (Proc.devRef .tc main_arg13)) (A (Proc.devRef .tc main_arg14)) := by
  after_results
  rfl

theorem W8_launch (m : (ℓ : Loc nD τ sig) → Buf (Elt F) ℓ) (c : Dev nD) (r : Ref sig .tc) (h0 : r ∉ hostOps0_W)
    (h1 : r ≠ main_v31) (h2 : r ∉ hostOps1_W) (h3 : r ∉ hostOps1_1_W) (h4 : r ∉ hostOps1_2_W) (h5 : r ≠ main_v64)
    (h6 : r ∉ hostOps2_W) (h7 : r ∉ hostOps2_1_W) :
    Hand.W8 m c (Proc.devRef .tc r) = m ((c.tc : Thread nD τ).loc r) :=
  (Hand.W8_of m c r h7).trans <| (Hand.W7_of m c r h6).trans (W6_launch m c r h0 h1 h2 h3 h4 h5)

end Layer2

theorem layer2_k (m : (ℓ : Loc nD τ sig) → Buf (Elt F) ℓ) (c : Dev nD) :
    Hand.V9 m c main_v96 = layer128 (m ((c.tc : Thread nD τ).loc main_arg1)) (Hand.V6 m c main_v64) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) := by
  have hB : Hand.V9 m c main_v96 = _ := Layer2.bn_of (Hand.W8 m c)
  have hR : Hand.W8 m c (Proc.devRef .tc main_v83) = _ := Layer2.relu_of (Hand.W7 m c)
  have hA : Hand.W7 m c (Proc.devRef .tc main_v82) = _ := Layer2.agg_of (Hand.W6 m c)
  rw [hB, hR, hA,
    Layer2.W8_launch m c main_arg11 (by decide) (by decide) (by decide) (by decide) (by decide) (by decide) (by decide) (by decide),
    Layer2.W8_launch m c main_arg12 (by decide) (by decide) (by decide) (by decide) (by decide) (by decide) (by decide) (by decide),
    Layer2.W8_launch m c main_arg13 (by decide) (by decide) (by decide) (by decide) (by decide) (by decide) (by decide) (by decide),
    Layer2.W8_launch m c main_arg14 (by decide) (by decide) (by decide) (by decide) (by decide) (by decide) (by decide) (by decide),
    W6_launch m c main_arg10 (by decide) (by decide) (by decide) (by decide) (by decide) (by decide),
    W6_v1, W6_v3, W6_v14, W6_v30]
  exact Layer2.layer_eq _ _ _ _ _ _ _

end Cert.Proof.Val

end
-- ==== Proof.Val.GlueLayer3.lean ====
import proofs.«402287_j53498112639137_1_alg».proof.Proof.KI.Fold
import proofs.«402287_j53498112639137_1_alg».proof.Proof.Val.RefLayers
import Idealize.ShloMosaic.Lib.StableHlo.Run

noncomputable section

namespace Cert.Proof.Val

open Cert.KernelIdeal Cert.KernelIdeal.Gen
open Idealize.ShloMosaic Idealize.ShloMosaic.TcCoe Idealize.SL.Sem
open Cert.KernelIdeal.Hand

variable {F : FTy → Type} [FloatOps F]
variable (m : (ℓ : Loc nD τ sig) → Buf (Elt F) ℓ)

theorem back10 (c : Dev nD) (r : Ref sig .tc) (h1 : r ≠ main_v31) (h2 : r ∉ hostOps1_W) (h3 : r ∉ hostOps1_1_W)
    (h4 : r ∉ hostOps1_2_W) (h5 : r ≠ main_v64) (h6 : r ∉ hostOps2_W) (h7 : r ∉ hostOps2_1_W) (h8 : r ∉ hostOps2_2_W)
    (h9 : r ≠ main_v97) : W10 m c r = W1 m c r :=
  (W10_of m c r h9).trans <| (W9_of m c r h8).trans <| (W8_of m c r h7).trans <| (W7_of m c r h6).trans <|
  (W6_of m c r h5).trans <| (W5_of m c r h4).trans <| (W4_of m c r h3).trans <| (W3_of m c r h2).trans <| (W2_of m c r h1)

set_option maxHeartbeats 4000000 in
theorem l3_src (c : Dev nD) : W10 m c (Proc.devRef .tc main_v1) = refSrc (m ((c.tc : Thread nD τ).loc main_arg1)) := by
  refine (back10 m c main_v1 (by decide) (by decide) (by decide) (by decide) (by decide) (by decide) (by decide) (by decide) (by decide)).trans ?_
  show StableHlo.after hostOps0 (W0 m c) (Proc.devRef .tc main_v1) = _
  after_results_simp
  rfl

set_option maxHeartbeats 4000000 in
theorem l3_dst (c : Dev nD) : W10 m c (Proc.devRef .tc main_v3) = refDst (m ((c.tc : Thread nD τ).loc main_arg1)) := by
  refine (back10 m c main_v3 (by decide) (by decide) (by decide) (by decide) (by decide) (by decide) (by decide) (by decide) (by decide)).trans ?_
  show StableHlo.after hostOps0 (W0 m c) (Proc.devRef .tc main_v3) = _
  after_results_simp
  rfl

set_option maxHeartbeats 4000000 in
theorem l3_dis2 (c : Dev nD) : W10 m c (Proc.devRef .tc main_v14)
    = broadcastInDim Cert.ReferenceIdeal.S50000x1 ![0] Cert.ReferenceIdeal.Facts₀.bcast_S50000_S50000x1_0
        (mulf (refDis (m ((c.tc : Thread nD τ).loc main_arg1))) (refDis (m ((c.tc : Thread nD τ).loc main_arg1)))) := by
  refine (back10 m c main_v14 (by decide) (by decide) (by decide) (by decide) (by decide) (by decide) (by decide) (by decide) (by decide)).trans ?_
  show StableHlo.after hostOps0 (W0 m c) (Proc.devRef .tc main_v14) = _
  after_results_simp
  rfl

set_option maxHeartbeats 4000000 in
theorem l3_norm (c : Dev nD) : W10 m c (Proc.devRef .tc main_v30)
    = broadcastInDim Cert.ReferenceIdeal.S400000x1 ![0] Cert.ReferenceIdeal.Facts₀.bcast_S400000_S400000x1_0
        (refNorm (m ((c.tc : Thread nD τ).loc main_arg1))) := by
  refine (back10 m c main_v30 (by decide) (by decide) (by decide) (by decide) (by decide) (by decide) (by decide) (by decide) (by decide)).trans ?_
  show StableHlo.after hostOps0 (W0 m c) (Proc.devRef .tc main_v30) = _
  after_results_simp
  rfl

theorem l3_arg (c : Dev nD) (r : Ref sig .tc) (h0 : r ∉ hostOps0_W) (h1 : r ≠ main_v31) (h2 : r ∉ hostOps1_W) (h3 : r ∉ hostOps1_1_W)
    (h4 : r ∉ hostOps1_2_W) (h5 : r ≠ main_v64) (h6 : r ∉ hostOps2_W) (h7 : r ∉ hostOps2_1_W) (h8 : r ∉ hostOps2_2_W)
    (h9 : r ≠ main_v97) : W10 m c r = m ((c.tc : Thread nD τ).loc r) :=
  (back10 m c r h1 h2 h3 h4 h5 h6 h7 h8 h9).trans (W1_of m c r h0)

theorem l3_arg16 (c : Dev nD) : W10 m c (Proc.devRef .tc main_arg16) = m ((c.tc : Thread nD τ).loc main_arg16) :=
  l3_arg m c main_arg16 (by decide) (by decide) (by decide) (by decide) (by decide) (by decide) (by decide) (by decide) (by decide) (by decide)
theorem l3_arg17 (c : Dev nD) : W10 m c (Proc.devRef .tc main_arg17) = m ((c.tc : Thread nD τ).loc main_arg17) :=
  l3_arg m c main_arg17 (by decide) (by decide) (by decide) (by decide) (by decide) (by decide) (by decide) (by decide) (by decide) (by decide)
theorem l3_arg18 (c : Dev nD) : W10 m c (Proc.devRef .tc main_arg18) = m ((c.tc : Thread nD τ).loc main_arg18) :=
  l3_arg m c main_arg18 (by decide) (by decide) (by decide) (by decide) (by decide) (by decide) (by decide) (by decide) (by decide) (by decide)
theorem l3_arg19 (c : Dev nD) : W10 m c (Proc.devRef .tc main_arg19) = m ((c.tc : Thread nD τ).loc main_arg19) :=
  l3_arg m c main_arg19 (by decide) (by decide) (by decide) (by decide) (by decide) (by decide) (by decide) (by decide) (by decide) (by decide)
theorem l3_arg20 (c : Dev nD) : W10 m c (Proc.devRef .tc main_arg20) = m ((c.tc : Thread nD τ).loc main_arg20) :=
  l3_arg m c main_arg20 (by decide) (by decide) (by decide) (by decide) (by decide) (by decide) (by decide) (by decide) (by decide) (by decide)

set_option maxHeartbeats 4000000 in
theorem layer3_k (c : Dev nD) :
    V13 m c main_v129 = layer128 (m ((c.tc : Thread nD τ).loc main_arg1)) (V10 m c main_v97)
      (m ((c.tc : Thread nD τ).loc main_arg16)) (m ((c.tc : Thread nD τ).loc main_arg17)) (m ((c.tc : Thread nD τ).loc main_arg18))
      (m ((c.tc : Thread nD τ).loc main_arg19)) (m ((c.tc : Thread nD τ).loc main_arg20)) := by
  show StableHlo.after hostOps3_2 (StableHlo.after hostOps3_1 (StableHlo.after hostOps3 (W10 m c))) (Proc.devRef .tc main_v129) = _
  after_results
  rw [l3_src, l3_dst, l3_dis2, l3_norm, l3_arg16, l3_arg17, l3_arg18, l3_arg19, l3_arg20]
  unfold layer128
  rfl

end Cert.Proof.Val

end
-- ==== Proof.Val.PoolArr.lean ====
import proofs.«402287_j53498112639137_1_alg».proof.Proof.KI.PoolDef
import Idealize.ShloMosaic.Lib.Pipeline.Value

noncomputable section
namespace Cert.Proof.Val
open Cert.KernelIdeal Cert.KernelIdeal.Gen Cert.KernelIdeal.Hand
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem pool_block_at : ∀ t : Fin cfg3.N, win3_2.index t (0 : Fin 2) = 0 ∧ win3_2.index t (1 : Fin 2) = 0 :=
  (by decide +kernel : ∀ t : Fin grid3.N, _)

abbrev pool_last : Fin cfg3.N := ⟨49, by rw [show cfg3.N = 50 from N_3]; decide⟩

theorem pool_flushed_eq (c : Dev nD) (t : Fin cfg3.N) (hf : (cfg3.win 2).flush t = true) :
    (dat3 V c).flushed 2 t = ((cfg3.win 2).blk t).view.read (Elt F) (acc3 V c 49) := by
  have hN : cfg3.N = 50 := N_3
  have h49 : t.val = 49 := by have := (flush3_2 t).mp hf; have := t.isLt; omega
  obtain ⟨e0, e1⟩ := pool_block_at t
  show (cfg3.win 2).cut (grid3.coords t) ((dat3 V c).after 2 t) = _
  rw [after3_2, h49]
  have hz : (fun a => win3_2.index t a * main_v131.ty.shape.size a) = fun _ => 0 := funext fun a => by
    match a with
    | ⟨0, _⟩ => show win3_2.index t (0 : Fin 2) * 1024 = 0; rw [e0]
    | ⟨1, _⟩ => show win3_2.index t (1 : Fin 2) * 128 = 0; rw [e1]
  exact (Memref.read_access_unit_zero (Elt F) main_v131 hz (fun a => by rw [congrFun hz a]; simp) (acc3 V c 49)).symm

theorem pool_arr_acc (c : Dev nD) : (dat3 V c).arrAt 2 cfg3.N = acc3 V c 49 :=
  (dat3 V c).arrAt_eq_of_cover 2 (acc3 V c 49) (pool_flushed_eq V c) fun i =>
    ⟨pool_last, (flush3_2 pool_last).mpr rfl, by
      obtain ⟨e0, e1⟩ := pool_block_at pool_last
      have h0 : (i 0).val < 1024 := (i 0).isLt
      have h1 : (i 1).val < 128 := (i 1).isLt
      show i ∈ ((View.whole main_v131).slice (win3_2.rect pool_last)).set
      rw [View.set_slice_whole, Rect.mem_set_unit]
      intro a
      match a with
      | ⟨0, _⟩ => show win3_2.index pool_last (0 : Fin 2) * 1024 ≤ (i 0).val ∧ (i 0).val < win3_2.index pool_last (0 : Fin 2) * 1024 + 1024; omega
      | ⟨1, _⟩ => show win3_2.index pool_last (1 : Fin 2) * 128 ≤ (i 1).val ∧ (i 1).val < win3_2.index pool_last (1 : Fin 2) * 128 + 128; omega⟩

end Cert.Proof.Val

end
-- ==== Proof.Val.PoolTile.lean ====
import proofs.«402287_j53498112639137_1_alg».proof.Proof.Gen.KernelIdeal.Skeleton
import Idealize.ShloMosaic.Lib.Pipeline.Value
import Idealize.ShloMosaic.Lib.ValueIdx
import Idealize.ShloMosaic.PureOps.Ideal.Laws

noncomputable section
namespace Cert.Proof.Val
open Cert.KernelIdeal Cert.KernelIdeal.Gen Idealize.ShloMosaic Idealize.ShloMosaic.TcCoe Idealize.SL.Sem
open Idealize.ShloMosaic.ValueIdx
open scoped BigOperators

theorem onehot_word (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · have e : IntOp.cmpi .eq x y = 1#1 := by simp [IntOp.cmpi, h]
    rw [if_pos h, e, show ((1#1 : BitVec 1).setWidth 32).toInt = 1 from by decide]
    simp
  · have hb : (x == y) = false := beq_eq_false_iff_ne.mpr h
    have e : IntOp.cmpi .eq x y = 0#1 := by simp [IntOp.cmpi, hb]
    rw [if_neg h, e, show ((0#1 : BitVec 1).setWidth 32).toInt = 0 from by decide]
    simp

theorem pool_lhs_0 (i : S1024x128.Idx) (q : dot_S1000x1024_S1000x128_S1024x128_0_0_1_1_n_n.contr.Idx) :
    (dot_S1000x1024_S1000x128_S1024x128_0_0_1_1_n_n.lhsIdx i q 0).val = (q ⟨0, by decide⟩).val :=
  dot_S1000x1024_S1000x128_S1024x128_0_0_1_1_n_n.lhsIdx_val_of_single rfl i q
theorem pool_lhs_1 (i : S1024x128.Idx) (q : dot_S1000x1024_S1000x128_S1024x128_0_0_1_1_n_n.contr.Idx) :
    (dot_S1000x1024_S1000x128_S1024x128_0_0_1_1_n_n.lhsIdx i q 1).val = (i 0).val := by
  unfold DotDims.lhsIdx
  rw [dif_neg (show ¬(1 : Fin S1000x1024.rank) ∈ dot_S1000x1024_S1000x128_S1024x128_0_0_1_1_n_n.lhsBatch by decide), dif_pos (show (1 : Fin S1000x1024.rank) ∈ dot_S1000x1024_S1000x128_S1024x128_0_0_1_1_n_n.lhsNonContracting by decide)]
  rfl
theorem pool_rhs_0 (i : S1024x128.Idx) (q : dot_S1000x1024_S1000x128_S1024x128_0_0_1_1_n_n.contr.Idx) :
    (dot_S1000x1024_S1000x128_S1024x128_0_0_1_1_n_n.rhsIdx i q 0).val = (q ⟨0, by decide⟩).val :=
  dot_S1000x1024_S1000x128_S1024x128_0_0_1_1_n_n.rhsIdx_val_of_single rfl i q
theorem pool_rhs_1 (i : S1024x128.Idx) (q : dot_S1000x1024_S1000x128_S1024x128_0_0_1_1_n_n.contr.Idx) :
    (dot_S1000x1024_S1000x128_S1024x128_0_0_1_1_n_n.rhsIdx i q 1).val = (i 1).val := by
  unfold DotDims.rhsIdx
  rw [dif_neg (show ¬(1 : Fin S1000x128.rank) ∈ dot_S1000x1024_S1000x128_S1024x128_0_0_1_1_n_n.rhsBatch by decide), dif_pos (show (1 : Fin S1000x128.rank) ∈ dot_S1000x1024_S1000x128_S1024x128_0_0_1_1_n_n.rhsNonContracting by decide)]
  rfl

theorem pool_onehot_apply (b : Vec Ideal S1000x1 .i32) (r : Fin 1000) (g : Fin 1024) :
    (sitofp .f32 (extui 32 (cmpi .eq (broadcastTo S1000x1024 b broadcasts_S1000x1_S1000x1024)
        (iota .tc S1000x1024 32 [1] iota_S1000x1024_d1_w32)) natLt_1_32) : FVec Ideal S1000x1024 .f32) (ix2 r g)
      = if b (ix2 r (0 : Fin 1)) = BitVec.ofNat 32 g.val then 1 else 0 := by
  rw [sitofp_apply, extui_apply]
  show FloatOps.sitofp (F := Ideal) .f32 ((IntOp.cmpi .eq (broadcastTo S1000x1024 b broadcasts_S1000x1_S1000x1024 (ix2 r g))
        (iota .tc S1000x1024 32 [1] iota_S1000x1024_d1_w32 (ix2 r g))).setWidth 32) = _
  rw [iota_single_apply, onehot_word]
  rw [broadcastTo_apply b broadcasts_S1000x1_S1000x1024 (ix2 r g) (ix2 r (0 : Fin 1)) (fun a => by
    match a with
    | ⟨0, _⟩ => rfl
    | ⟨1, _⟩ => rfl)]

theorem pool_pay1_apply (i : S1024x128.Idx) : k3_pay1 (F := Ideal) i = 0 := by
  unfold k3_pay1
  simp only [shapeCast_self]
  show Ideal.ofBits .f32 0x00000000#32 = 0
  exact Ideal.ofBits_zero_f32

theorem pool_pay2_apply (b : Vec Ideal S1000x1 .i32) (h : Vec Ideal S1000x128 .f32) (a : Vec Ideal S1024x128 .f32)
    (g : Fin 1024) (ch : Fin 128) :
    k3_pay2 (F := Ideal) b h a (ix2 g ch)
      = a (ix2 g ch) + ∑ r : Fin 1000, (if b (ix2 r (0 : Fin 1)) = BitVec.ofNat 32 g.val then (1 : EReal) else 0) * h (ix2 r ch) := by
  unfold k3_pay2
  simp only [shapeCast_self]
  rw [addf_apply]
  congr 1
  simp only [matmul]
  rw [Ideal.matmul_constant_zero_apply, ← Equiv.sum_comp (contrEquiv1 dot_S1000x1024_S1000x128_S1024x128_0_0_1_1_n_n 1000 rfl rfl).symm]
  refine Finset.sum_congr rfl fun r _ => ?_
  have hk := contrEquiv1_symm_val dot_S1000x1024_S1000x128_S1024x128_0_0_1_1_n_n 1000 rfl rfl r
  have el : dot_S1000x1024_S1000x128_S1024x128_0_0_1_1_n_n.lhsIdx (ix2 g ch) ((contrEquiv1 dot_S1000x1024_S1000x128_S1024x128_0_0_1_1_n_n 1000 rfl rfl).symm r) = ix2 r g := funext fun x => Fin.ext (by
    match x with
    | ⟨0, _⟩ => exact (pool_lhs_0 _ _).trans hk
    | ⟨1, _⟩ => exact pool_lhs_1 _ _)
  have er : dot_S1000x1024_S1000x128_S1024x128_0_0_1_1_n_n.rhsIdx (ix2 g ch) ((contrEquiv1 dot_S1000x1024_S1000x128_S1024x128_0_0_1_1_n_n 1000 rfl rfl).symm r) = ix2 r ch := funext fun x => Fin.ext (by
    match x with
    | ⟨0, _⟩ => exact (pool_rhs_0 _ _).trans hk
    | ⟨1, _⟩ => exact pool_rhs_1 _ _)
  rw [el, er, truncf_apply, truncf_apply, pool_onehot_apply]

end Cert.Proof.Val
end
-- ==== Proof.Val.PoolScatter.lean ====
import proofs.«402287_j53498112639137_1_alg».proof.Proof.Gen.ReferenceIdeal
import Idealize.ShloMosaic.Lib.ValueIdx
import Idealize.ShloMosaic.PureOps.Ideal.Laws

noncomputable section
namespace Cert.Proof.Val
open Cert.ReferenceIdeal Cert.ReferenceIdeal.Gen Idealize.ShloMosaic Idealize.ShloMosaic.TcCoe Idealize.SL.Sem
open Idealize.ShloMosaic.ValueIdx
open scoped BigOperators

abbrev PD : ScatterDims S1024x128 S50000x1 S50000x128 := scatter_S1024x128_S50000x1_S50000x128_1_0_0_1

theorem pool_siIdx (j : S50000x128.Idx) (c : Fin PD.scatterDimsToOperandDims.length) :
    PD.siIdx j c = ix2 (j 0) (0 : Fin 1) := by
  funext b
  apply Fin.ext
  match b with
  | ⟨0, _⟩ => rfl
  | ⟨1, _⟩ =>
    have hc : c.val < 1 := c.isLt
    show c.val = 0
    omega

theorem pool_start0 {w : Nat} (j : S50000x128.Idx) (idx : IVec S50000x1 w) :
    PD.start j idx 0 = (idx (ix2 (j 0) (0 : Fin 1))).toInt := by
  unfold ScatterDims.start
  rw [dif_pos (show (0 : Fin S1024x128.rank) ∈ PD.scatterDimsToOperandDims by decide), pool_siIdx]
  rfl

theorem pool_start1 {w : Nat} (j : S50000x128.Idx) (idx : IVec S50000x1 w) :
    PD.start j idx 1 = 0 := by
  unfold ScatterDims.start
  rw [dif_neg (show ¬(1 : Fin S1024x128.rank) ∈ PD.scatterDimsToOperandDims by decide)]

theorem pool_window0 (j : S50000x128.Idx) : PD.window j 0 = 0 := by
  unfold ScatterDims.window
  rw [dif_neg (show ¬(0 : Fin S1024x128.rank) ∈ PD.sKept by decide)]

theorem pool_window1 (j : S50000x128.Idx) : PD.window j 1 = (j 1).val := by
  unfold ScatterDims.window
  rw [dif_pos (show (1 : Fin S1024x128.rank) ∈ PD.sKept by decide)]
  rfl

theorem pool_resultIdx_iff {w : Nat} (j : S50000x128.Idx) (idx : IVec S50000x1 w) (i : S1024x128.Idx) :
    PD.resultIdx? j idx = some i ↔ (idx (ix2 (j 0) (0 : Fin 1))).toInt = ((i 0).val : Int) ∧ (j 1).val = (i 1).val := by
  have hs0 := pool_start0 j idx
  have hs1 := pool_start1 j idx
  have hw0 := pool_window0 j
  have hw1 := pool_window1 j
  have hi0 : (i 0).val < 1024 := (i 0).isLt
  have hi1 : (i 1).val < 128 := (i 1).isLt
  have hj1 : (j 1).val < 128 := (j 1).isLt
  unfold ScatterDims.resultIdx?
  split
  · rename_i h
    rw [Option.some.injEq]
    constructor
    · intro e
      have e0 : (PD.start j idx 0 + PD.window j 0).toNat = (i 0).val := congrArg (fun f : S1024x128.Idx => (f 0).val) e
      have e1 : (PD.start j idx 1 + PD.window j 1).toNat = (i 1).val := congrArg (fun f : S1024x128.Idx => (f 1).val) e
      have h0 := (h 0).1
      rw [hs0, hw0] at e0 h0
      rw [hs1, hw1] at e1
      constructor <;> omega
    · rintro ⟨e0, e1⟩
      funext a
      apply Fin.ext
      match a with
      | ⟨0, _⟩ => show (PD.start j idx 0 + PD.window j 0).toNat = (i 0).val; rw [hs0, hw0]; omega
      | ⟨1, _⟩ => show (PD.start j idx 1 + PD.window j 1).toNat = (i 1).val; rw [hs1, hw1]; omega
  · rename_i h
    constructor
    · intro e; cases e
    · rintro ⟨e0, e1⟩
      refine absurd (fun a => ?_) h
      match a with
      | ⟨0, _⟩ => show 0 ≤ PD.start j idx 0 + PD.window j 0 ∧ PD.start j idx 0 + PD.window j 0 < (1024 : Nat); rw [hs0, hw0]; omega
      | ⟨1, _⟩ => show 0 ≤ PD.start j idx 1 + PD.window j 1 ∧ PD.start j idx 1 + PD.window j 1 < (128 : Nat); rw [hs1, hw1]; omega

theorem pool_resultIdx_ix2 {w : Nat} (n : Fin 50000) (b : Fin 128) (idx : IVec S50000x1 w) (g : Fin 1024) (ch : Fin 128) :
    PD.resultIdx? (ix2 n b) idx = some (ix2 g ch) ↔ (idx (ix2 n (0 : Fin 1))).toInt = (g.val : Int) ∧ b = ch :=
  (pool_resultIdx_iff (ix2 n b) idx (ix2 g ch)).trans (and_congr Iff.rfl Fin.val_inj)

theorem pool_scatter_apply (x : FVec Ideal S1024x128 .f32) (idx : IVec S50000x1 32) (upd : FVec Ideal S50000x128 .f32)
    (g : Fin 1024) (ch : Fin 128) :
    Host.scatterAdd (F := Ideal) PD x idx upd (ix2 g ch)
      = x (ix2 g ch) + ∑ n : Fin 50000, if (idx (ix2 n (0 : Fin 1))).toInt = (g.val : Int) then upd (ix2 n ch) else 0 := by
  show x (ix2 g ch) + ∑ j ∈ Finset.univ.filter (fun j => PD.resultIdx? j idx = some (ix2 g ch)), upd j = _
  refine congrArg (x (ix2 g ch) + ·) ?_
  rw [Finset.sum_filter, sum_idx2]
  refine Finset.sum_congr rfl fun n _ => ?_
  have key : ∀ b : Fin 128, (if PD.resultIdx? (ix2 n b) idx = some (ix2 g ch) then upd (ix2 n b) else 0)
      = if b = ch then (if (idx (ix2 n (0 : Fin 1))).toInt = (g.val : Int) then upd (ix2 n b) else 0) else 0 := fun b => by
    by_cases h1 : b = ch
    · by_cases h0 : (idx (ix2 n (0 : Fin 1))).toInt = (g.val : Int)
      · rw [if_pos ((pool_resultIdx_ix2 n b idx g ch).mpr ⟨h0, h1⟩), if_pos h1, if_pos h0]
      · rw [if_neg (fun hc => h0 ((pool_resultIdx_ix2 n b idx g ch).mp hc).1), if_pos h1, if_neg h0]
    · rw [if_neg (fun hc => h1 ((pool_resultIdx_ix2 n b idx g ch).mp hc).2), if_neg h1]
  rw [Finset.sum_congr rfl (fun b _ => key b), Finset.sum_ite_eq' Finset.univ ch, if_pos (Finset.mem_univ ch)]

end Cert.Proof.Val
end
-- ==== Proof.Val.SumTiles.lean ====
import Mathlib.Algebra.BigOperators.Fin
import Mathlib.Logic.Equiv.Fin.Basic

namespace Cert.Proof.Val

theorem sum_tiles {M : Type*} [AddCommMonoid M] (f : Fin 50000 → M) :
    ∑ n, f n = ∑ t : Fin 50, ∑ r : Fin 1000, f ⟨1000 * t.val + r.val, by have := t.isLt; have := r.isLt; omega⟩ := by
  calc ∑ n, f n = ∑ p : Fin 50 × Fin 1000, f (finProdFinEquiv p) :=
        (Equiv.sum_comp (finProdFinEquiv (m := 50) (n := 1000)) f).symm
    _ = ∑ t : Fin 50, ∑ r : Fin 1000, f (finProdFinEquiv (t, r)) := Fintype.sum_prod_type _
    _ = _ := Finset.sum_congr rfl fun t _ => Finset.sum_congr rfl fun r _ =>
        congrArg f (Fin.ext (by rw [finProdFinEquiv_apply_val]; show r.val + 1000 * t.val = 1000 * t.val + r.val; omega))

end Cert.Proof.Val
-- ==== Proof.Val.PoolMath.lean ====
import proofs.«402287_j53498112639137_1_alg».proof.Proof.KI.PoolDef
import proofs.«402287_j53498112639137_1_alg».proof.Proof.Val.PoolTile
import proofs.«402287_j53498112639137_1_alg».proof.Proof.Val.PoolScatter
import proofs.«402287_j53498112639137_1_alg».proof.Proof.Val.SumTiles
import Idealize.ShloMosaic.Lib.Pipeline.Value
import Idealize.ShloMosaic.Lib.ValueIdx
import Idealize.ShloMosaic.PureOps.Ideal.Laws

noncomputable section
namespace Cert.Proof.Val
open Cert.KernelIdeal Cert.KernelIdeal.Gen Cert.KernelIdeal.Hand Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

theorem pt_lt (t : Fin cfg3.N) : t.val < 50 := lt_of_lt_of_eq t.isLt N_3

theorem idx_facts3_0 : ∀ t : Fin cfg3.N, win3_0.index t 0 = t.val ∧ win3_0.index t 1 = 0 :=
  (by decide +kernel : ∀ t : Fin grid3.N, win3_0.index t 0 = t.val ∧ win3_0.index t 1 = 0)

theorem idx_facts3_1 : ∀ t : Fin cfg3.N, win3_1.index t 0 = t.val ∧ win3_1.index t 1 = 0 :=
  (by decide +kernel : ∀ t : Fin grid3.N, win3_1.index t 0 = t.val ∧ win3_1.index t 1 = 0)

theorem iblk3_0_apply (c : Dev nD) (t : Fin cfg3.N) (r : Fin 1000) :
    (iblk3 (F := Ideal) V c 0 t : Vec Ideal S1000x1 .i32) (ix2 r (0 : Fin 1))
      = (V c main_v130 : IVec S50000x1 32) (ix2 (⟨1000 * t.val + r.val, by have := pt_lt t; omega⟩ : Fin 50000) (0 : Fin 1)) := by
  have hi := idx_facts3_0 t
  unfold iblk3
  rw [View.read_apply]
  show V c main_v130 _ = V c main_v130 _
  refine congrArg (V c main_v130) (funext fun a => Fin.ext ?_)
  match a with
  | ⟨0, _⟩ => show win3_0.index t 0 * 1000 + 1 * r.val = 1000 * t.val + r.val; rw [hi.1]; omega
  | ⟨1, _⟩ => show win3_0.index t 1 * 1 + 1 * 0 = 0; rw [hi.2]

theorem iblk3_1_apply (c : Dev nD) (t : Fin cfg3.N) (r : Fin 1000) (ch : Fin 128) :
    (iblk3 (F := Ideal) V c 1 t : Vec Ideal S1000x128 .f32) (ix2 r ch)
      = (V c main_v129 : FVec Ideal S50000x128 .f32) (ix2 (⟨1000 * t.val + r.val, by have := pt_lt t; omega⟩ : Fin 50000) ch) := by
  have hi := idx_facts3_1 t
  unfold iblk3
  rw [View.read_apply]
  show V c main_v129 _ = V c main_v129 _
  refine congrArg (V c main_v129) (funext fun a => Fin.ext ?_)
  match a with
  | ⟨0, _⟩ => show win3_1.index t 0 * 1000 + 1 * r.val = 1000 * t.val + r.val; rw [hi.1]; omega
  | ⟨1, _⟩ => show win3_1.index t 1 * 128 + 1 * ch.val = ch.val; rw [hi.2]; omega

theorem word_eq_iff_toInt (x : BitVec 32) (g : Fin 1024) : x = BitVec.ofNat 32 g.val ↔ x.toInt = (g.val : Int) := by
  have hg := g.isLt
  have hx := x.isLt
  constructor
  · rintro rfl
    rw [BitVec.toInt_eq_toNat_cond, BitVec.toNat_ofNat]
    split <;> omega
  · intro h
    apply BitVec.eq_of_toNat_eq
    rw [BitVec.toNat_ofNat]
    rw [BitVec.toInt_eq_toNat_cond] at h
    split at h <;> omega

def tile (c : Dev nD) (g : Fin 1024) (ch : Fin 128) (n : ℕ) : EReal :=
  if h : n < cfg3.N then
    ∑ r : Fin 1000, (if (iblk3 (F := Ideal) V c 0 ⟨n, h⟩ : Vec Ideal S1000x1 .i32) (ix2 r (0 : Fin 1)) = BitVec.ofNat 32 g.val then (1 : EReal) else 0)
      * (iblk3 (F := Ideal) V c 1 ⟨n, h⟩ : Vec Ideal S1000x128 .f32) (ix2 r ch)
  else 0

theorem step3_apply (c : Dev nD) (n : ℕ) (a : Vec Ideal S1024x128 .f32) (g : Fin 1024) (ch : Fin 128) :
    step3 (F := Ideal) V c n a (ix2 g ch) = a (ix2 g ch) + tile V c g ch n := by
  unfold step3 tile
  by_cases h : n < cfg3.N
  · rw [dif_pos h, dif_pos h]
    exact pool_pay2_apply (iblk3 (F := Ideal) V c 0 ⟨n, h⟩) (iblk3 (F := Ideal) V c 1 ⟨n, h⟩) a g ch
  · rw [dif_neg h, dif_neg h, add_zero]

theorem acc3_apply (c : Dev nD) (g : Fin 1024) (ch : Fin 128) :
    ∀ n : ℕ, acc3 (F := Ideal) V c n (ix2 g ch) = ∑ t ∈ Finset.range (n + 1), tile V c g ch t
  | 0 => by rw [acc3_zero, step3_apply, pool_pay1_apply, Finset.sum_range_succ, Finset.sum_range_zero]
  | n + 1 => by rw [acc3_succ, step3_apply, acc3_apply c g ch n, Finset.sum_range_succ _ (n + 1)]

theorem tile_at (c : Dev nD) (g : Fin 1024) (ch : Fin 128) (t : Fin 50) :
    tile V c g ch t.val = ∑ r : Fin 1000,
      (if (V c main_v130 : IVec S50000x1 32) (ix2 (⟨1000 * t.val + r.val, by have := t.isLt; omega⟩ : Fin 50000) (0 : Fin 1)) = BitVec.ofNat 32 g.val then (1 : EReal) else 0)
        * (V c main_v129 : FVec Ideal S50000x128 .f32) (ix2 (⟨1000 * t.val + r.val, by have := t.isLt; omega⟩ : Fin 50000) ch) := by
  have ht : t.val < cfg3.N := lt_of_lt_of_eq t.isLt N_3.symm
  unfold tile
  rw [dif_pos ht]
  refine Finset.sum_congr rfl fun r _ => ?_
  rw [iblk3_0_apply V c ⟨t.val, ht⟩ r, iblk3_1_apply V c ⟨t.val, ht⟩ r ch]

theorem acc3_last_apply (c : Dev nD) (g : Fin 1024) (ch : Fin 128) :
    acc3 (F := Ideal) V c 49 (ix2 g ch) = ∑ n : Fin 50000,
      (if (V c main_v130 : IVec S50000x1 32) (ix2 n (0 : Fin 1)) = BitVec.ofNat 32 g.val then (1 : EReal) else 0)
        * (V c main_v129 : FVec Ideal S50000x128 .f32) (ix2 n ch) := by
  rw [acc3_apply V c g ch 49, sum_tiles]
  show ∑ t ∈ Finset.range 50, tile V c g ch t = _
  rw [Finset.sum_range]
  exact Finset.sum_congr rfl fun t _ => tile_at V c g ch t

theorem acc3_eq_scatter (c : Dev nD) :
    acc3 (F := Ideal) V c 49
      = Host.scatterAdd (F := Ideal) Cert.ReferenceIdeal.scatter_S1024x128_S50000x1_S50000x128_1_0_0_1
          (broadcastInDim Cert.ReferenceIdeal.S1024x128 ![] Cert.ReferenceIdeal.Facts₀.bcast_S_S1024x128
            (constant (F := Ideal) Cert.ReferenceIdeal.S_ .f32 0x00000000#32))
          (V c main_v130) (V c main_v129) := by
  funext i
  obtain ⟨g, ch, rfl⟩ : ∃ (g : Fin 1024) (ch : Fin 128), i = ix2 g ch := ⟨i 0, i 1, eq_ix2 i⟩
  rw [acc3_last_apply]
  refine Eq.trans ?_ (pool_scatter_apply _ (V c main_v130) (V c main_v129) g ch).symm
  have hz : broadcastInDim Cert.ReferenceIdeal.S1024x128 ![] Cert.ReferenceIdeal.Facts₀.bcast_S_S1024x128
      (constant (F := Ideal) Cert.ReferenceIdeal.S_ .f32 0x00000000#32) (ix2 g ch) = 0 := by
    show Ideal.ofBits .f32 0x00000000#32 = 0
    exact Ideal.ofBits_zero_f32
  rw [hz, zero_add]
  refine Finset.sum_congr rfl fun n _ => ?_
  by_cases h : (V c main_v130 : IVec S50000x1 32) (ix2 n (0 : Fin 1)) = BitVec.ofNat 32 g.val
  · rw [if_pos h, one_mul, if_pos ((word_eq_iff_toInt _ g).mp h)]
  · rw [if_neg h, zero_mul, if_neg (fun hc => h ((word_eq_iff_toInt _ g).mpr hc))]

end Cert.Proof.Val
end
-- ==== Proof.Val.PoolVal.lean ====
import proofs.«402287_j53498112639137_1_alg».proof.Proof.Val.PoolArr
import proofs.«402287_j53498112639137_1_alg».proof.Proof.Val.PoolMath

noncomputable section
namespace Cert.Proof.Val
open Cert.KernelIdeal Cert.KernelIdeal.Gen Cert.KernelIdeal.Hand Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem pool_arr (c : Dev nD) :
    (Cert.KernelIdeal.Hand.dat3 (F := Ideal) V c).arrAt 2 Cert.KernelIdeal.cfg3.N
      = Host.scatterAdd (F := Ideal) Cert.ReferenceIdeal.scatter_S1024x128_S50000x1_S50000x128_1_0_0_1
          (broadcastInDim Cert.ReferenceIdeal.S1024x128 ![] Cert.ReferenceIdeal.Facts₀.bcast_S_S1024x128
            (constant (F := Ideal) Cert.ReferenceIdeal.S_ .f32 0x00000000#32))
          (V c Cert.KernelIdeal.main_v130) (V c Cert.KernelIdeal.main_v129) :=
  (pool_arr_acc (F := Ideal) V c).trans (acc3_eq_scatter V c)

end Cert.Proof.Val
end
-- ==== Proof.Val.MlpArr.lean ====
import proofs.«402287_j53498112639137_1_alg».proof.Proof.KI.MlpDef
import Idealize.ShloMosaic.Lib.Pipeline.Value

noncomputable section

namespace Cert.Proof.Val

open Cert.KernelIdeal Cert.KernelIdeal.Gen Cert.KernelIdeal.Hand
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

def headK (x0 : Vec F S1024x128 .f32) (x1 : Vec F S128x64 .f32) (x2 x3 x4 x5 x6 : Vec F S1x64 .f32)
    (x7 : Vec F S64x64 .f32) (x8 : Vec F S1x64 .f32) (x9 : Vec F S64x1 .f32) (x10 : Vec F S1x1 .f32) :
    Vec F S1024x1 .f32 :=
  k4_pay1 (k4_pay2 x0 x1 x2 x5 x3 x6 x4 x7) (k4_pay3 x8) x9 x10

theorem origin2 : (![0, 0] : Fin 2 → Nat) = fun _ => 0 := funext fun a => by fin_cases a <;> rfl

theorem index4_zero : ∀ t : Fin cfg4.N,
    (win4_0.index t (0 : Fin 2) = 0 ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = 0 ∧ win4_9.index t (1 : Fin 2) = 0)
    ∧ (win4_10.index t (0 : Fin 2) = 0 ∧ win4_10.index t (1 : Fin 2) = 0)
    ∧ (win4_11.index t (0 : Fin 2) = 0 ∧ win4_11.index t (1 : Fin 2) = 0) :=
  (by decide +kernel : ∀ t : Fin grid4.N, _)

theorem blk4_0 (c : Dev nD) (t : Fin cfg4.N) : (iblk4 V c 0 t : S1024x128.Idx → Elt F .f32) = V c main_v131 := by
  obtain ⟨⟨a0, a1⟩, -, -, -, -, -, -, -, -, -, -, -⟩ := index4_zero t
  funext y
  show V c main_v131 (((cfg4.win 0).blk t).view.emb y) = V c main_v131 y
  refine congrArg (V c main_v131) (funext fun a => Fin.ext ?_)
  match a with
  | ⟨0, _⟩ => show win4_0.index t (0 : Fin 2) * 1024 + 1 * (y 0).val = (y 0).val; omega
  | ⟨1, _⟩ => show win4_0.index t (1 : Fin 2) * 128 + 1 * (y 1).val = (y 1).val; omega

theorem blk4_1 (c : Dev nD) (t : Fin cfg4.N) : (iblk4 V c 1 t : S128x64.Idx → Elt F .f32) = V c main_arg21 := by
  obtain ⟨-, ⟨a0, a1⟩, -, -, -, -, -, -, -, -, -, -⟩ := index4_zero t
  funext y
  show V c main_arg21 (((cfg4.win 1).blk t).view.emb y) = V c main_arg21 y
  refine congrArg (V c main_arg21) (funext fun a => Fin.ext ?_)
  match a with
  | ⟨0, _⟩ => show win4_1.index t (0 : Fin 2) * 128 + 1 * (y 0).val = (y 0).val; omega
  | ⟨1, _⟩ => show win4_1.index t (1 : Fin 2) * 64 + 1 * (y 1).val = (y 1).val; omega

theorem blk4_2 (c : Dev nD) (t : Fin cfg4.N) : (iblk4 V c 2 t : S1x64.Idx → Elt F .f32) = V c main_v132 := by
  obtain ⟨-, -, ⟨a0, a1⟩, -, -, -, -, -, -, -, -, -⟩ := index4_zero t
  funext y
  show V c main_v132 (((cfg4.win 2).blk t).view.emb y) = V c main_v132 y
  refine congrArg (V c main_v132) (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega

theorem blk4_3 (c : Dev nD) (t : Fin cfg4.N) : (iblk4 V c 3 t : S1x64.Idx → Elt F .f32) = V c main_v133 := by
  obtain ⟨-, -, -, ⟨a0, a1⟩, -, -, -, -, -, -, -, -⟩ := index4_zero t
  funext y
  show V c main_v133 (((cfg4.win 3).blk t).view.emb y) = V c main_v133 y
  refine congrArg (V c main_v133) (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega

theorem blk4_4 (c : Dev nD) (t : Fin cfg4.N) : (iblk4 V c 4 t : S1x64.Idx → Elt F .f32) = V c main_v134 := by
  obtain ⟨-, -, -, -, ⟨a0, a1⟩, -, -, -, -, -, -, -⟩ := index4_zero t
  funext y
  show V c main_v134 (((cfg4.win 4).blk t).view.emb y) = V c main_v134 y
  refine congrArg (V c main_v134) (funext fun a => Fin.ext ?_)
  match a with
  | ⟨0, _⟩ => show win4_4.index t (0 : Fin 2) * 1 + 1 * (y 0).val = (y 0).val; omega
  | ⟨1, _⟩ => show win4_4.index t (1 : Fin 2) * 64 + 1 * (y 1).val = (y 1).val; omega

theorem blk4_5 (c : Dev nD) (t : Fin cfg4.N) : (iblk4 V c 5 t : S1x64.Idx → Elt F .f32) = V c main_v135 := by
  obtain ⟨-, -, -, -, -, ⟨a0, a1⟩, -, -, -, -, -, -⟩ := index4_zero t
  funext y
  show V c main_v135 (((cfg4.win 5).blk t).view.emb y) = V c main_v135 y
  refine congrArg (V c main_v135) (funext fun a => Fin.ext ?_)
  match a with
  | ⟨0, _⟩ => show win4_5.index t (0 : Fin 2) * 1 + 1 * (y 0).val = (y 0).val; omega
  | ⟨1, _⟩ => show win4_5.index t (1 : Fin 2) * 64 + 1 * (y 1).val = (y 1).val; omega

theorem blk4_6 (c : Dev nD) (t : Fin cfg4.N) : (iblk4 V c 6 t : S1x64.Idx → Elt F .f32) = V c main_v136 := by
  obtain ⟨-, -, -, -, -, -, ⟨a0, a1⟩, -, -, -, -, -⟩ := index4_zero t
  funext y
  show V c main_v136 (((cfg4.win 6).blk t).view.emb y) = V c main_v136 y
  refine congrArg (V c main_v136) (funext fun a => Fin.ext ?_)
  match a with
  | ⟨0, _⟩ => show win4_6.index t (0 : Fin 2) * 1 + 1 * (y 0).val = (y 0).val; omega
  | ⟨1, _⟩ => show win4_6.index t (1 : Fin 2) * 64 + 1 * (y 1).val = (y 1).val; omega

theorem blk4_7 (c : Dev nD) (t : Fin cfg4.N) : (iblk4 V c 7 t : S64x64.Idx → Elt F .f32) = V c main_arg27 := by
  obtain ⟨-, -, -, -, -, -, -, ⟨a0, a1⟩, -, -, -, -⟩ := index4_zero t
  funext y
  show V c main_arg27 (((cfg4.win 7).blk t).view.emb y) = V c main_arg27 y
  refine congrArg (V c main_arg27) (funext fun a => Fin.ext ?_)
  match a with
  | ⟨0, _⟩ => show win4_7.index t (0 : Fin 2) * 64 + 1 * (y 0).val = (y 0).val; omega
  | ⟨1, _⟩ => show win4_7.index t (1 : Fin 2) * 64 + 1 * (y 1).val = (y 1).val; omega

theorem blk4_8 (c : Dev nD) (t : Fin cfg4.N) : (iblk4 V c 8 t : S1x64.Idx → Elt F .f32) = V c main_v137 := by
  obtain ⟨-, -, -, -, -, -, -, -, ⟨a0, a1⟩, -, -, -⟩ := index4_zero t
  funext y
  show V c main_v137 (((cfg4.win 8).blk t).view.emb y) = V c main_v137 y
  refine congrArg (V c main_v137) (funext fun a => Fin.ext ?_)
  match a with
  | ⟨0, _⟩ => show win4_8.index t (0 : Fin 2) * 1 + 1 * (y 0).val = (y 0).val; omega
  | ⟨1, _⟩ => show win4_8.index t (1 : Fin 2) * 64 + 1 * (y 1).val = (y 1).val; omega

theorem blk4_9 (c : Dev nD) (t : Fin cfg4.N) : (iblk4 V c 9 t : S64x1.Idx → Elt F .f32) = V c main_arg29 := by
  obtain ⟨-, -, -, -, -, -, -, -, -, ⟨a0, a1⟩, -, -⟩ := index4_zero t
  funext y
  show V c main_arg29 (((cfg4.win 9).blk t).view.emb y) = V c main_arg29 y
  refine congrArg (V c main_arg29) (funext fun a => Fin.ext ?_)
  match a with
  | ⟨0, _⟩ => show win4_9.index t (0 : Fin 2) * 64 + 1 * (y 0).val = (y 0).val; omega
  | ⟨1, _⟩ => show win4_9.index t (1 : Fin 2) * 1 + 1 * (y 1).val = (y 1).val; omega

theorem blk4_10 (c : Dev nD) (t : Fin cfg4.N) : (iblk4 V c 10 t : S1x1.Idx → Elt F .f32) = V c main_v138 := by
  obtain ⟨-, -, -, -, -, -, -, -, -, -, ⟨a0, a1⟩, -⟩ := index4_zero t
  funext y
  show V c main_v138 (((cfg4.win 10).blk t).view.emb y) = V c main_v138 y
  refine congrArg (V c main_v138) (funext fun a => Fin.ext ?_)
  match a with
  | ⟨0, _⟩ => show win4_10.index t (0 : Fin 2) * 1 + 1 * (y 0).val = (y 0).val; omega
  | ⟨1, _⟩ => show win4_10.index t (1 : Fin 2) * 1 + 1 * (y 1).val = (y 1).val; omega

theorem flushed4_11_eq (c : Dev nD) (t : Fin cfg4.N) :
    (dat4 V c).flushed 11 t = ((cfg4.win 11).blk t).view.read (Elt F)
      (headK (V c main_v131) (V c main_arg21) (V c main_v132) (V c main_v133) (V c main_v134) (V c main_v135)
        (V c main_v136) (V c main_arg27) (V c main_v137) (V c main_arg29) (V c main_v138)) := by
  show (cfg4.win 11).cut (grid4.coords t) ((dat4 V c).after 11 t) = _
  rw [after4_11]
  unfold out4_11
  rw [View.canon_unit_zero origin2]
  simp only [View.ld_unit_zero (S := S1024x128) origin2, View.ld_unit_zero (S := S128x64) origin2,
    View.ld_unit_zero (S := S1x64) origin2, View.ld_unit_zero (S := S64x64) origin2,
    View.ld_unit_zero (S := S64x1) origin2, View.ld_unit_zero (S := S1x1) origin2]
  rw [blk4_0 V c t, blk4_1 V c t, blk4_2 V c t, blk4_3 V c t, blk4_4 V c t, blk4_5 V c t, blk4_6 V c t,
    blk4_7 V c t, blk4_8 V c t, blk4_9 V c t, blk4_10 V c t]
  obtain ⟨-, -, -, -, -, -, -, -, -, -, -, ⟨a0, a1⟩⟩ := index4_zero t
  funext j
  show headK (V c main_v131) (V c main_arg21) (V c main_v132) (V c main_v133) (V c main_v134) (V c main_v135)
        (V c main_v136) (V c main_arg27) (V c main_v137) (V c main_arg29) (V c main_v138) j
    = headK (V c main_v131) (V c main_arg21) (V c main_v132) (V c main_v133) (V c main_v134) (V c main_v135)
        (V c main_v136) (V c main_arg27) (V c main_v137) (V c main_arg29) (V c main_v138) (((cfg4.win 11).blk t).view.emb j)
  refine congrArg (headK (V c main_v131) (V c main_arg21) (V c main_v132) (V c main_v133) (V c main_v134) (V c main_v135)
        (V c main_v136) (V c main_arg27) (V c main_v137) (V c main_arg29) (V c main_v138)) (funext fun a => Fin.ext ?_)
  match a with
  | ⟨0, _⟩ => show (j 0).val = win4_11.index t (0 : Fin 2) * 1024 + 1 * (j 0).val; omega
  | ⟨1, _⟩ => show (j 1).val = win4_11.index t (1 : Fin 2) * 1 + 1 * (j 1).val; omega

theorem mem_blk4_11 (t : Fin cfg4.N) (i : S1024x1.Idx) :
    i ∈ ((cfg4.win 11).blk t).view.set ↔ ∀ a : Fin 2, win4_11.index t a * S1024x1.size a ≤ (i a).val ∧ (i a).val < win4_11.index t a * S1024x1.size a + S1024x1.size a := by
  show i ∈ ((View.whole main_v139).slice (win4_11.rect t)).set ↔ _
  rw [View.set_slice_whole, Rect.mem_set_unit]
  exact Iff.rfl

theorem mlp_arr (c : Dev nD) :
    (dat4 V c).arrAt 11 cfg4.N
      = headK (V c main_v131) (V c main_arg21) (V c main_v132) (V c main_v133) (V c main_v134) (V c main_v135)
        (V c main_v136) (V c main_arg27) (V c main_v137) (V c main_arg29) (V c main_v138) := by
  refine (dat4 V c).arrAt_eq_of_cover 11 _ (fun t _ => flushed4_11_eq V c t) fun i => ?_
  refine ⟨t4_0, flush4_11 t4_0, ?_⟩
  obtain ⟨-, -, -, -, -, -, -, -, -, -, -, ⟨a0, a1⟩⟩ := index4_zero t4_0
  rw [mem_blk4_11]
  intro a
  match a with
  | ⟨0, _⟩ => show win4_11.index t4_0 (0 : Fin 2) * 1024 ≤ (i 0).val ∧ (i 0).val < win4_11.index t4_0 (0 : Fin 2) * 1024 + 1024; have := (i 0).isLt; have h : (i 0).val < 1024 := this; omega
  | ⟨1, _⟩ => show win4_11.index t4_0 (1 : Fin 2) * 1 ≤ (i 1).val ∧ (i 1).val < win4_11.index t4_0 (1 : Fin 2) * 1 + 1; have := (i 1).isLt; have h : (i 1).val < 1 := this; omega

end Cert.Proof.Val

end
-- ==== Proof.Val.RefHead.lean ====
import proofs.«402287_j53498112639137_1_alg».proof.Proof.Gen.ReferenceIdeal

noncomputable section

namespace Cert.Proof.Val

open Cert.ReferenceIdeal Cert.ReferenceIdeal.Gen Idealize.ShloMosaic

variable {F : FTy → Type} [FloatOps F]

def refHead (hg : (⟨S1024x128, .f32⟩ : BufTy).Contents (Elt F)) (Wf1 : (⟨S128x64, .f32⟩ : BufTy).Contents (Elt F))
    (bf1 g4 be4 m4 v4 : (⟨S64, .f32⟩ : BufTy).Contents (Elt F)) (Wf2 : (⟨S64x64, .f32⟩ : BufTy).Contents (Elt F))
    (bf2 : (⟨S64, .f32⟩ : BufTy).Contents (Elt F)) (Wf3 : (⟨S64x1, .f32⟩ : BufTy).Contents (Elt F))
    (bf3 : (⟨S1, .f32⟩ : BufTy).Contents (Elt F)) : (⟨S1024x1, .f32⟩ : BufTy).Contents (Elt F) :=
  maximumf (addf (Host.dotGeneral dot_S1024x64_S64x1_S1024x1_1_0_0_1_n_n none (maximumf (addf (Host.dotGeneral dot_S1024x64_S64x64_S1024x64_1_0_0_1_n_n none (addf (mulf (subf (maximumf (addf (Host.dotGeneral dot_S1024x128_S128x64_S1024x64_1_0_0_1_n_n none hg Wf1) (broadcastInDim S1024x64 ![0, 1] bcast_S1x64_S1024x64_0_1 (broadcastInDim S1x64 ![1] bcast_S64_S1x64_1 bf1))) (broadcastInDim S1024x64 ![] bcast_S_S1024x64 (constant S_ .f32 0x00000000#32))) (broadcastInDim S1024x64 ![0, 1] bcast_S1x64_S1024x64_0_1 (broadcastInDim S1x64 ![1] bcast_S64_S1x64_1 m4))) (broadcastInDim S1024x64 ![0, 1] bcast_S1x64_S1024x64_0_1 (broadcastInDim S1x64 ![1] bcast_S64_S1x64_1 (Host.divf g4 (Host.sqrt (addf v4 (broadcastInDim S64 ![] bcast_S_S64 (constant S_ .f32 0x3727C5AC#32)))))))) (broadcastInDim S1024x64 ![0, 1] bcast_S1x64_S1024x64_0_1 (broadcastInDim S1x64 ![1] bcast_S64_S1x64_1 be4))) Wf2) (broadcastInDim S1024x64 ![0, 1] bcast_S1x64_S1024x64_0_1 (broadcastInDim S1x64 ![1] bcast_S64_S1x64_1 bf2))) (broadcastInDim S1024x64 ![] bcast_S_S1024x64 (constant S_ .f32 0x00000000#32))) Wf3) (broadcastInDim S1024x1 ![0, 1] bcast_S1x1_S1024x1_0_1 (broadcastInDim S1x1 ![1] bcast_S1_S1x1_1 bf3))) (broadcastInDim S1024x1 ![] bcast_S_S1024x1 (constant S_ .f32 0x00000000#32))

end Cert.Proof.Val

end
-- ==== Proof.Val.HeadLaws.lean ====
import Idealize.ShloMosaic.PureOps.Ideal.Laws
import Idealize.ShloMosaic.Lib.Pipeline.Value
import Idealize.ShloMosaic.Lib.ValueLayout
import Idealize.ShloMosaic.Lib.ValueIdx
import Mathlib.Data.EReal.Inv

noncomputable section

namespace Cert.Proof.Val

open Idealize.ShloMosaic Idealize.ShloMosaic.ValueIdx

theorem mul_rsqrt_eq_div_sqrt (g y : EReal) (hy : 0 < y) : g * Ideal.rsqrt y = Ideal.div g (Ideal.sqrt y) := by
  induction y using EReal.rec with
  | bot => exact absurd hy (not_lt_bot)
  | top =>
    rw [Ideal.rsqrt_top, Ideal.sqrt_top]
    unfold Ideal.div
    rw [if_neg EReal.top_ne_zero, EReal.inv_top]
  | coe r =>
    have hr : 0 < r := by exact_mod_cast hy
    have hs : 0 < Real.sqrt r := Real.sqrt_pos.2 hr
    rw [Ideal.rsqrt_coe, Ideal.sqrt_coe, if_neg (not_lt.2 hr.le), if_neg hr.ne', if_neg (not_lt.2 hr.le)]
    unfold Ideal.div
    rw [if_neg (by exact_mod_cast hs.ne'), ← EReal.coe_inv]

theorem matmul_trunc_eq_dotGeneral {sl sr so : Shape} (d : DotDims sl sr so) (A : FVec Ideal sl .f32)
    (B : FVec Ideal sr .f32) (hA : FTy.bf16.bits < FTy.f32.bits) (hB : FTy.bf16.bits < FTy.f32.bits) :
    matmul d none (truncf .bf16 A hA) (truncf .bf16 B hB) (constant so .f32 0x00000000#32)
      = Host.dotGeneral d none A B := by
  funext j
  show FloatOps.matmul d none (truncf .bf16 A hA) (truncf .bf16 B hB) (constant so .f32 0x00000000#32) j
    = FloatOps.dotGeneral d none .single A B j
  rw [Ideal.matmul_constant_zero_apply, Ideal.dotGeneral_apply]
  rfl

theorem broadcastInDim_constant {F : FTy → Type} [FloatOps F] {s t : Shape} (dims : Fin s.rank → Fin t.rank)
    (h : s.BroadcastsInDim t dims) (φ : FTy) (b : BitVec φ.bits) :
    broadcastInDim t dims h (constant (F := F) s φ b) = constant t φ b := rfl

theorem broadcast_ofBits {F : FTy → Type} [FloatOps F] (t : Shape) (φ : FTy) (b : BitVec φ.bits) :
    broadcast t (FloatOps.ofBits (F := F) φ b) = constant t φ b := rfl

theorem row_spread_eq {α : Type} {a b : ℕ} (v : (⟨1, ![b]⟩ : Shape).Idx → α)
    (h1 : (⟨1, ![b]⟩ : Shape).ShapeCasts ⟨2, ![1, b]⟩) (h2 : (⟨2, ![1, b]⟩ : Shape).ShapeCasts ⟨2, ![1, b]⟩)
    (h3 : (⟨2, ![1, b]⟩ : Shape).Broadcasts ⟨2, ![a, b]⟩)
    (h4 : (⟨2, ![1, b]⟩ : Shape).BroadcastsInDim ⟨2, ![a, b]⟩ ![0, 1])
    (h5 : (⟨1, ![b]⟩ : Shape).BroadcastsInDim ⟨2, ![1, b]⟩ ![1]) :
    broadcastTo ⟨2, ![a, b]⟩ (shapeCast ⟨2, ![1, b]⟩ (shapeCast ⟨2, ![1, b]⟩ v h1) h2) h3
      = broadcastInDim ⟨2, ![a, b]⟩ ![0, 1] h4 (broadcastInDim ⟨2, ![1, b]⟩ ![1] h5 v) := by
  funext i
  obtain ⟨p, q, rfl⟩ : ∃ (p : Fin a) (q : Fin b), i = ix2 p q := ⟨i 0, i 1, eq_ix2 i⟩
  have hq : q.val < b := q.isLt
  rw [broadcastTo_1b_ab_apply, shapeCast_self, shapeCast_a_1a_apply]
  rw [broadcastInDim_apply ![0, 1] h4 _ (ix2 p q) (ix2 (0 : Fin 1) q) (fun ax => match ax with
    | ⟨0, _⟩ => by show (0 : ℕ) = if (1 : ℕ) = 1 then 0 else p.val; rw [if_pos rfl]
    | ⟨1, _⟩ => by
      show q.val = if b = 1 then 0 else q.val
      split
      · omega
      · rfl)]
  rw [broadcastInDim_apply ![1] h5 v (ix2 (0 : Fin 1) q) (ix1 q) (fun ax => match ax with
    | ⟨0, _⟩ => by
      show q.val = if b = 1 then 0 else q.val
      split
      · omega
      · rfl)]

theorem scale_row_eq {b : ℕ} (g v : (⟨1, ![b]⟩ : Shape).Idx → EReal) (eps : BitVec 32)
    (h1 : (⟨1, ![b]⟩ : Shape).ShapeCasts ⟨2, ![1, b]⟩) (h2 : (⟨2, ![1, b]⟩ : Shape).ShapeCasts ⟨2, ![1, b]⟩)
    (h6 : (⟨0, ![]⟩ : Shape).BroadcastsInDim ⟨1, ![b]⟩ ![])
    (hpos : ∀ j : (⟨1, ![b]⟩ : Shape).Idx, (0 : EReal) < v j + Ideal.ofBits .f32 eps) :
    mulf (F := Ideal) (φ := .f32) (shapeCast ⟨2, ![1, b]⟩ (shapeCast ⟨2, ![1, b]⟩ g h1) h2)
        (rsqrt (addf (shapeCast ⟨2, ![1, b]⟩ (shapeCast ⟨2, ![1, b]⟩ v h1) h2)
          (broadcast ⟨2, ![1, b]⟩ (FloatOps.ofBits (F := Ideal) .f32 eps))))
      = shapeCast ⟨2, ![1, b]⟩ (shapeCast ⟨2, ![1, b]⟩
          (Host.divf (F := Ideal) (φ := .f32) g (Host.sqrt (addf v
            (broadcastInDim ⟨1, ![b]⟩ ![] h6 (constant (F := Ideal) ⟨0, ![]⟩ .f32 eps))))) h1) h2 := by
  funext i
  obtain ⟨u, q, rfl⟩ : ∃ (u : Fin 1) (q : Fin b), i = ix2 u q := ⟨i 0, i 1, eq_ix2 i⟩
  show (shapeCast ⟨2, ![1, b]⟩ (shapeCast ⟨2, ![1, b]⟩ g h1) h2) (ix2 u q)
      * Ideal.rsqrt ((shapeCast ⟨2, ![1, b]⟩ (shapeCast ⟨2, ![1, b]⟩ v h1) h2) (ix2 u q) + Ideal.ofBits .f32 eps) = _
  simp only [shapeCast_self]
  rw [shapeCast_a_1a_apply, shapeCast_a_1a_apply, shapeCast_a_1a_apply]
  exact mul_rsqrt_eq_div_sqrt _ _ (hpos _)

end Cert.Proof.Val

end
-- ==== Proof.Val.MlpHead.lean ====
import proofs.«402287_j53498112639137_1_alg».proof.Proof.Val.MlpArr
import proofs.«402287_j53498112639137_1_alg».proof.Proof.Val.RefHead
import proofs.«402287_j53498112639137_1_alg».proof.Proof.Val.HeadLaws

noncomputable section

namespace Cert.Proof.Val

open Cert.KernelIdeal Cert.KernelIdeal.Gen
open Idealize.ShloMosaic Idealize.ShloMosaic.ValueIdx

theorem head_eq (hg : Vec Ideal S1024x128 .f32) (Wf1 : Vec Ideal S128x64 .f32) (bf1 g4 be4 m4 v4 : Vec Ideal S64 .f32)
    (Wf2 : Vec Ideal S64x64 .f32) (bf2 : Vec Ideal S64 .f32) (Wf3 : Vec Ideal S64x1 .f32) (bf3 : Vec Ideal S1 .f32)
    (hv4 : ∀ j : S64.Idx, (0 : EReal) < v4 j + Ideal.ofBits .f32 0x3727C5AC#32) :
    headK hg Wf1 (shapeCast S1x64 bf1 shapeCasts_S64_S1x64) (shapeCast S1x64 g4 shapeCasts_S64_S1x64)
        (shapeCast S1x64 be4 shapeCasts_S64_S1x64) (shapeCast S1x64 m4 shapeCasts_S64_S1x64)
        (shapeCast S1x64 v4 shapeCasts_S64_S1x64) Wf2 (shapeCast S1x64 bf2 shapeCasts_S64_S1x64) Wf3
        (shapeCast S1x1 bf3 shapeCasts_S1_S1x1)
      = refHead hg Wf1 bf1 g4 be4 m4 v4 Wf2 bf2 Wf3 bf3 := by
  unfold headK k4_pay1 k4_pay2 k4_pay3 refHead
  dsimp only
  rw [shapeCast_self hg]
  rw [matmul_trunc_eq_dotGeneral, matmul_trunc_eq_dotGeneral, matmul_trunc_eq_dotGeneral]
  rw [scale_row_eq g4 v4 0x3727C5AC#32 shapeCasts_S64_S1x64 shapeCasts_S1x64_S1x64 Cert.ReferenceIdeal.Gen.bcast_S_S64 hv4]
  rw [row_spread_eq _ _ _ _ Cert.ReferenceIdeal.Gen.bcast_S1x64_S1024x64_0_1 Cert.ReferenceIdeal.Gen.bcast_S64_S1x64_1]
  rw [row_spread_eq _ _ _ _ Cert.ReferenceIdeal.Gen.bcast_S1x64_S1024x64_0_1 Cert.ReferenceIdeal.Gen.bcast_S64_S1x64_1]
  rw [row_spread_eq _ _ _ _ Cert.ReferenceIdeal.Gen.bcast_S1x64_S1024x64_0_1 Cert.ReferenceIdeal.Gen.bcast_S64_S1x64_1]
  rw [row_spread_eq _ _ _ _ Cert.ReferenceIdeal.Gen.bcast_S1x64_S1024x64_0_1 Cert.ReferenceIdeal.Gen.bcast_S64_S1x64_1]
  rw [row_spread_eq _ _ _ _ Cert.ReferenceIdeal.Gen.bcast_S1x64_S1024x64_0_1 Cert.ReferenceIdeal.Gen.bcast_S64_S1x64_1]
  rw [row_spread_eq _ _ _ _ Cert.ReferenceIdeal.Gen.bcast_S1x1_S1024x1_0_1 Cert.ReferenceIdeal.Gen.bcast_S1_S1x1_1]
  rfl

end Cert.Proof.Val

end
-- ==== Proof.Val.DotSum.lean ====
import Idealize.ShloMosaic.Lib.ValueIdx
import Idealize.ShloMosaic.PureOps.Ideal.Laws

noncomputable section

namespace Cert.Proof.Val

open Idealize.ShloMosaic

abbrev S2 (a b : Nat) : Shape := ⟨2, ![a, b]⟩

abbrev at2 {a b : Nat} (r : Fin a) (k : Fin b) : (S2 a b).Idx := fun x => match x with
  | ⟨0, _⟩ => ⟨r.val, r.isLt⟩
  | ⟨1, _⟩ => ⟨k.val, k.isLt⟩

theorem zero_corner : (![0, 0] : Fin 2 → Nat) = fun _ => 0 := funext fun a => by fin_cases a <;> rfl

-- An M×K by K×N product contracts one axis: its sum over the contraction's indices is the sum over k < K of (r, k) against (k, c).
theorem dot_sum {M K N : Nat} {β : Type} [AddCommMonoid β] (D : DotDims (S2 M K) (S2 K N) (S2 M N))
    (hD : D = DotDims.plain M K N) (f : (S2 M K).Idx → (S2 K N).Idx → β) (i : (S2 M N).Idx) :
    ∑ q : D.contr.Idx, f (D.lhsIdx i q) (D.rhsIdx i q) = ∑ k : Fin K, f (at2 (i 0) k) (at2 k (i 1)) := by
  subst hD
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx i ((ValueIdx.contrEquiv1 (DotDims.plain M K N) K rfl rfl).symm k) = at2 (i 0) k :=
    funext fun a => Fin.ext (by
      match a with
      | ⟨0, _⟩ => rfl
      | ⟨1, _⟩ => exact ((DotDims.plain M K N).lhsIdx_val_of_single rfl i _).trans hk)
  have er : (DotDims.plain M K N).rhsIdx i ((ValueIdx.contrEquiv1 (DotDims.plain M K N) K rfl rfl).symm k) = at2 k (i 1) :=
    funext fun a => Fin.ext (by
      match a with
      | ⟨0, _⟩ => exact ((DotDims.plain M K N).rhsIdx_val_of_single rfl i _).trans hk
      | ⟨1, _⟩ => rfl)
  exact congr (congrArg f el) er

end Cert.Proof.Val

end
-- ==== Proof.Val.Mm0Val.lean ====
import proofs.«402287_j53498112639137_1_alg».proof.Proof.KI.Mm0Def
import proofs.«402287_j53498112639137_1_alg».proof.Proof.Gen.ReferenceIdeal
import proofs.«402287_j53498112639137_1_alg».proof.Proof.Val.DotSum
import Idealize.ShloMosaic.Lib.Pipeline.Value
import Idealize.ShloMosaic.Lib.ValueIdx
import Idealize.ShloMosaic.PureOps.Ideal.Laws

noncomputable section
namespace Cert.Proof.Val
open Cert.KernelIdeal Cert.KernelIdeal.Gen
open Idealize.ShloMosaic Idealize.ShloMosaic.TcCoe Idealize.SL.Sem
open Idealize.ShloMosaic.Pipeline (Dat)
open Cert.KernelIdeal.Hand

theorem pay0_apply (x0 : Vec Ideal S2000x373 .f32) (x1 : Vec Ideal S373x256 .f32) (j : S2000x256.Idx) :
    k0_pay1 (F := Ideal) x0 x1 j = ∑ k : Fin 373, x0 (at2 (j 0) k) * x1 (at2 k (j 1)) := by
  unfold k0_pay1
  simp only [matmul]
  rw [Ideal.matmul_constant_zero_apply]
  exact dot_sum dot_S2000x373_S373x256_S2000x256_1_0_0_1_n_n rfl (fun a b => x0 a * x1 b) j

theorem prod0_apply (a : FVec Ideal S50000x373 .f32) (w : FVec Ideal S373x256 .f32) (i : S50000x256.Idx) :
    Host.dotGeneral (F := Ideal) (φ₁ := .f32) (φ₂ := .f32) Cert.ReferenceIdeal.dot_S50000x373_S373x256_S50000x256_1_0_0_1_n_n none a w i = ∑ k : Fin 373, a (at2 (i 0) k) * w (at2 k (i 1)) := by
  simp only [Host.dotGeneral]
  rw [Ideal.dotGeneral_apply]
  exact dot_sum Cert.ReferenceIdeal.dot_S50000x373_S373x256_S50000x256_1_0_0_1_n_n rfl (fun a' b => a a' * w b) i

variable (V : (c : Dev nD) → (b : Ref sig .tc) → Buf (Elt Ideal) ((c : Thread nD τ).loc b))

abbrev prod0 (c : Dev nD) : S50000x256.Idx → Elt Ideal .f32 :=
  Host.dotGeneral (F := Ideal) (φ₁ := .f32) (φ₂ := .f32) Cert.ReferenceIdeal.dot_S50000x373_S373x256_S50000x256_1_0_0_1_n_n none (V c main_arg0) (V c main_arg3)

theorem blocks_at0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

theorem xblock0_apply (c : Dev nD) (t : Fin cfg0.N) (y : S2000x373.Idx) (i : S50000x373.Idx)
    (h0 : (i 0).val = 2000 * t.val + (y 0).val) (h1 : (i 1).val = (y 1).val) :
    (iblk0 V c 0 t : Vec Ideal S2000x373 .f32) y = (V c main_arg0 : S50000x373.Idx → Elt Ideal .f32) i := by
  obtain ⟨e0, e1, -, -, -, -⟩ := blocks_at0 t
  show V c main_arg0 (((cfg0.win 0).blk t).view.emb y) = V c main_arg0 i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 373 + 1 * (y 1).val = (i 1).val; omega

theorem wblock0_apply (c : Dev nD) (t : Fin cfg0.N) (y : S373x256.Idx) (i : S373x256.Idx)
    (h0 : (i 0).val = (y 0).val) (h1 : (i 1).val = (y 1).val) :
    (iblk0 V c 1 t : Vec Ideal S373x256 .f32) y = (V c main_arg3 : S373x256.Idx → Elt Ideal .f32) i := by
  obtain ⟨-, -, e2, e3, -, -⟩ := blocks_at0 t
  show V c main_arg3 (((cfg0.win 1).blk t).view.emb y) = V c main_arg3 i
  refine congrArg _ (funext fun a => Fin.ext ?_)
  match a with
  | ⟨0, _⟩ => show win0_1.index t (0 : Fin 2) * 373 + 1 * (y 0).val = (i 0).val; omega
  | ⟨1, _⟩ => show win0_1.index t (1 : Fin 2) * 256 + 1 * (y 1).val = (i 1).val; omega

theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 (F := Ideal) V c).after 2 t) = _
  rw [after0_2]
  unfold out0_2
  rw [View.canon_unit_zero zero_corner]
  simp only [View.ld_unit_zero (S := S2000x373) zero_corner, View.ld_unit_zero (S := S373x256) zero_corner]
  obtain ⟨-, -, -, -, e4, e5⟩ := blocks_at0 t
  funext j
  show k0_pay1 (F := Ideal) (iblk0 V c 0 t) (iblk0 V c 1 t) j = prod0 V c (((cfg0.win 2).blk t).view.emb j)
  refine (pay0_apply _ _ j).trans (Eq.trans ?_ (prod0_apply _ _ _).symm)
  refine Finset.sum_congr rfl fun k _ => ?_
  have hj0 : ((((cfg0.win 2).blk t).view.emb j) 0).val = 2000 * t.val + (j 0).val := by
    show win0_2.index t (0 : Fin 2) * 2000 + 1 * (j 0).val = _; omega
  have hj1 : ((((cfg0.win 2).blk t).view.emb j) 1).val = (j 1).val := by
    show win0_2.index t (1 : Fin 2) * 256 + 1 * (j 1).val = _; omega
  rw [xblock0_apply V c t (at2 (j 0) k) (at2 ((((cfg0.win 2).blk t).view.emb j) 0) k) hj0 rfl,
    wblock0_apply V c t (at2 k (j 1)) (at2 k ((((cfg0.win 2).blk t).view.emb j) 1)) rfl hj1]

theorem mem_block0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v31).slice (win0_2.rect t)).set ↔ _
  rw [View.set_slice_whole, Rect.mem_set_unit]
  exact Iff.rfl

theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e4, e5⟩ := blocks_at0 t
  have ht : t.val = (i 0).val / 2000 := rfl
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

theorem mm0_arr (c : Dev nD) :
    (dat0 (F := Ideal) V c).arrAt 2 cfg0.N
      = Host.dotGeneral (F := Ideal) (φ₁ := .f32) (φ₂ := .f32) Cert.ReferenceIdeal.dot_S50000x373_S373x256_S50000x256_1_0_0_1_n_n none (V c main_arg0) (V c main_arg3) :=
  (dat0 (F := Ideal) V c).arrAt_eq_of_cover 2 (prod0 V c) (fun t _ => flushed0_eq V c t) cover0

end Cert.Proof.Val

end
-- ==== Proof.Val.Mm1Val.lean ====
import proofs.«402287_j53498112639137_1_alg».proof.Proof.KI.Mm1Def
import proofs.«402287_j53498112639137_1_alg».proof.Proof.Gen.ReferenceIdeal
import proofs.«402287_j53498112639137_1_alg».proof.Proof.Val.DotSum
import Idealize.ShloMosaic.Lib.Pipeline.Value
import Idealize.ShloMosaic.Lib.ValueIdx
import Idealize.ShloMosaic.PureOps.Ideal.Laws

noncomputable section
namespace Cert.Proof.Val
open Cert.KernelIdeal Cert.KernelIdeal.Gen
open Idealize.ShloMosaic Idealize.ShloMosaic.TcCoe Idealize.SL.Sem
open Idealize.ShloMosaic.Pipeline (Dat)
open Cert.KernelIdeal.Hand

theorem pay1_apply (x0 : Vec Ideal S2000x256 .f32) (x1 : Vec Ideal S256x128 .f32) (j : S2000x128.Idx) :
    k1_pay1 (F := Ideal) x0 x1 j = ∑ k : Fin 256, x0 (at2 (j 0) k) * x1 (at2 k (j 1)) := by
  unfold k1_pay1
  simp only [matmul, shapeCast_self]
  rw [Ideal.matmul_constant_zero_apply]
  exact dot_sum dot_S2000x256_S256x128_S2000x128_1_0_0_1_n_n rfl (fun a b => x0 a * x1 b) j

theorem prod1_apply (a : FVec Ideal S50000x256 .f32) (w : FVec Ideal S256x128 .f32) (i : S50000x128.Idx) :
    Host.dotGeneral (F := Ideal) (φ₁ := .f32) (φ₂ := .f32) Cert.ReferenceIdeal.dot_S50000x256_S256x128_S50000x128_1_0_0_1_n_n none a w i = ∑ k : Fin 256, a (at2 (i 0) k) * w (at2 k (i 1)) := by
  simp only [Host.dotGeneral]
  rw [Ideal.dotGeneral_apply]
  exact dot_sum Cert.ReferenceIdeal.dot_S50000x256_S256x128_S50000x128_1_0_0_1_n_n rfl (fun a' b => a a' * w b) i

variable (V : (c : Dev nD) → (b : Ref sig .tc) → Buf (Elt Ideal) ((c : Thread nD τ).loc b))

abbrev prod1 (c : Dev nD) : S50000x128.Idx → Elt Ideal .f32 :=
  Host.dotGeneral (F := Ideal) (φ₁ := .f32) (φ₂ := .f32) Cert.ReferenceIdeal.dot_S50000x256_S256x128_S50000x128_1_0_0_1_n_n none (V c main_v63) (V c main_arg9)

theorem blocks_at1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

theorem xblock1_apply (c : Dev nD) (t : Fin cfg1.N) (y : S2000x256.Idx) (i : S50000x256.Idx)
    (h0 : (i 0).val = 2000 * t.val + (y 0).val) (h1 : (i 1).val = (y 1).val) :
    (iblk1 V c 0 t : Vec Ideal S2000x256 .f32) y = (V c main_v63 : S50000x256.Idx → Elt Ideal .f32) i := by
  obtain ⟨e0, e1, -, -, -, -⟩ := blocks_at1 t
  show V c main_v63 (((cfg1.win 0).blk t).view.emb y) = V c main_v63 i
  refine congrArg _ (funext fun a => Fin.ext ?_)
  match a with
  | ⟨0, _⟩ => show win1_0.index t (0 : Fin 2) * 2000 + 1 * (y 0).val = (i 0).val; omega
  | ⟨1, _⟩ => show win1_0.index t (1 : Fin 2) * 256 + 1 * (y 1).val = (i 1).val; omega

theorem wblock1_apply (c : Dev nD) (t : Fin cfg1.N) (y : S256x128.Idx) (i : S256x128.Idx)
    (h0 : (i 0).val = (y 0).val) (h1 : (i 1).val = (y 1).val) :
    (iblk1 V c 1 t : Vec Ideal S256x128 .f32) y = (V c main_arg9 : S256x128.Idx → Elt Ideal .f32) i := by
  obtain ⟨-, -, e2, e3, -, -⟩ := blocks_at1 t
  show V c main_arg9 (((cfg1.win 1).blk t).view.emb y) = V c main_arg9 i
  refine congrArg _ (funext fun a => Fin.ext ?_)
  match a with
  | ⟨0, _⟩ => show win1_1.index t (0 : Fin 2) * 256 + 1 * (y 0).val = (i 0).val; omega
  | ⟨1, _⟩ => show win1_1.index t (1 : Fin 2) * 128 + 1 * (y 1).val = (i 1).val; omega

theorem flushed1_eq (c : Dev nD) (t : Fin cfg1.N) :
    (dat1 (F := Ideal) V c).flushed 2 t = ((cfg1.win 2).blk t).view.read (Elt Ideal) (prod1 V c) := by
  show (cfg1.win 2).cut (grid1.coords t) ((dat1 (F := Ideal) V c).after 2 t) = _
  rw [after1_2]
  unfold out1_2
  rw [View.canon_unit_zero zero_corner]
  simp only [View.ld_unit_zero (S := S2000x256) zero_corner, View.ld_unit_zero (S := S256x128) zero_corner]
  obtain ⟨-, -, -, -, e4, e5⟩ := blocks_at1 t
  funext j
  show k1_pay1 (F := Ideal) (iblk1 V c 0 t) (iblk1 V c 1 t) j = prod1 V c (((cfg1.win 2).blk t).view.emb j)
  refine (pay1_apply _ _ j).trans (Eq.trans ?_ (prod1_apply _ _ _).symm)
  refine Finset.sum_congr rfl fun k _ => ?_
  have hj0 : ((((cfg1.win 2).blk t).view.emb j) 0).val = 2000 * t.val + (j 0).val := by
    show win1_2.index t (0 : Fin 2) * 2000 + 1 * (j 0).val = _; omega
  have hj1 : ((((cfg1.win 2).blk t).view.emb j) 1).val = (j 1).val := by
    show win1_2.index t (1 : Fin 2) * 128 + 1 * (j 1).val = _; omega
  rw [xblock1_apply V c t (at2 (j 0) k) (at2 ((((cfg1.win 2).blk t).view.emb j) 0) k) hj0 rfl,
    wblock1_apply V c t (at2 k (j 1)) (at2 k ((((cfg1.win 2).blk t).view.emb j) 1)) rfl hj1]

theorem mem_block1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v64).slice (win1_2.rect t)).set ↔ _
  rw [View.set_slice_whole, Rect.mem_set_unit]
  exact Iff.rfl

theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, e4, e5⟩ := blocks_at1 t
  have ht : t.val = (i 0).val / 2000 := rfl
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

theorem mm1_arr (c : Dev nD) :
    (dat1 (F := Ideal) V c).arrAt 2 cfg1.N
      = Host.dotGeneral (F := Ideal) (φ₁ := .f32) (φ₂ := .f32) Cert.ReferenceIdeal.dot_S50000x256_S256x128_S50000x128_1_0_0_1_n_n none (V c main_v63) (V c main_arg9) :=
  (dat1 (F := Ideal) V c).arrAt_eq_of_cover 2 (prod1 V c) (fun t _ => flushed1_eq V c t) cover1

end Cert.Proof.Val

end
-- ==== Proof.Val.Mm2Val.lean ====
import proofs.«402287_j53498112639137_1_alg».proof.Proof.KI.Mm2Def
import proofs.«402287_j53498112639137_1_alg».proof.Proof.Gen.ReferenceIdeal
import proofs.«402287_j53498112639137_1_alg».proof.Proof.Val.DotSum
import Idealize.ShloMosaic.Lib.Pipeline.Value
import Idealize.ShloMosaic.Lib.ValueIdx
import Idealize.ShloMosaic.PureOps.Ideal.Laws

noncomputable section
namespace Cert.Proof.Val
open Cert.KernelIdeal Cert.KernelIdeal.Gen
open Idealize.ShloMosaic Idealize.ShloMosaic.TcCoe Idealize.SL.Sem
open Idealize.ShloMosaic.Pipeline (Dat)
open Cert.KernelIdeal.Hand

theorem pay2_apply (x0 : Vec Ideal S2000x128 .f32) (x1 : Vec Ideal S128x128 .f32) (j : S2000x128.Idx) :
    k2_pay1 (F := Ideal) x0 x1 j = ∑ k : Fin 128, x0 (at2 (j 0) k) * x1 (at2 k (j 1)) := by
  unfold k2_pay1
  simp only [matmul, shapeCast_self]
  rw [Ideal.matmul_constant_zero_apply]
  exact dot_sum dot_S2000x128_S128x128_S2000x128_1_0_0_1_n_n rfl (fun a b => x0 a * x1 b) j

theorem prod2_apply (a : FVec Ideal S50000x128 .f32) (w : FVec Ideal S128x128 .f32) (i : S50000x128.Idx) :
    Host.dotGeneral (F := Ideal) (φ₁ := .f32) (φ₂ := .f32) Cert.ReferenceIdeal.dot_S50000x128_S128x128_S50000x128_1_0_0_1_n_n none a w i = ∑ k : Fin 128, a (at2 (i 0) k) * w (at2 k (i 1)) := by
  simp only [Host.dotGeneral]
  rw [Ideal.dotGeneral_apply]
  exact dot_sum Cert.ReferenceIdeal.dot_S50000x128_S128x128_S50000x128_1_0_0_1_n_n rfl (fun a' b => a a' * w b) i

variable (V : (c : Dev nD) → (b : Ref sig .tc) → Buf (Elt Ideal) ((c : Thread nD τ).loc b))

abbrev prod2 (c : Dev nD) : S50000x128.Idx → Elt Ideal .f32 :=
  Host.dotGeneral (F := Ideal) (φ₁ := .f32) (φ₂ := .f32) Cert.ReferenceIdeal.dot_S50000x128_S128x128_S50000x128_1_0_0_1_n_n none (V c main_v96) (V c main_arg15)

theorem blocks_at2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

theorem xblock2_apply (c : Dev nD) (t : Fin cfg2.N) (y : S2000x128.Idx) (i : S50000x128.Idx)
    (h0 : (i 0).val = 2000 * t.val + (y 0).val) (h1 : (i 1).val = (y 1).val) :
    (iblk2 V c 0 t : Vec Ideal S2000x128 .f32) y = (V c main_v96 : S50000x128.Idx → Elt Ideal .f32) i := by
  obtain ⟨e0, e1, -, -, -, -⟩ := blocks_at2 t
  show V c main_v96 (((cfg2.win 0).blk t).view.emb y) = V c main_v96 i
  refine congrArg _ (funext fun a => Fin.ext ?_)
  match a with
  | ⟨0, _⟩ => show win2_0.index t (0 : Fin 2) * 2000 + 1 * (y 0).val = (i 0).val; omega
  | ⟨1, _⟩ => show win2_0.index t (1 : Fin 2) * 128 + 1 * (y 1).val = (i 1).val; omega

theorem wblock2_apply (c : Dev nD) (t : Fin cfg2.N) (y : S128x128.Idx) (i : S128x128.Idx)
    (h0 : (i 0).val = (y 0).val) (h1 : (i 1).val = (y 1).val) :
    (iblk2 V c 1 t : Vec Ideal S128x128 .f32) y = (V c main_arg15 : S128x128.Idx → Elt Ideal .f32) i := by
  obtain ⟨-, -, e2, e3, -, -⟩ := blocks_at2 t
  show V c main_arg15 (((cfg2.win 1).blk t).view.emb y) = V c main_arg15 i
  refine congrArg _ (funext fun a => Fin.ext ?_)
  match a with
  | ⟨0, _⟩ => show win2_1.index t (0 : Fin 2) * 128 + 1 * (y 0).val = (i 0).val; omega
  | ⟨1, _⟩ => show win2_1.index t (1 : Fin 2) * 128 + 1 * (y 1).val = (i 1).val; omega

theorem flushed2_eq (c : Dev nD) (t : Fin cfg2.N) :
    (dat2 (F := Ideal) V c).flushed 2 t = ((cfg2.win 2).blk t).view.read (Elt Ideal) (prod2 V c) := by
  show (cfg2.win 2).cut (grid2.coords t) ((dat2 (F := Ideal) V c).after 2 t) = _
  rw [after2_2]
  unfold out2_2
  rw [View.canon_unit_zero zero_corner]
  simp only [View.ld_unit_zero (S := S2000x128) zero_corner, View.ld_unit_zero (S := S128x128) zero_corner]
  obtain ⟨-, -, -, -, e4, e5⟩ := blocks_at2 t
  funext j
  show k2_pay1 (F := Ideal) (iblk2 V c 0 t) (iblk2 V c 1 t) j = prod2 V c (((cfg2.win 2).blk t).view.emb j)
  refine (pay2_apply _ _ j).trans (Eq.trans ?_ (prod2_apply _ _ _).symm)
  refine Finset.sum_congr rfl fun k _ => ?_
  have hj0 : ((((cfg2.win 2).blk t).view.emb j) 0).val = 2000 * t.val + (j 0).val := by
    show win2_2.index t (0 : Fin 2) * 2000 + 1 * (j 0).val = _; omega
  have hj1 : ((((cfg2.win 2).blk t).view.emb j) 1).val = (j 1).val := by
    show win2_2.index t (1 : Fin 2) * 128 + 1 * (j 1).val = _; omega
  rw [xblock2_apply V c t (at2 (j 0) k) (at2 ((((cfg2.win 2).blk t).view.emb j) 0) k) hj0 rfl,
    wblock2_apply V c t (at2 k (j 1)) (at2 k ((((cfg2.win 2).blk t).view.emb j) 1)) rfl hj1]

theorem mem_block2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v97).slice (win2_2.rect t)).set ↔ _
  rw [View.set_slice_whole, Rect.mem_set_unit]
  exact Iff.rfl

theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, e4, e5⟩ := blocks_at2 t
  have ht : t.val = (i 0).val / 2000 := rfl
  refine ⟨t, flush2_2 t, ?_⟩
  rw [mem_block2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

theorem mm2_arr (c : Dev nD) :
    (dat2 (F := Ideal) V c).arrAt 2 cfg2.N
      = Host.dotGeneral (F := Ideal) (φ₁ := .f32) (φ₂ := .f32) Cert.ReferenceIdeal.dot_S50000x128_S128x128_S50000x128_1_0_0_1_n_n none (V c main_v96) (V c main_arg15) :=
  (dat2 (F := Ideal) V c).arrAt_eq_of_cover 2 (prod2 V c) (fun t _ => flushed2_eq V c t) cover2

end Cert.Proof.Val

end
-- ==== Proof.Val.ResultK.lean ====
import proofs.«402287_j53498112639137_1_alg».proof.Proof.Val.GlueTail
import proofs.«402287_j53498112639137_1_alg».proof.Proof.Val.GlueLayer1
import proofs.«402287_j53498112639137_1_alg».proof.Proof.Val.GlueLayer2
import proofs.«402287_j53498112639137_1_alg».proof.Proof.Val.GlueLayer3
import proofs.«402287_j53498112639137_1_alg».proof.Proof.Val.PoolVal
import proofs.«402287_j53498112639137_1_alg».proof.Proof.Val.MlpHead
import proofs.«402287_j53498112639137_1_alg».proof.Proof.Val.Mm0Val
import proofs.«402287_j53498112639137_1_alg».proof.Proof.Val.Mm1Val
import proofs.«402287_j53498112639137_1_alg».proof.Proof.Val.Mm2Val
import proofs.«402287_j53498112639137_1_alg».proof.Proof.Val.PreV4

noncomputable section

namespace Cert.Proof.Val

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

theorem result_k (hv4 : ∀ (c : Dev nD) (j : S64.Idx), (0 : EReal) < mainArg26 m c j + Ideal.ofBits .f32 0x3727C5AC#32) (c : Dev nD) :
    (Hand.W17 (F := Ideal) m c main_v140 : Vec Ideal S1024 .f32)
      = shapeCast Cert.ReferenceIdeal.S1024
        (refHead
          (poolR (m ((c.tc : Thread nD τ).loc main_arg2))
            (layer128 (m ((c.tc : Thread nD τ).loc main_arg1))
              (Host.dotGeneral (F := Ideal) (φ₁ := .f32) (φ₂ := .f32) Cert.ReferenceIdeal.dot_S50000x128_S128x128_S50000x128_1_0_0_1_n_n none
                (layer128 (m ((c.tc : Thread nD τ).loc main_arg1))
                  (Host.dotGeneral (F := Ideal) (φ₁ := .f32) (φ₂ := .f32) Cert.ReferenceIdeal.dot_S50000x256_S256x128_S50000x128_1_0_0_1_n_n none
                    (layer256 (m ((c.tc : Thread nD τ).loc main_arg1))
                      (Host.dotGeneral (F := Ideal) (φ₁ := .f32) (φ₂ := .f32) Cert.ReferenceIdeal.dot_S50000x373_S373x256_S50000x256_1_0_0_1_n_n none
                        (m ((c.tc : Thread nD τ).loc main_arg0)) (m ((c.tc : Thread nD τ).loc main_arg3)))
                      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
                    (m ((c.tc : Thread nD τ).loc main_arg9)))
                  (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))
                (m ((c.tc : Thread nD τ).loc main_arg15)))
              (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))))
          (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)))
        Cert.ReferenceIdeal.Gen.shapeCasts_S1024x1_S1024 := by
  rw [W17_v140 m c, V16_v139 m c, mlp_arr (Hand.V15 m) c]
  rw [V15_arg21 m c, V15_arg27 m c, V15_arg29 m c, V15_v132 m c, V15_v133 m c, V15_v134 m c, V15_v135 m c, V15_v136 m c,
    V15_v137 m c, V15_v138 m c]
  rw [head_eq _ _ _ _ _ _ _ _ _ _ _ (hv4 c)]
  rw [V15_v131 m c, pool_arr (Hand.V13 m) c, V13_v130 m c, layer3_k m c]
  rw [V10_v97 m c, mm2_arr (Hand.V9 m) c, V9_arg15 m c, layer2_k m c]
  rw [V6_v64 m c, mm1_arr (Hand.V5 m) c, V5_arg9 m c, layer1_k m c]
  rw [V2_v31 m c, mm0_arr (Hand.V1 m) c, V1_arg0 m c, V1_arg3 m c]
  rfl

end Cert.Proof.Val

end
-- ==== Proof.Ref.RefOps.lean ====
import proofs.«402287_j53498112639137_1_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_cst (constant S_ .f32 0x3F800000#32),
    unary main_cst main_v4 (broadcastInDim S400000 ![] bcast_S_S400000 : (⟨S_, .f32⟩ : BufTy).Contents (Elt F) → (⟨S400000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S400000x1 ![0] bcast_S400000_S400000x1_0 : (⟨S400000, .i32⟩ : BufTy).Contents (Elt F) → (⟨S400000x1, .i32⟩ : BufTy).Contents (Elt F)),
    ternary main_v5 main_v6 main_v4 main_v7 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.sqrt : (⟨S50000, .f32⟩ : BufTy).Contents (Elt F) → (⟨S50000, .f32⟩ : BufTy).Contents (Elt F)),
    nullary main_cst_2 (constant S_ .f32 0x3F800000#32),
    unary main_cst_2 main_v11 (broadcastInDim S50000 ![] bcast_S_S50000 : (⟨S_, .f32⟩ : BufTy).Contents (Elt F) → (⟨S50000, .f32⟩ : BufTy).Contents (Elt F)),
    binary main_v11 main_v10 main_v12 (Host.divf : (⟨S50000, .f32⟩ : BufTy).Contents (Elt F) → (⟨S50000, .f32⟩ : BufTy).Contents (Elt F) → (⟨S50000, .f32⟩ : BufTy).Contents (Elt F)),
    binary main_arg0 main_arg3 main_v13 ((fun l r => Host.dotGeneral dot_S50000x373_S373x256_S50000x256_1_0_0_1_n_n none l r) : (⟨S50000x373, .f32⟩ : BufTy).Contents (Elt F) → (⟨S373x256, .f32⟩ : BufTy).Contents (Elt F) → (⟨S50000x256, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., binary_bufs_sub ..⟩

abbrev ops1 : List (HloOp τ sig (Elt F)) :=
  [ nullary main_c (constantI S_ 32 0#32),
    unary main_c main_v14 (broadcastInDim S400000 ![] bcast_S_S400000 : (⟨S_, .i32⟩ : BufTy).Contents (Elt F) → (⟨S400000, .i32⟩ : BufTy).Contents (Elt F)),
    binary main_v1 main_v14 main_v15 (cmpi .slt : (⟨S400000, .i32⟩ : BufTy).Contents (Elt F) → (⟨S400000, .i32⟩ : BufTy).Contents (Elt F) → (⟨S400000, .i1⟩ : BufTy).Contents (Elt F)),
    nullary main_c_3 (constantI S_ 32 50000#32),
    unary main_c_3 main_v16 (broadcastInDim S400000 ![] bcast_S_S400000 : (⟨S_, .i32⟩ : BufTy).Contents (Elt F) → (⟨S400000, .i32⟩ : BufTy).Contents (Elt F)),
    binary main_v1 main_v16 main_v17 (addi : (⟨S400000, .i32⟩ : BufTy).Contents (Elt F) → (⟨S400000, .i32⟩ : BufTy).Contents (Elt F) → (⟨S400000, .i32⟩ : BufTy).Contents (Elt F)),
    ternary main_v15 main_v17 main_v1 main_v18 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v18 main_v19 (broadcastInDim S400000x1 ![0] bcast_S400000_S400000x1_0 : (⟨S400000, .i32⟩ : BufTy).Contents (Elt F) → (⟨S400000x1, .i32⟩ : BufTy).Contents (Elt F)),
    binary main_v12 main_v19 main_v20 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    nullary main_c_4 (constantI S_ 32 0#32),
    unary main_c_4 main_v21 (broadcastInDim S400000 ![] bcast_S_S400000 : (⟨S_, .i32⟩ : BufTy).Contents (Elt F) → (⟨S400000, .i32⟩ : BufTy).Contents (Elt F)),
    binary main_v3 main_v21 main_v22 (cmpi .slt : (⟨S400000, .i32⟩ : BufTy).Contents (Elt F) → (⟨S400000, .i32⟩ : BufTy).Contents (Elt F) → (⟨S400000, .i1⟩ : BufTy).Contents (Elt F)),
    nullary main_c_5 (constantI S_ 32 50000#32),
    unary main_c_5 main_v23 (broadcastInDim S400000 ![] bcast_S_S400000 : (⟨S_, .i32⟩ : BufTy).Contents (Elt F) → (⟨S400000, .i32⟩ : BufTy).Contents (Elt F)),
    binary main_v3 main_v23 main_v24 (addi : (⟨S400000, .i32⟩ : BufTy).Contents (Elt F) → (⟨S400000, .i32⟩ : BufTy).Contents (Elt F) → (⟨S400000, .i32⟩ : BufTy).Contents (Elt F)),
    ternary main_v22 main_v24 main_v3 main_v25 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v25 main_v26 (broadcastInDim S400000x1 ![0] bcast_S400000_S400000x1_0 : (⟨S400000, .i32⟩ : BufTy).Contents (Elt F) → (⟨S400000x1, .i32⟩ : BufTy).Contents (Elt F)),
    binary main_v12 main_v26 main_v27 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v20 main_v27 main_v28 (mulf : (⟨S400000, .f32⟩ : BufTy).Contents (Elt F) → (⟨S400000, .f32⟩ : BufTy).Contents (Elt F) → (⟨S400000, .f32⟩ : BufTy).Contents (Elt F)),
    nullary main_c_6 (constantI S_ 32 0#32),
    unary main_c_6 main_v29 (broadcastInDim S400000 ![] bcast_S_S400000 : (⟨S_, .i32⟩ : BufTy).Contents (Elt F) → (⟨S400000, .i32⟩ : BufTy).Contents (Elt F)),
    binary main_v1 main_v29 main_v30 (cmpi .slt : (⟨S400000, .i32⟩ : BufTy).Contents (Elt F) → (⟨S400000, .i32⟩ : BufTy).Contents (Elt F) → (⟨S400000, .i1⟩ : BufTy).Contents (Elt F)),
    nullary main_c_7 (constantI S_ 32 50000#32),
    unary main_c_7 main_v31 (broadcastInDim S400000 ![] bcast_S_S400000 : (⟨S_, .i32⟩ : BufTy).Contents (Elt F) → (⟨S400000, .i32⟩ : BufTy).Contents (Elt F)),
    binary main_v1 main_v31 main_v32 (addi : (⟨S400000, .i32⟩ : BufTy).Contents (Elt F) → (⟨S400000, .i32⟩ : BufTy).Contents (Elt F) → (⟨S400000, .i32⟩ : BufTy).Contents (Elt F)),
    ternary main_v30 main_v32 main_v1 main_v33 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v33 main_v34 (broadcastInDim S400000x1 ![0] bcast_S400000_S400000x1_0 : (⟨S400000, .i32⟩ : BufTy).Contents (Elt F) → (⟨S400000x1, .i32⟩ : BufTy).Contents (Elt F)),
    binary main_v13 main_v34 main_v35 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_v28 main_v36 (broadcastInDim S400000x1 ![0] bcast_S400000_S400000x1_0 : (⟨S400000, .f32⟩ : BufTy).Contents (Elt F) → (⟨S400000x1, .f32⟩ : BufTy).Contents (Elt F)),
    unary main_v36 main_v37 (broadcastInDim S400000x256 ![0, 1] bcast_S400000x1_S400000x256_0_1 : (⟨S400000x1, .f32⟩ : BufTy).Contents (Elt F) → (⟨S400000x256, .f32⟩ : BufTy).Contents (Elt F)),
    binary main_v35 main_v37 main_v38 (mulf : (⟨S400000x256, .f32⟩ : BufTy).Contents (Elt F) → (⟨S400000x256, .f32⟩ : BufTy).Contents (Elt F) → (⟨S400000x256, .f32⟩ : BufTy).Contents (Elt F)),
    nullary main_cst_8 (constant S_ .f32 0x00000000#32),
    unary main_cst_8 main_v39 (broadcastInDim S50000x256 ![] bcast_S_S50000x256 : (⟨S_, .f32⟩ : BufTy).Contents (Elt F) → (⟨S50000x256, .f32⟩ : BufTy).Contents (Elt F)),
    unary main_v3 main_v40 (broadcastInDim S400000x1 ![0] bcast_S400000_S400000x1_0 : (⟨S400000, .i32⟩ : BufTy).Contents (Elt F) → (⟨S400000x1, .i32⟩ : BufTy).Contents (Elt F)),
    ternary main_v39 main_v40 main_v38 main_v41 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    binary main_v12 main_v12 main_v42 (mulf : (⟨S50000, .f32⟩ : BufTy).Contents (Elt F) → (⟨S50000, .f32⟩ : BufTy).Contents (Elt F) → (⟨S50000, .f32⟩ : BufTy).Contents (Elt F)),
    unary main_v42 main_v43 (broadcastInDim S50000x1 ![0] bcast_S50000_S50000x1_0 : (⟨S50000, .f32⟩ : BufTy).Contents (Elt F) → (⟨S50000x1, .f32⟩ : BufTy).Contents (Elt F)),
    unary main_v43 main_v44 (broadcastInDim S50000x256 ![0, 1] bcast_S50000x1_S50000x256_0_1 : (⟨S50000x1, .f32⟩ : BufTy).Contents (Elt F) → (⟨S50000x256, .f32⟩ : BufTy).Contents (Elt F)),
    binary main_v13 main_v44 main_v45 (mulf : (⟨S50000x256, .f32⟩ : BufTy).Contents (Elt F) → (⟨S50000x256, .f32⟩ : BufTy).Contents (Elt F) → (⟨S50000x256, .f32⟩ : BufTy).Contents (Elt F)),
    binary main_v41 main_v45 main_v46 (addf : (⟨S50000x256, .f32⟩ : BufTy).Contents (Elt F) → (⟨S50000x256, .f32⟩ : BufTy).Contents (Elt F) → (⟨S50000x256, .f32⟩ : BufTy).Contents (Elt F)),
    unary main_arg4 main_v47 (broadcastInDim S1x256 ![1] bcast_S256_S1x256_1 : (⟨S256, .f32⟩ : BufTy).Contents (Elt F) → (⟨S1x256, .f32⟩ : BufTy).Contents (Elt F)),
    unary main_v47 main_v48 (broadcastInDim S50000x256 ![0, 1] bcast_S1x256_S50000x256_0_1 : (⟨S1x256, .f32⟩ : BufTy).Contents (Elt F) → (⟨S50000x256, .f32⟩ : BufTy).Contents (Elt F)),
    binary main_v46 main_v48 main_v49 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v49) (TRef.of (T := ⟨S50000x256, .f32⟩) main_call0_v0) (TRef.of (T := ⟨S50000x256, .f32⟩) main_v50) maximumf,
    unary main_arg7 main_v51 (broadcastInDim S1x256 ![1] bcast_S256_S1x256_1 : (⟨S256, .f32⟩ : BufTy).Contents (Elt F) → (⟨S1x256, .f32⟩ : BufTy).Contents (Elt F)),
    unary main_v51 main_v52 (broadcastInDim S50000x256 ![0, 1] bcast_S1x256_S50000x256_0_1 : (⟨S1x256, .f32⟩ : BufTy).Contents (Elt F) → (⟨S50000x256, .f32⟩ : BufTy).Contents (Elt F)),
    binary main_v50 main_v52 main_v53 (subf : (⟨S50000x256, .f32⟩ : BufTy).Contents (Elt F) → (⟨S50000x256, .f32⟩ : BufTy).Contents (Elt F) → (⟨S50000x256, .f32⟩ : BufTy).Contents (Elt F)),
    nullary main_cst_9 (constant S_ .f32 0x3727C5AC#32),
    unary main_cst_9 main_v54 (broadcastInDim S256 ![] bcast_S_S256 : (⟨S_, .f32⟩ : BufTy).Contents (Elt F) → (⟨S256, .f32⟩ : BufTy).Contents (Elt F)),
    binary main_arg8 main_v54 main_v55 (addf : (⟨S256, .f32⟩ : BufTy).Contents (Elt F) → (⟨S256, .f32⟩ : BufTy).Contents (Elt F) → (⟨S256, .f32⟩ : BufTy).Contents (Elt F)),
    unary main_v55 main_v56 (Host.sqrt : (⟨S256, .f32⟩ : BufTy).Contents (Elt F) → (⟨S256, .f32⟩ : BufTy).Contents (Elt F)),
    binary main_arg5 main_v56 main_v57 (Host.divf : (⟨S256, .f32⟩ : BufTy).Contents (Elt F) → (⟨S256, .f32⟩ : BufTy).Contents (Elt F) → (⟨S256, .f32⟩ : BufTy).Contents (Elt F)),
    unary main_v57 main_v58 (broadcastInDim S1x256 ![1] bcast_S256_S1x256_1 : (⟨S256, .f32⟩ : BufTy).Contents (Elt F) → (⟨S1x256, .f32⟩ : BufTy).Contents (Elt F)),
    unary main_v58 main_v59 (broadcastInDim S50000x256 ![0, 1] bcast_S1x256_S50000x256_0_1 : (⟨S1x256, .f32⟩ : BufTy).Contents (Elt F) → (⟨S50000x256, .f32⟩ : BufTy).Contents (Elt F)),
    binary main_v53 main_v59 main_v60 (mulf : (⟨S50000x256, .f32⟩ : BufTy).Contents (Elt F) → (⟨S50000x256, .f32⟩ : BufTy).Contents (Elt F) → (⟨S50000x256, .f32⟩ : BufTy).Contents (Elt F)),
    unary main_arg6 main_v61 (broadcastInDim S1x256 ![1] bcast_S256_S1x256_1 : (⟨S256, .f32⟩ : BufTy).Contents (Elt F) → (⟨S1x256, .f32⟩ : BufTy).Contents (Elt F)),
    unary main_v61 main_v62 (broadcastInDim S50000x256 ![0, 1] bcast_S1x256_S50000x256_0_1 : (⟨S1x256, .f32⟩ : BufTy).Contents (Elt F) → (⟨S50000x256, .f32⟩ : BufTy).Contents (Elt F)),
    binary main_v60 main_v62 main_v63 (addf : (⟨S50000x256, .f32⟩ : BufTy).Contents (Elt F) → (⟨S50000x256, .f32⟩ : BufTy).Contents (Elt F) → (⟨S50000x256, .f32⟩ : BufTy).Contents (Elt F)),
    binary main_v63 main_arg9 main_v64 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., binary_bufs_sub ..⟩

abbrev ops2 : List (HloOp τ sig (Elt F)) :=
  [ nullary main_c_10 (constantI S_ 32 0#32),
    unary main_c_10 main_v65 (broadcastInDim S400000 ![] bcast_S_S400000 : (⟨S_, .i32⟩ : BufTy).Contents (Elt F) → (⟨S400000, .i32⟩ : BufTy).Contents (Elt F)),
    binary main_v1 main_v65 main_v66 (cmpi .slt : (⟨S400000, .i32⟩ : BufTy).Contents (Elt F) → (⟨S400000, .i32⟩ : BufTy).Contents (Elt F) → (⟨S400000, .i1⟩ : BufTy).Contents (Elt F)),
    nullary main_c_11 (constantI S_ 32 50000#32),
    unary main_c_11 main_v67 (broadcastInDim S400000 ![] bcast_S_S400000 : (⟨S_, .i32⟩ : BufTy).Contents (Elt F) → (⟨S400000, .i32⟩ : BufTy).Contents (Elt F)),
    binary main_v1 main_v67 main_v68 (addi : (⟨S400000, .i32⟩ : BufTy).Contents (Elt F) → (⟨S400000, .i32⟩ : BufTy).Contents (Elt F) → (⟨S400000, .i32⟩ : BufTy).Contents (Elt F)),
    ternary main_v66 main_v68 main_v1 main_v69 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v69 main_v70 (broadcastInDim S400000x1 ![0] bcast_S400000_S400000x1_0 : (⟨S400000, .i32⟩ : BufTy).Contents (Elt F) → (⟨S400000x1, .i32⟩ : BufTy).Contents (Elt F)),
    binary main_v12 main_v70 main_v71 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    nullary main_c_12 (constantI S_ 32 0#32),
    unary main_c_12 main_v72 (broadcastInDim S400000 ![] bcast_S_S400000 : (⟨S_, .i32⟩ : BufTy).Contents (Elt F) → (⟨S400000, .i32⟩ : BufTy).Contents (Elt F)),
    binary main_v3 main_v72 main_v73 (cmpi .slt : (⟨S400000, .i32⟩ : BufTy).Contents (Elt F) → (⟨S400000, .i32⟩ : BufTy).Contents (Elt F) → (⟨S400000, .i1⟩ : BufTy).Contents (Elt F)),
    nullary main_c_13 (constantI S_ 32 50000#32),
    unary main_c_13 main_v74 (broadcastInDim S400000 ![] bcast_S_S400000 : (⟨S_, .i32⟩ : BufTy).Contents (Elt F) → (⟨S400000, .i32⟩ : BufTy).Contents (Elt F)),
    binary main_v3 main_v74 main_v75 (addi : (⟨S400000, .i32⟩ : BufTy).Contents (Elt F) → (⟨S400000, .i32⟩ : BufTy).Contents (Elt F) → (⟨S400000, .i32⟩ : BufTy).Contents (Elt F)),
    ternary main_v73 main_v75 main_v3 main_v76 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v76 main_v77 (broadcastInDim S400000x1 ![0] bcast_S400000_S400000x1_0 : (⟨S400000, .i32⟩ : BufTy).Contents (Elt F) → (⟨S400000x1, .i32⟩ : BufTy).Contents (Elt F)),
    binary main_v12 main_v77 main_v78 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v71 main_v78 main_v79 (mulf : (⟨S400000, .f32⟩ : BufTy).Contents (Elt F) → (⟨S400000, .f32⟩ : BufTy).Contents (Elt F) → (⟨S400000, .f32⟩ : BufTy).Contents (Elt F)),
    nullary main_c_14 (constantI S_ 32 0#32),
    unary main_c_14 main_v80 (broadcastInDim S400000 ![] bcast_S_S400000 : (⟨S_, .i32⟩ : BufTy).Contents (Elt F) → (⟨S400000, .i32⟩ : BufTy).Contents (Elt F)),
    binary main_v1 main_v80 main_v81 (cmpi .slt : (⟨S400000, .i32⟩ : BufTy).Contents (Elt F) → (⟨S400000, .i32⟩ : BufTy).Contents (Elt F) → (⟨S400000, .i1⟩ : BufTy).Contents (Elt F)),
    nullary main_c_15 (constantI S_ 32 50000#32),
    unary main_c_15 main_v82 (broadcastInDim S400000 ![] bcast_S_S400000 : (⟨S_, .i32⟩ : BufTy).Contents (Elt F) → (⟨S400000, .i32⟩ : BufTy).Contents (Elt F)),
    binary main_v1 main_v82 main_v83 (addi : (⟨S400000, .i32⟩ : BufTy).Contents (Elt F) → (⟨S400000, .i32⟩ : BufTy).Contents (Elt F) → (⟨S400000, .i32⟩ : BufTy).Contents (Elt F)),
    ternary main_v81 main_v83 main_v1 main_v84 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v84 main_v85 (broadcastInDim S400000x1 ![0] bcast_S400000_S400000x1_0 : (⟨S400000, .i32⟩ : BufTy).Contents (Elt F) → (⟨S400000x1, .i32⟩ : BufTy).Contents (Elt F)),
    binary main_v64 main_v85 main_v86 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    unary main_v79 main_v87 (broadcastInDim S400000x1 ![0] bcast_S400000_S400000x1_0 : (⟨S400000, .f32⟩ : BufTy).Contents (Elt F) → (⟨S400000x1, .f32⟩ : BufTy).Contents (Elt F)),
    unary main_v87 main_v88 (broadcastInDim S400000x128 ![0, 1] bcast_S400000x1_S400000x128_0_1 : (⟨S400000x1, .f32⟩ : BufTy).Contents (Elt F) → (⟨S400000x128, .f32⟩ : BufTy).Contents (Elt F)),
    binary main_v86 main_v88 main_v89 (mulf : (⟨S400000x128, .f32⟩ : BufTy).Contents (Elt F) → (⟨S400000x128, .f32⟩ : BufTy).Contents (Elt F) → (⟨S400000x128, .f32⟩ : BufTy).Contents (Elt F)),
    nullary main_cst_16 (constant S_ .f32 0x00000000#32),
    unary main_cst_16 main_v90 (broadcastInDim S50000x128 ![] bcast_S_S50000x128 : (⟨S_, .f32⟩ : BufTy).Contents (Elt F) → (⟨S50000x128, .f32⟩ : BufTy).Contents (Elt F)),
    unary main_v3 main_v91 (broadcastInDim S400000x1 ![0] bcast_S400000_S400000x1_0 : (⟨S400000, .i32⟩ : BufTy).Contents (Elt F) → (⟨S400000x1, .i32⟩ : BufTy).Contents (Elt F)),
    ternary main_v90 main_v91 main_v89 main_v92 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    binary main_v12 main_v12 main_v93 (mulf : (⟨S50000, .f32⟩ : BufTy).Contents (Elt F) → (⟨S50000, .f32⟩ : BufTy).Contents (Elt F) → (⟨S50000, .f32⟩ : BufTy).Contents (Elt F)),
    unary main_v93 main_v94 (broadcastInDim S50000x1 ![0] bcast_S50000_S50000x1_0 : (⟨S50000, .f32⟩ : BufTy).Contents (Elt F) → (⟨S50000x1, .f32⟩ : BufTy).Contents (Elt F)),
    unary main_v94 main_v95 (broadcastInDim S50000x128 ![0, 1] bcast_S50000x1_S50000x128_0_1 : (⟨S50000x1, .f32⟩ : BufTy).Contents (Elt F) → (⟨S50000x128, .f32⟩ : BufTy).Contents (Elt F)),
    binary main_v64 main_v95 main_v96 (mulf : (⟨S50000x128, .f32⟩ : BufTy).Contents (Elt F) → (⟨S50000x128, .f32⟩ : BufTy).Contents (Elt F) → (⟨S50000x128, .f32⟩ : BufTy).Contents (Elt F)),
    binary main_v92 main_v96 main_v97 (addf : (⟨S50000x128, .f32⟩ : BufTy).Contents (Elt F) → (⟨S50000x128, .f32⟩ : BufTy).Contents (Elt F) → (⟨S50000x128, .f32⟩ : BufTy).Contents (Elt F)),
    unary main_arg10 main_v98 (broadcastInDim S1x128 ![1] bcast_S128_S1x128_1 : (⟨S128, .f32⟩ : BufTy).Contents (Elt F) → (⟨S1x128, .f32⟩ : BufTy).Contents (Elt F)),
    unary main_v98 main_v99 (broadcastInDim S50000x128 ![0, 1] bcast_S1x128_S50000x128_0_1 : (⟨S1x128, .f32⟩ : BufTy).Contents (Elt F) → (⟨S50000x128, .f32⟩ : BufTy).Contents (Elt F)),
    binary main_v97 main_v99 main_v100 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v100) (TRef.of (T := ⟨S50000x128, .f32⟩) main_call1_v0) (TRef.of (T := ⟨S50000x128, .f32⟩) main_v101) maximumf,
    unary main_arg13 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v101 main_v103 main_v104 (subf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x3727C5AC#32),
    unary main_cst_17 main_v105 (broadcastInDim S128 ![] bcast_S_S128 : (⟨S_, .f32⟩ : BufTy).Contents (Elt F) → (⟨S128, .f32⟩ : BufTy).Contents (Elt F)),
    binary main_arg14 main_v105 main_v106 (addf : (⟨S128, .f32⟩ : BufTy).Contents (Elt F) → (⟨S128, .f32⟩ : BufTy).Contents (Elt F) → (⟨S128, .f32⟩ : BufTy).Contents (Elt F)),
    unary main_v106 main_v107 (Host.sqrt : (⟨S128, .f32⟩ : BufTy).Contents (Elt F) → (⟨S128, .f32⟩ : BufTy).Contents (Elt F)),
    binary main_arg11 main_v107 main_v108 (Host.divf : (⟨S128, .f32⟩ : BufTy).Contents (Elt F) → (⟨S128, .f32⟩ : BufTy).Contents (Elt F) → (⟨S128, .f32⟩ : BufTy).Contents (Elt F)),
    unary main_v108 main_v109 (broadcastInDim S1x128 ![1] bcast_S128_S1x128_1 : (⟨S128, .f32⟩ : BufTy).Contents (Elt F) → (⟨S1x128, .f32⟩ : BufTy).Contents (Elt F)),
    unary main_v109 main_v110 (broadcastInDim S50000x128 ![0, 1] bcast_S1x128_S50000x128_0_1 : (⟨S1x128, .f32⟩ : BufTy).Contents (Elt F) → (⟨S50000x128, .f32⟩ : BufTy).Contents (Elt F)),
    binary main_v104 main_v110 main_v111 (mulf : (⟨S50000x128, .f32⟩ : BufTy).Contents (Elt F) → (⟨S50000x128, .f32⟩ : BufTy).Contents (Elt F) → (⟨S50000x128, .f32⟩ : BufTy).Contents (Elt F)),
    unary main_arg12 main_v112 (broadcastInDim S1x128 ![1] bcast_S128_S1x128_1 : (⟨S128, .f32⟩ : BufTy).Contents (Elt F) → (⟨S1x128, .f32⟩ : BufTy).Contents (Elt F)),
    unary main_v112 main_v113 (broadcastInDim S50000x128 ![0, 1] bcast_S1x128_S50000x128_0_1 : (⟨S1x128, .f32⟩ : BufTy).Contents (Elt F) → (⟨S50000x128, .f32⟩ : BufTy).Contents (Elt F)),
    binary main_v111 main_v113 main_v114 (addf : (⟨S50000x128, .f32⟩ : BufTy).Contents (Elt F) → (⟨S50000x128, .f32⟩ : BufTy).Contents (Elt F) → (⟨S50000x128, .f32⟩ : BufTy).Contents (Elt F)),
    binary main_v114 main_arg15 main_v115 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., binary_bufs_sub ..⟩

abbrev ops3 : List (HloOp τ sig (Elt F)) :=
  [ nullary main_c_18 (constantI S_ 32 0#32),
    unary main_c_18 main_v116 (broadcastInDim S400000 ![] bcast_S_S400000 : (⟨S_, .i32⟩ : BufTy).Contents (Elt F) → (⟨S400000, .i32⟩ : BufTy).Contents (Elt F)),
    binary main_v1 main_v116 main_v117 (cmpi .slt : (⟨S400000, .i32⟩ : BufTy).Contents (Elt F) → (⟨S400000, .i32⟩ : BufTy).Contents (Elt F) → (⟨S400000, .i1⟩ : BufTy).Contents (Elt F)),
    nullary main_c_19 (constantI S_ 32 50000#32),
    unary main_c_19 main_v118 (broadcastInDim S400000 ![] bcast_S_S400000 : (⟨S_, .i32⟩ : BufTy).Contents (Elt F) → (⟨S400000, .i32⟩ : BufTy).Contents (Elt F)),
    binary main_v1 main_v118 main_v119 (addi : (⟨S400000, .i32⟩ : BufTy).Contents (Elt F) → (⟨S400000, .i32⟩ : BufTy).Contents (Elt F) → (⟨S400000, .i32⟩ : BufTy).Contents (Elt F)),
    ternary main_v117 main_v119 main_v1 main_v120 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v120 main_v121 (broadcastInDim S400000x1 ![0] bcast_S400000_S400000x1_0 : (⟨S400000, .i32⟩ : BufTy).Contents (Elt F) → (⟨S400000x1, .i32⟩ : BufTy).Contents (Elt F)),
    binary main_v12 main_v121 main_v122 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    nullary main_c_20 (constantI S_ 32 0#32),
    unary main_c_20 main_v123 (broadcastInDim S400000 ![] bcast_S_S400000 : (⟨S_, .i32⟩ : BufTy).Contents (Elt F) → (⟨S400000, .i32⟩ : BufTy).Contents (Elt F)),
    binary main_v3 main_v123 main_v124 (cmpi .slt : (⟨S400000, .i32⟩ : BufTy).Contents (Elt F) → (⟨S400000, .i32⟩ : BufTy).Contents (Elt F) → (⟨S400000, .i1⟩ : BufTy).Contents (Elt F)),
    nullary main_c_21 (constantI S_ 32 50000#32),
    unary main_c_21 main_v125 (broadcastInDim S400000 ![] bcast_S_S400000 : (⟨S_, .i32⟩ : BufTy).Contents (Elt F) → (⟨S400000, .i32⟩ : BufTy).Contents (Elt F)),
    binary main_v3 main_v125 main_v126 (addi : (⟨S400000, .i32⟩ : BufTy).Contents (Elt F) → (⟨S400000, .i32⟩ : BufTy).Contents (Elt F) → (⟨S400000, .i32⟩ : BufTy).Contents (Elt F)),
    ternary main_v124 main_v126 main_v3 main_v127 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v127 main_v128 (broadcastInDim S400000x1 ![0] bcast_S400000_S400000x1_0 : (⟨S400000, .i32⟩ : BufTy).Contents (Elt F) → (⟨S400000x1, .i32⟩ : BufTy).Contents (Elt F)),
    binary main_v12 main_v128 main_v129 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v122 main_v129 main_v130 (mulf : (⟨S400000, .f32⟩ : BufTy).Contents (Elt F) → (⟨S400000, .f32⟩ : BufTy).Contents (Elt F) → (⟨S400000, .f32⟩ : BufTy).Contents (Elt F)),
    nullary main_c_22 (constantI S_ 32 0#32),
    unary main_c_22 main_v131 (broadcastInDim S400000 ![] bcast_S_S400000 : (⟨S_, .i32⟩ : BufTy).Contents (Elt F) → (⟨S400000, .i32⟩ : BufTy).Contents (Elt F)),
    binary main_v1 main_v131 main_v132 (cmpi .slt : (⟨S400000, .i32⟩ : BufTy).Contents (Elt F) → (⟨S400000, .i32⟩ : BufTy).Contents (Elt F) → (⟨S400000, .i1⟩ : BufTy).Contents (Elt F)),
    nullary main_c_23 (constantI S_ 32 50000#32),
    unary main_c_23 main_v133 (broadcastInDim S400000 ![] bcast_S_S400000 : (⟨S_, .i32⟩ : BufTy).Contents (Elt F) → (⟨S400000, .i32⟩ : BufTy).Contents (Elt F)),
    binary main_v1 main_v133 main_v134 (addi : (⟨S400000, .i32⟩ : BufTy).Contents (Elt F) → (⟨S400000, .i32⟩ : BufTy).Contents (Elt F) → (⟨S400000, .i32⟩ : BufTy).Contents (Elt F)),
    ternary main_v132 main_v134 main_v1 main_v135 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v135 main_v136 (broadcastInDim S400000x1 ![0] bcast_S400000_S400000x1_0 : (⟨S400000, .i32⟩ : BufTy).Contents (Elt F) → (⟨S400000x1, .i32⟩ : BufTy).Contents (Elt F)),
    binary main_v115 main_v136 main_v137 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    unary main_v130 main_v138 (broadcastInDim S400000x1 ![0] bcast_S400000_S400000x1_0 : (⟨S400000, .f32⟩ : BufTy).Contents (Elt F) → (⟨S400000x1, .f32⟩ : BufTy).Contents (Elt F)),
    unary main_v138 main_v139 (broadcastInDim S400000x128 ![0, 1] bcast_S400000x1_S400000x128_0_1 : (⟨S400000x1, .f32⟩ : BufTy).Contents (Elt F) → (⟨S400000x128, .f32⟩ : BufTy).Contents (Elt F)),
    binary main_v137 main_v139 main_v140 (mulf : (⟨S400000x128, .f32⟩ : BufTy).Contents (Elt F) → (⟨S400000x128, .f32⟩ : BufTy).Contents (Elt F) → (⟨S400000x128, .f32⟩ : BufTy).Contents (Elt F)),
    nullary main_cst_24 (constant S_ .f32 0x00000000#32),
    unary main_cst_24 main_v141 (broadcastInDim S50000x128 ![] bcast_S_S50000x128 : (⟨S_, .f32⟩ : BufTy).Contents (Elt F) → (⟨S50000x128, .f32⟩ : BufTy).Contents (Elt F)),
    unary main_v3 main_v142 (broadcastInDim S400000x1 ![0] bcast_S400000_S400000x1_0 : (⟨S400000, .i32⟩ : BufTy).Contents (Elt F) → (⟨S400000x1, .i32⟩ : BufTy).Contents (Elt F)),
    ternary main_v141 main_v142 main_v140 main_v143 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    binary main_v12 main_v12 main_v144 (mulf : (⟨S50000, .f32⟩ : BufTy).Contents (Elt F) → (⟨S50000, .f32⟩ : BufTy).Contents (Elt F) → (⟨S50000, .f32⟩ : BufTy).Contents (Elt F)),
    unary main_v144 main_v145 (broadcastInDim S50000x1 ![0] bcast_S50000_S50000x1_0 : (⟨S50000, .f32⟩ : BufTy).Contents (Elt F) → (⟨S50000x1, .f32⟩ : BufTy).Contents (Elt F)),
    unary main_v145 main_v146 (broadcastInDim S50000x128 ![0, 1] bcast_S50000x1_S50000x128_0_1 : (⟨S50000x1, .f32⟩ : BufTy).Contents (Elt F) → (⟨S50000x128, .f32⟩ : BufTy).Contents (Elt F)),
    binary main_v115 main_v146 main_v147 (mulf : (⟨S50000x128, .f32⟩ : BufTy).Contents (Elt F) → (⟨S50000x128, .f32⟩ : BufTy).Contents (Elt F) → (⟨S50000x128, .f32⟩ : BufTy).Contents (Elt F)),
    binary main_v143 main_v147 main_v148 (addf : (⟨S50000x128, .f32⟩ : BufTy).Contents (Elt F) → (⟨S50000x128, .f32⟩ : BufTy).Contents (Elt F) → (⟨S50000x128, .f32⟩ : BufTy).Contents (Elt F)),
    unary main_arg16 main_v149 (broadcastInDim S1x128 ![1] bcast_S128_S1x128_1 : (⟨S128, .f32⟩ : BufTy).Contents (Elt F) → (⟨S1x128, .f32⟩ : BufTy).Contents (Elt F)),
    unary main_v149 main_v150 (broadcastInDim S50000x128 ![0, 1] bcast_S1x128_S50000x128_0_1 : (⟨S1x128, .f32⟩ : BufTy).Contents (Elt F) → (⟨S50000x128, .f32⟩ : BufTy).Contents (Elt F)),
    binary main_v148 main_v150 main_v151 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v151) (TRef.of (T := ⟨S50000x128, .f32⟩) main_call2_v0) (TRef.of (T := ⟨S50000x128, .f32⟩) main_v152) maximumf,
    unary main_arg19 main_v153 (broadcastInDim S1x128 ![1] bcast_S128_S1x128_1 : (⟨S128, .f32⟩ : BufTy).Contents (Elt F) → (⟨S1x128, .f32⟩ : BufTy).Contents (Elt F)),
    unary main_v153 main_v154 (broadcastInDim S50000x128 ![0, 1] bcast_S1x128_S50000x128_0_1 : (⟨S1x128, .f32⟩ : BufTy).Contents (Elt F) → (⟨S50000x128, .f32⟩ : BufTy).Contents (Elt F)),
    binary main_v152 main_v154 main_v155 (subf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x3727C5AC#32),
    unary main_cst_25 main_v156 (broadcastInDim S128 ![] bcast_S_S128 : (⟨S_, .f32⟩ : BufTy).Contents (Elt F) → (⟨S128, .f32⟩ : BufTy).Contents (Elt F)),
    binary main_arg20 main_v156 main_v157 (addf : (⟨S128, .f32⟩ : BufTy).Contents (Elt F) → (⟨S128, .f32⟩ : BufTy).Contents (Elt F) → (⟨S128, .f32⟩ : BufTy).Contents (Elt F)),
    unary main_v157 main_v158 (Host.sqrt : (⟨S128, .f32⟩ : BufTy).Contents (Elt F) → (⟨S128, .f32⟩ : BufTy).Contents (Elt F)),
    binary main_arg17 main_v158 main_v159 (Host.divf : (⟨S128, .f32⟩ : BufTy).Contents (Elt F) → (⟨S128, .f32⟩ : BufTy).Contents (Elt F) → (⟨S128, .f32⟩ : BufTy).Contents (Elt F)),
    unary main_v159 main_v160 (broadcastInDim S1x128 ![1] bcast_S128_S1x128_1 : (⟨S128, .f32⟩ : BufTy).Contents (Elt F) → (⟨S1x128, .f32⟩ : BufTy).Contents (Elt F)),
    unary main_v160 main_v161 (broadcastInDim S50000x128 ![0, 1] bcast_S1x128_S50000x128_0_1 : (⟨S1x128, .f32⟩ : BufTy).Contents (Elt F) → (⟨S50000x128, .f32⟩ : BufTy).Contents (Elt F)),
    binary main_v155 main_v161 main_v162 (mulf : (⟨S50000x128, .f32⟩ : BufTy).Contents (Elt F) → (⟨S50000x128, .f32⟩ : BufTy).Contents (Elt F) → (⟨S50000x128, .f32⟩ : BufTy).Contents (Elt F)),
    unary main_arg18 main_v163 (broadcastInDim S1x128 ![1] bcast_S128_S1x128_1 : (⟨S128, .f32⟩ : BufTy).Contents (Elt F) → (⟨S1x128, .f32⟩ : BufTy).Contents (Elt F)),
    unary main_v163 main_v164 (broadcastInDim S50000x128 ![0, 1] bcast_S1x128_S50000x128_0_1 : (⟨S1x128, .f32⟩ : BufTy).Contents (Elt F) → (⟨S50000x128, .f32⟩ : BufTy).Contents (Elt F)),
    binary main_v162 main_v164 main_v165 (addf : (⟨S50000x128, .f32⟩ : BufTy).Contents (Elt F) → (⟨S50000x128, .f32⟩ : BufTy).Contents (Elt F) → (⟨S50000x128, .f32⟩ : BufTy).Contents (Elt F)) ]

theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub ..⟩

abbrev ops4 : List (HloOp τ sig (Elt F)) :=
  [ nullary main_cst_26 (constant S_ .f32 0x00000000#32),
    unary main_cst_26 main_v166 (broadcastInDim S1024x128 ![] bcast_S_S1024x128 : (⟨S_, .f32⟩ : BufTy).Contents (Elt F) → (⟨S1024x128, .f32⟩ : BufTy).Contents (Elt F)),
    unary main_arg2 main_v167 (broadcastInDim S50000x1 ![0] bcast_S50000_S50000x1_0 : (⟨S50000, .i32⟩ : BufTy).Contents (Elt F) → (⟨S50000x1, .i32⟩ : BufTy).Contents (Elt F)),
    ternary main_v166 main_v167 main_v165 main_v168 ((fun x i u => Host.scatterAdd scatter_S1024x128_S50000x1_S50000x128_1_0_0_1 x i u) : (⟨S1024x128, .f32⟩ : BufTy).Contents (Elt F) → (⟨S50000x1, .i32⟩ : BufTy).Contents (Elt F) → (⟨S50000x128, .f32⟩ : BufTy).Contents (Elt F) → (⟨S1024x128, .f32⟩ : BufTy).Contents (Elt F)),
    binary main_v168 main_arg21 main_v169 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    unary main_arg22 main_v170 (broadcastInDim S1x64 ![1] bcast_S64_S1x64_1 : (⟨S64, .f32⟩ : BufTy).Contents (Elt F) → (⟨S1x64, .f32⟩ : BufTy).Contents (Elt F)),
    unary main_v170 main_v171 (broadcastInDim S1024x64 ![0, 1] bcast_S1x64_S1024x64_0_1 : (⟨S1x64, .f32⟩ : BufTy).Contents (Elt F) → (⟨S1024x64, .f32⟩ : BufTy).Contents (Elt F)),
    binary main_v169 main_v171 main_v172 (addf : (⟨S1024x64, .f32⟩ : BufTy).Contents (Elt F) → (⟨S1024x64, .f32⟩ : BufTy).Contents (Elt F) → (⟨S1024x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1024x64, .f32⟩) main_call3_v0) (broadcastInDim S1024x64 ![] bcast_S_S1024x64),
    TRef.binary (TRef.of (T := ⟨S1024x64, .f32⟩) main_v172) (TRef.of (T := ⟨S1024x64, .f32⟩) main_call3_v0) (TRef.of (T := ⟨S1024x64, .f32⟩) main_v173) maximumf,
    unary main_arg25 main_v174 (broadcastInDim S1x64 ![1] bcast_S64_S1x64_1 : (⟨S64, .f32⟩ : BufTy).Contents (Elt F) → (⟨S1x64, .f32⟩ : BufTy).Contents (Elt F)),
    unary main_v174 main_v175 (broadcastInDim S1024x64 ![0, 1] bcast_S1x64_S1024x64_0_1 : (⟨S1x64, .f32⟩ : BufTy).Contents (Elt F) → (⟨S1024x64, .f32⟩ : BufTy).Contents (Elt F)),
    binary main_v173 main_v175 main_v176 (subf : (⟨S1024x64, .f32⟩ : BufTy).Contents (Elt F) → (⟨S1024x64, .f32⟩ : BufTy).Contents (Elt F) → (⟨S1024x64, .f32⟩ : BufTy).Contents (Elt F)),
    nullary main_cst_27 (constant S_ .f32 0x3727C5AC#32),
    unary main_cst_27 main_v177 (broadcastInDim S64 ![] bcast_S_S64 : (⟨S_, .f32⟩ : BufTy).Contents (Elt F) → (⟨S64, .f32⟩ : BufTy).Contents (Elt F)),
    binary main_arg26 main_v177 main_v178 (addf : (⟨S64, .f32⟩ : BufTy).Contents (Elt F) → (⟨S64, .f32⟩ : BufTy).Contents (Elt F) → (⟨S64, .f32⟩ : BufTy).Contents (Elt F)),
    unary main_v178 main_v179 (Host.sqrt : (⟨S64, .f32⟩ : BufTy).Contents (Elt F) → (⟨S64, .f32⟩ : BufTy).Contents (Elt F)),
    binary main_arg23 main_v179 main_v180 (Host.divf : (⟨S64, .f32⟩ : BufTy).Contents (Elt F) → (⟨S64, .f32⟩ : BufTy).Contents (Elt F) → (⟨S64, .f32⟩ : BufTy).Contents (Elt F)),
    unary main_v180 main_v181 (broadcastInDim S1x64 ![1] bcast_S64_S1x64_1 : (⟨S64, .f32⟩ : BufTy).Contents (Elt F) → (⟨S1x64, .f32⟩ : BufTy).Contents (Elt F)),
    unary main_v181 main_v182 (broadcastInDim S1024x64 ![0, 1] bcast_S1x64_S1024x64_0_1 : (⟨S1x64, .f32⟩ : BufTy).Contents (Elt F) → (⟨S1024x64, .f32⟩ : BufTy).Contents (Elt F)),
    binary main_v176 main_v182 main_v183 (mulf : (⟨S1024x64, .f32⟩ : BufTy).Contents (Elt F) → (⟨S1024x64, .f32⟩ : BufTy).Contents (Elt F) → (⟨S1024x64, .f32⟩ : BufTy).Contents (Elt F)),
    unary main_arg24 main_v184 (broadcastInDim S1x64 ![1] bcast_S64_S1x64_1 : (⟨S64, .f32⟩ : BufTy).Contents (Elt F) → (⟨S1x64, .f32⟩ : BufTy).Contents (Elt F)),
    unary main_v184 main_v185 (broadcastInDim S1024x64 ![0, 1] bcast_S1x64_S1024x64_0_1 : (⟨S1x64, .f32⟩ : BufTy).Contents (Elt F) → (⟨S1024x64, .f32⟩ : BufTy).Contents (Elt F)),
    binary main_v183 main_v185 main_v186 (addf : (⟨S1024x64, .f32⟩ : BufTy).Contents (Elt F) → (⟨S1024x64, .f32⟩ : BufTy).Contents (Elt F) → (⟨S1024x64, .f32⟩ : BufTy).Contents (Elt F)),
    binary main_v186 main_arg27 main_v187 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)),
    unary main_arg28 main_v188 (broadcastInDim S1x64 ![1] bcast_S64_S1x64_1 : (⟨S64, .f32⟩ : BufTy).Contents (Elt F) → (⟨S1x64, .f32⟩ : BufTy).Contents (Elt F)),
    unary main_v188 main_v189 (broadcastInDim S1024x64 ![0, 1] bcast_S1x64_S1024x64_0_1 : (⟨S1x64, .f32⟩ : BufTy).Contents (Elt F) → (⟨S1024x64, .f32⟩ : BufTy).Contents (Elt F)),
    binary main_v187 main_v189 main_v190 (addf : (⟨S1024x64, .f32⟩ : BufTy).Contents (Elt F) → (⟨S1024x64, .f32⟩ : BufTy).Contents (Elt F) → (⟨S1024x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1024x64, .f32⟩) main_call4_v0) (broadcastInDim S1024x64 ![] bcast_S_S1024x64),
    TRef.binary (TRef.of (T := ⟨S1024x64, .f32⟩) main_v190) (TRef.of (T := ⟨S1024x64, .f32⟩) main_call4_v0) (TRef.of (T := ⟨S1024x64, .f32⟩) main_v191) maximumf,
    binary main_v191 main_arg29 main_v192 ((fun l r => Host.dotGeneral dot_S1024x64_S64x1_S1024x1_1_0_0_1_n_n none l r) : (⟨S1024x64, .f32⟩ : BufTy).Contents (Elt F) → (⟨S64x1, .f32⟩ : BufTy).Contents (Elt F) → (⟨S1024x1, .f32⟩ : BufTy).Contents (Elt F)),
    unary main_arg30 main_v193 (broadcastInDim S1x1 ![1] bcast_S1_S1x1_1 : (⟨S1, .f32⟩ : BufTy).Contents (Elt F) → (⟨S1x1, .f32⟩ : BufTy).Contents (Elt F)),
    unary main_v193 main_v194 (broadcastInDim S1024x1 ![0, 1] bcast_S1x1_S1024x1_0_1 : (⟨S1x1, .f32⟩ : BufTy).Contents (Elt F) → (⟨S1024x1, .f32⟩ : BufTy).Contents (Elt F)),
    binary main_v192 main_v194 main_v195 (addf : (⟨S1024x1, .f32⟩ : BufTy).Contents (Elt F) → (⟨S1024x1, .f32⟩ : BufTy).Contents (Elt F) → (⟨S1024x1, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1024x1, .f32⟩) main_call5_v0) (broadcastInDim S1024x1 ![] bcast_S_S1024x1),
    TRef.binary (TRef.of (T := ⟨S1024x1, .f32⟩) main_v195) (TRef.of (T := ⟨S1024x1, .f32⟩) main_call5_v0) (TRef.of (T := ⟨S1024x1, .f32⟩) main_v196) maximumf,
    reshape main_v196 main_v197 rfl shapeCasts_S1024x1_S1024 ]

theorem ops4_sub : (ops4 : List (HloOp τ sig (Elt F))).Forall fun op => op.bufs ⊆ tcRefs τ sig :=
  ⟨nullary_bufs_sub .., unary_bufs_sub .., unary_bufs_sub .., ternary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., reshape_bufs_sub ..⟩

abbrev ops : List (HloOp τ sig (Elt F)) := ops0 ++ ops1 ++ ops2 ++ ops3 ++ ops4

theorem forall_append {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

theorem ops_sub : (ops : List (HloOp τ sig (Elt F))).Forall fun op => op.bufs ⊆ tcRefs τ sig :=
  forall_append (forall_append (forall_append (forall_append ops0_sub ops1_sub) ops2_sub) ops3_sub) ops4_sub

set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

end Cert.Proof.Ref

end
-- ==== Proof.Ref.RefKeep.lean ====
import proofs.«402287_j53498112639137_1_alg».proof.Proof.Ref.RefOps

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

abbrev ops0_W : List (Ref sig .tc) := [main_v0, main_v1, main_v2, main_v3, main_cst, main_v4, main_cst_0, main_v5, main_v6, main_v7, main_cst_1, main_v8, main_v9, main_v10, main_cst_2, main_v11, main_v12, main_v13]

theorem ops0_fresh : (ops0 : List (HloOp τ sig (Elt F))).Forall fun op => op.fresh = ∅ := by
  simp only [List.Forall]; repeat' constructor
set_option maxHeartbeats 4000000 in
theorem ops0_writes : (ops0 : List (HloOp τ sig (Elt F))).Forall fun op => op.writes ⊆ (ops0_W.map (Proc.devRef (τ := τ) .tc)).toFinset := by
  simp only [List.Forall]
  repeat' apply And.intro
  all_goals
    simp only [nullary_writes, unary_writes, binary_writes, ternary_writes, quaternary_writes, reshape_writes,
      binaryIndexed_writes, unaryIndexed_writes, nary_writes, Finset.singleton_subset_iff, List.mem_toFinset]
    exact List.mem_map_of_mem (by decide)

theorem ops0_keep (A : Valuation τ sig (Elt F)) (r : Ref sig .tc) (h : r ∉ ops0_W) :
    after ops0 A (Proc.devRef .tc r) = A (Proc.devRef .tc r) :=
  after_of_writes_sub ops0 A ops0_writes h

abbrev ops1_W : List (Ref sig .tc) := [main_c, main_v14, main_v15, main_c_3, main_v16, main_v17, main_v18, main_v19, main_v20, main_c_4, main_v21, main_v22, main_c_5, main_v23, main_v24, main_v25, main_v26, main_v27, main_v28, main_c_6, main_v29, main_v30, main_c_7, main_v31, main_v32, main_v33, main_v34, main_v35, main_v36, main_v37, main_v38, main_cst_8, main_v39, main_v40, main_v41, main_v42, main_v43, main_v44, main_v45, main_v46, main_v47, main_v48, main_v49, main_call0_cst, main_call0_v0, main_v50, main_v51, main_v52, main_v53, main_cst_9, main_v54, main_v55, main_v56, main_v57, main_v58, main_v59, main_v60, main_v61, main_v62, main_v63, main_v64]

theorem ops1_fresh : (ops1 : List (HloOp τ sig (Elt F))).Forall fun op => op.fresh = ∅ := by
  simp only [List.Forall]; repeat' constructor
set_option maxHeartbeats 4000000 in
theorem ops1_writes : (ops1 : List (HloOp τ sig (Elt F))).Forall fun op => op.writes ⊆ (ops1_W.map (Proc.devRef (τ := τ) .tc)).toFinset := by
  simp only [List.Forall]
  repeat' apply And.intro
  all_goals
    simp only [nullary_writes, unary_writes, binary_writes, ternary_writes, quaternary_writes, reshape_writes,
      binaryIndexed_writes, unaryIndexed_writes, nary_writes, Finset.singleton_subset_iff, List.mem_toFinset]
    exact List.mem_map_of_mem (by decide)

theorem ops1_keep (A : Valuation τ sig (Elt F)) (r : Ref sig .tc) (h : r ∉ ops1_W) :
    after ops1 A (Proc.devRef .tc r) = A (Proc.devRef .tc r) :=
  after_of_writes_sub ops1 A ops1_writes h

abbrev ops2_W : List (Ref sig .tc) := [main_c_10, main_v65, main_v66, main_c_11, main_v67, main_v68, main_v69, main_v70, main_v71, main_c_12, main_v72, main_v73, main_c_13, main_v74, main_v75, main_v76, main_v77, main_v78, main_v79, main_c_14, main_v80, main_v81, main_c_15, main_v82, main_v83, main_v84, main_v85, main_v86, main_v87, main_v88, main_v89, main_cst_16, main_v90, main_v91, main_v92, main_v93, main_v94, main_v95, main_v96, main_v97, main_v98, main_v99, main_v100, main_call1_cst, main_call1_v0, main_v101, main_v102, main_v103, main_v104, main_cst_17, main_v105, main_v106, main_v107, main_v108, main_v109, main_v110, main_v111, main_v112, main_v113, main_v114, main_v115]

theorem ops2_fresh : (ops2 : List (HloOp τ sig (Elt F))).Forall fun op => op.fresh = ∅ := by
  simp only [List.Forall]; repeat' constructor
set_option maxHeartbeats 4000000 in
theorem ops2_writes : (ops2 : List (HloOp τ sig (Elt F))).Forall fun op => op.writes ⊆ (ops2_W.map (Proc.devRef (τ := τ) .tc)).toFinset := by
  simp only [List.Forall]
  repeat' apply And.intro
  all_goals
    simp only [nullary_writes, unary_writes, binary_writes, ternary_writes, quaternary_writes, reshape_writes,
      binaryIndexed_writes, unaryIndexed_writes, nary_writes, Finset.singleton_subset_iff, List.mem_toFinset]
    exact List.mem_map_of_mem (by decide)

theorem ops2_keep (A : Valuation τ sig (Elt F)) (r : Ref sig .tc) (h : r ∉ ops2_W) :
    after ops2 A (Proc.devRef .tc r) = A (Proc.devRef .tc r) :=
  after_of_writes_sub ops2 A ops2_writes h

abbrev ops3_W : List (Ref sig .tc) := [main_c_18, main_v116, main_v117, main_c_19, main_v118, main_v119, main_v120, main_v121, main_v122, main_c_20, main_v123, main_v124, main_c_21, main_v125, main_v126, main_v127, main_v128, main_v129, main_v130, main_c_22, main_v131, main_v132, main_c_23, main_v133, main_v134, main_v135, main_v136, main_v137, main_v138, main_v139, main_v140, main_cst_24, main_v141, main_v142, main_v143, main_v144, main_v145, main_v146, main_v147, main_v148, main_v149, main_v150, main_v151, main_call2_cst, main_call2_v0, main_v152, main_v153, main_v154, main_v155, main_cst_25, main_v156, main_v157, main_v158, main_v159, main_v160, main_v161, main_v162, main_v163, main_v164, main_v165]

theorem ops3_fresh : (ops3 : List (HloOp τ sig (Elt F))).Forall fun op => op.fresh = ∅ := by
  simp only [List.Forall]; repeat' constructor
set_option maxHeartbeats 4000000 in
theorem ops3_writes : (ops3 : List (HloOp τ sig (Elt F))).Forall fun op => op.writes ⊆ (ops3_W.map (Proc.devRef (τ := τ) .tc)).toFinset := by
  simp only [List.Forall]
  repeat' apply And.intro
  all_goals
    simp only [nullary_writes, unary_writes, binary_writes, ternary_writes, quaternary_writes, reshape_writes,
      binaryIndexed_writes, unaryIndexed_writes, nary_writes, Finset.singleton_subset_iff, List.mem_toFinset]
    exact List.mem_map_of_mem (by decide)

theorem ops3_keep (A : Valuation τ sig (Elt F)) (r : Ref sig .tc) (h : r ∉ ops3_W) :
    after ops3 A (Proc.devRef .tc r) = A (Proc.devRef .tc r) :=
  after_of_writes_sub ops3 A ops3_writes h

abbrev ops4_W : List (Ref sig .tc) := [main_cst_26, main_v166, main_v167, main_v168, main_v169, main_v170, main_v171, main_v172, main_call3_cst, main_call3_v0, main_v173, main_v174, main_v175, main_v176, main_cst_27, main_v177, main_v178, main_v179, main_v180, main_v181, main_v182, main_v183, main_v184, main_v185, main_v186, main_v187, main_v188, main_v189, main_v190, main_call4_cst, main_call4_v0, main_v191, main_v192, main_v193, main_v194, main_v195, main_call5_cst, main_call5_v0, main_v196, main_v197]

theorem ops4_fresh : (ops4 : List (HloOp τ sig (Elt F))).Forall fun op => op.fresh = ∅ := by
  simp only [List.Forall]; repeat' constructor
set_option maxHeartbeats 4000000 in
theorem ops4_writes : (ops4 : List (HloOp τ sig (Elt F))).Forall fun op => op.writes ⊆ (ops4_W.map (Proc.devRef (τ := τ) .tc)).toFinset := by
  simp only [List.Forall]
  repeat' apply And.intro
  all_goals
    simp only [nullary_writes, unary_writes, binary_writes, ternary_writes, quaternary_writes, reshape_writes,
      binaryIndexed_writes, unaryIndexed_writes, nary_writes, Finset.singleton_subset_iff, List.mem_toFinset]
    exact List.mem_map_of_mem (by decide)

theorem ops4_keep (A : Valuation τ sig (Elt F)) (r : Ref sig .tc) (h : r ∉ ops4_W) :
    after ops4 A (Proc.devRef .tc r) = A (Proc.devRef .tc r) :=
  after_of_writes_sub ops4 A ops4_writes h

end Cert.Proof.Ref

end
-- ==== Proof.Ref.RefResult.lean ====
import proofs.«402287_j53498112639137_1_alg».proof.Proof.Val.RefLayers
import proofs.«402287_j53498112639137_1_alg».proof.Proof.Val.RefHead
import proofs.«402287_j53498112639137_1_alg».proof.Proof.Gen.ReferenceIdeal

noncomputable section

namespace Cert.Proof.Ref

open Cert.ReferenceIdeal Cert.ReferenceIdeal.Gen Idealize.ShloMosaic Idealize.ShloMosaic.TcCoe Idealize.SL.Sem
open Cert.Proof.Val

variable {F : FTy → Type} [FloatOps F]

def refResult (m' : (ℓ : Loc nD τ sig) → Buf (Elt F) ℓ) (c : Dev nD) :
    Buf (Elt F) ((c.tc : Thread nD τ).loc main_v197) :=
  shapeCast _
    (refHead
      (poolR (m' ((c.tc : Thread nD τ).loc main_arg2))
        (layer128 (m' ((c.tc : Thread nD τ).loc main_arg1))
          (Host.dotGeneral dot_S50000x128_S128x128_S50000x128_1_0_0_1_n_n none
            (layer128 (m' ((c.tc : Thread nD τ).loc main_arg1))
              (Host.dotGeneral dot_S50000x256_S256x128_S50000x128_1_0_0_1_n_n none
                (layer256 (m' ((c.tc : Thread nD τ).loc main_arg1))
                  (Host.dotGeneral dot_S50000x373_S373x256_S50000x256_1_0_0_1_n_n none
                    (m' ((c.tc : Thread nD τ).loc main_arg0)) (m' ((c.tc : Thread nD τ).loc main_arg3)))
                  (m' ((c.tc : Thread nD τ).loc main_arg4)) (m' ((c.tc : Thread nD τ).loc main_arg5))
                  (m' ((c.tc : Thread nD τ).loc main_arg6)) (m' ((c.tc : Thread nD τ).loc main_arg7))
                  (m' ((c.tc : Thread nD τ).loc main_arg8)))
                (m' ((c.tc : Thread nD τ).loc main_arg9)))
              (m' ((c.tc : Thread nD τ).loc main_arg10)) (m' ((c.tc : Thread nD τ).loc main_arg11))
              (m' ((c.tc : Thread nD τ).loc main_arg12)) (m' ((c.tc : Thread nD τ).loc main_arg13))
              (m' ((c.tc : Thread nD τ).loc main_arg14)))
            (m' ((c.tc : Thread nD τ).loc main_arg15)))
          (m' ((c.tc : Thread nD τ).loc main_arg16)) (m' ((c.tc : Thread nD τ).loc main_arg17))
          (m' ((c.tc : Thread nD τ).loc main_arg18)) (m' ((c.tc : Thread nD τ).loc main_arg19))
          (m' ((c.tc : Thread nD τ).loc main_arg20))))
      (m' ((c.tc : Thread nD τ).loc main_arg21)) (m' ((c.tc : Thread nD τ).loc main_arg22))
      (m' ((c.tc : Thread nD τ).loc main_arg23)) (m' ((c.tc : Thread nD τ).loc main_arg24))
      (m' ((c.tc : Thread nD τ).loc main_arg25)) (m' ((c.tc : Thread nD τ).loc main_arg26))
      (m' ((c.tc : Thread nD τ).loc main_arg27)) (m' ((c.tc : Thread nD τ).loc main_arg28))
      (m' ((c.tc : Thread nD τ).loc main_arg29)) (m' ((c.tc : Thread nD τ).loc main_arg30)))
    shapeCasts_S1024x1_S1024

end Cert.Proof.Ref

end
-- ==== Proof.Ref.Chunk0.lean ====
import proofs.«402287_j53498112639137_1_alg».proof.Proof.Ref.RefOps
import proofs.«402287_j53498112639137_1_alg».proof.Proof.Val.RefLayers
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo
open Cert.Proof.Val (refSrc refDst refDis)

variable {F : FTy → Type} [FloatOps F]

theorem ops0_v1 (A : Valuation τ sig (Elt F)) :
    after ops0 A (Proc.devRef .tc main_v1) = refSrc (A (Proc.devRef .tc main_arg1)) := by
  after_results_simp
  rfl

theorem ops0_v3 (A : Valuation τ sig (Elt F)) :
    after ops0 A (Proc.devRef .tc main_v3) = refDst (A (Proc.devRef .tc main_arg1)) := by
  after_results_simp
  rfl

theorem ops0_v12 (A : Valuation τ sig (Elt F)) :
    after ops0 A (Proc.devRef .tc main_v12) = refDis (A (Proc.devRef .tc main_arg1)) := by
  after_results_simp
  rfl

theorem ops0_v13 (A : Valuation τ sig (Elt F)) :
    after ops0 A (Proc.devRef .tc main_v13)
      = Host.dotGeneral dot_S50000x373_S373x256_S50000x256_1_0_0_1_n_n none (A (Proc.devRef .tc main_arg0)) (A (Proc.devRef .tc main_arg3)) := by
  after_results_simp

end Cert.Proof.Ref

end
-- ==== Proof.Ref.Chunk1.lean ====
import proofs.«402287_j53498112639137_1_alg».proof.Proof.Ref.RefOps
import proofs.«402287_j53498112639137_1_alg».proof.Proof.Val.RefLayers
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo
open Cert.Proof.Val

variable {F : FTy → Type} [FloatOps F]

set_option maxHeartbeats 8000000 in
theorem ops1_v64 (A : Valuation τ sig (Elt F)) (ei : (⟨S2x400000, .i32⟩ : BufTy).Contents (Elt F))
    (h1 : A (Proc.devRef .tc main_v1) = refSrc ei) (h3 : A (Proc.devRef .tc main_v3) = refDst ei)
    (h12 : A (Proc.devRef .tc main_v12) = refDis ei) :
    after ops1 A (Proc.devRef .tc main_v64) =
      Host.dotGeneral dot_S50000x256_S256x128_S50000x128_1_0_0_1_n_n none
        (layer256 ei (A (Proc.devRef .tc main_v13)) (A (Proc.devRef .tc main_arg4)) (A (Proc.devRef .tc main_arg5))
          (A (Proc.devRef .tc main_arg6)) (A (Proc.devRef .tc main_arg7)) (A (Proc.devRef .tc main_arg8)))
        (A (Proc.devRef .tc main_arg9)) := by
  after_results_simp
  simp only [TRef.ofBuf, TRef.toBuf, cast_eq]
  rw [h1, h3, h12]
  unfold layer256 refNorm refWrap
  rfl

end Cert.Proof.Ref

end
-- ==== Proof.Ref.Chunk2.lean ====
import proofs.«402287_j53498112639137_1_alg».proof.Proof.Ref.RefOps
import proofs.«402287_j53498112639137_1_alg».proof.Proof.Val.RefLayers
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo
open Cert.Proof.Val (refSrc refDst refWrap refDis refNorm layer256 layer128)

variable {F : FTy → Type} [FloatOps F]

set_option maxHeartbeats 8000000 in
theorem ops2_v115 (A : Valuation τ sig (Elt F)) (ei : (⟨S2x400000, .i32⟩ : BufTy).Contents (Elt F))
    (h1 : A (Proc.devRef .tc main_v1) = refSrc ei) (h3 : A (Proc.devRef .tc main_v3) = refDst ei)
    (h12 : A (Proc.devRef .tc main_v12) = refDis ei) :
    StableHlo.after (ops2 (F := F)) A (Proc.devRef .tc main_v115) =
      Host.dotGeneral dot_S50000x128_S128x128_S50000x128_1_0_0_1_n_n none
        (layer128 ei (A (Proc.devRef .tc main_v64)) (A (Proc.devRef .tc main_arg10)) (A (Proc.devRef .tc main_arg11))
          (A (Proc.devRef .tc main_arg12)) (A (Proc.devRef .tc main_arg13)) (A (Proc.devRef .tc main_arg14)))
        (A (Proc.devRef .tc main_arg15)) := by
  after_results_simp
  simp only [TRef.ofBuf, TRef.toBuf, cast_eq]
  rw [h1, h3, h12]
  unfold layer128 refNorm refWrap
  rfl

end Cert.Proof.Ref

end
-- ==== Proof.Ref.Chunk3.lean ====
import proofs.«402287_j53498112639137_1_alg».proof.Proof.Ref.RefOps
import proofs.«402287_j53498112639137_1_alg».proof.Proof.Val.RefLayers
import Idealize.ShloMosaic.Lib.StableHlo.Run

noncomputable section
namespace Cert.Proof.Ref
open Cert.ReferenceIdeal Cert.ReferenceIdeal.Gen Idealize.ShloMosaic Idealize.ShloMosaic.TcCoe Idealize.SL.Sem Idealize.ShloMosaic.StableHlo
open Cert.Proof.Val (refSrc refDst refWrap refDis refNorm layer256 layer128 poolR)

variable {F : FTy → Type} [FloatOps F]

set_option maxHeartbeats 8000000 in
theorem ops3_v165 (A : Valuation τ sig (Elt F)) (ei : (⟨S2x400000, .i32⟩ : BufTy).Contents (Elt F))
    (h1 : A (Proc.devRef .tc main_v1) = refSrc ei) (h3 : A (Proc.devRef .tc main_v3) = refDst ei)
    (h12 : A (Proc.devRef .tc main_v12) = refDis ei) :
    after ops3 A (Proc.devRef .tc main_v165)
      = layer128 ei (A (Proc.devRef .tc main_v115)) (A (Proc.devRef .tc main_arg16)) (A (Proc.devRef .tc main_arg17))
          (A (Proc.devRef .tc main_arg18)) (A (Proc.devRef .tc main_arg19)) (A (Proc.devRef .tc main_arg20)) := by
  after_results_simp
  simp only [TRef.ofBuf, TRef.toBuf, cast_eq]
  rw [h1, h3, h12]
  unfold layer128 refNorm refWrap
  rfl

end Cert.Proof.Ref
end
-- ==== Proof.Ref.Chunk4.lean ====
import proofs.«402287_j53498112639137_1_alg».proof.Proof.Ref.RefOps
import proofs.«402287_j53498112639137_1_alg».proof.Proof.Val.RefLayers
import proofs.«402287_j53498112639137_1_alg».proof.Proof.Val.RefHead
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo
open Cert.Proof.Val (refSrc refDst refWrap refDis refNorm layer256 layer128 poolR refHead)

variable {F : FTy → Type} [FloatOps F]

set_option maxHeartbeats 8000000 in
theorem ops4_v197 (A : Valuation τ sig (Elt F)) :
    after (ops4 (F := F)) A (Proc.devRef .tc main_v197)
      = shapeCast _ (refHead (poolR (A (Proc.devRef .tc main_arg2)) (A (Proc.devRef .tc main_v165)))
          (A (Proc.devRef .tc main_arg21)) (A (Proc.devRef .tc main_arg22)) (A (Proc.devRef .tc main_arg23)) (A (Proc.devRef .tc main_arg24)) (A (Proc.devRef .tc main_arg25)) (A (Proc.devRef .tc main_arg26)) (A (Proc.devRef .tc main_arg27)) (A (Proc.devRef .tc main_arg28)) (A (Proc.devRef .tc main_arg29)) (A (Proc.devRef .tc main_arg30))) shapeCasts_S1024x1_S1024 := by
  after_results_simp
  simp only [TRef.ofBuf, TRef.toBuf, cast_eq]
  unfold refHead poolR
  rfl

end Cert.Proof.Ref

end
-- ==== Proof.Ref.RefRun.lean ====
import proofs.«402287_j53498112639137_1_alg».proof.Proof.Ref.RefKeep
import proofs.«402287_j53498112639137_1_alg».proof.Proof.Ref.RefResult
import proofs.«402287_j53498112639137_1_alg».proof.Proof.Ref.Chunk0
import proofs.«402287_j53498112639137_1_alg».proof.Proof.Ref.Chunk1
import proofs.«402287_j53498112639137_1_alg».proof.Proof.Ref.Chunk2
import proofs.«402287_j53498112639137_1_alg».proof.Proof.Ref.Chunk3
import proofs.«402287_j53498112639137_1_alg».proof.Proof.Ref.Chunk4

noncomputable section

namespace Cert.Proof.Ref

open Cert.ReferenceIdeal Cert.ReferenceIdeal.Gen Idealize.ShloMosaic Idealize.ShloMosaic.TcCoe Idealize.SL.Sem Idealize.ShloMosaic.StableHlo
open Cert.Proof.Val

variable {F : FTy → Type} [FloatOps F]
variable (m' : (ℓ : Loc nD τ sig) → Buf (Elt F) ℓ)

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

def A1 (c : Dev nD) : Valuation τ sig (Elt F) := after ops0 (launchContents m' c)

def A2 (c : Dev nD) : Valuation τ sig (Elt F) := after ops1 (A1 m' c)

def A3 (c : Dev nD) : Valuation τ sig (Elt F) := after ops2 (A2 m' c)

def A4 (c : Dev nD) : Valuation τ sig (Elt F) := after ops3 (A3 m' c)

theorem after_ops (c : Dev nD) : after ops (launchContents m' c) = after ops4 (A4 m' c) := by
  unfold A4 A3 A2 A1
  show after (ops0 ++ ops1 ++ ops2 ++ ops3 ++ ops4) _ = _
  rw [after_app, after_app, after_app, after_app]

theorem A1_launch (c : Dev nD) (r : Ref sig .tc) (h0 : r ∉ ops0_W) :
    A1 m' c (Proc.devRef .tc r) = m' ((c.tc : Thread nD τ).loc r) := ops0_keep _ r h0
theorem A2_launch (c : Dev nD) (r : Ref sig .tc) (h0 : r ∉ ops0_W) (h1 : r ∉ ops1_W) :
    A2 m' c (Proc.devRef .tc r) = m' ((c.tc : Thread nD τ).loc r) := (ops1_keep _ r h1).trans (A1_launch m' c r h0)
theorem A3_launch (c : Dev nD) (r : Ref sig .tc) (h0 : r ∉ ops0_W) (h1 : r ∉ ops1_W) (h2 : r ∉ ops2_W) :
    A3 m' c (Proc.devRef .tc r) = m' ((c.tc : Thread nD τ).loc r) := (ops2_keep _ r h2).trans (A2_launch m' c r h0 h1)
theorem A4_launch (c : Dev nD) (r : Ref sig .tc) (h0 : r ∉ ops0_W) (h1 : r ∉ ops1_W) (h2 : r ∉ ops2_W) (h3 : r ∉ ops3_W) :
    A4 m' c (Proc.devRef .tc r) = m' ((c.tc : Thread nD τ).loc r) := (ops3_keep _ r h3).trans (A3_launch m' c r h0 h1 h2)

theorem arg_keep (c : Dev nD) (r : Ref sig .tc) (h0 : r ∉ ops0_W) (h1 : r ∉ ops1_W) (h2 : r ∉ ops2_W) (h3 : r ∉ ops3_W)
    (h4 : r ∉ ops4_W) : after ops (launchContents m' c) (Proc.devRef .tc r) = m' ((c.tc : Thread nD τ).loc r) := by
  rw [after_ops]; exact (ops4_keep _ r h4).trans (A4_launch m' c r h0 h1 h2 h3)

theorem A1_v1 (c : Dev nD) : A1 m' c (Proc.devRef .tc main_v1) = refSrc (m' ((c.tc : Thread nD τ).loc main_arg1)) := ops0_v1 _
theorem A1_v3 (c : Dev nD) : A1 m' c (Proc.devRef .tc main_v3) = refDst (m' ((c.tc : Thread nD τ).loc main_arg1)) := ops0_v3 _
theorem A1_v12 (c : Dev nD) : A1 m' c (Proc.devRef .tc main_v12) = refDis (m' ((c.tc : Thread nD τ).loc main_arg1)) := ops0_v12 _
theorem A2_v1 (c : Dev nD) : A2 m' c (Proc.devRef .tc main_v1) = refSrc (m' ((c.tc : Thread nD τ).loc main_arg1)) :=
  (ops1_keep _ main_v1 (by decide)).trans (A1_v1 m' c)
theorem A2_v3 (c : Dev nD) : A2 m' c (Proc.devRef .tc main_v3) = refDst (m' ((c.tc : Thread nD τ).loc main_arg1)) :=
  (ops1_keep _ main_v3 (by decide)).trans (A1_v3 m' c)
theorem A2_v12 (c : Dev nD) : A2 m' c (Proc.devRef .tc main_v12) = refDis (m' ((c.tc : Thread nD τ).loc main_arg1)) :=
  (ops1_keep _ main_v12 (by decide)).trans (A1_v12 m' c)
theorem A3_v1 (c : Dev nD) : A3 m' c (Proc.devRef .tc main_v1) = refSrc (m' ((c.tc : Thread nD τ).loc main_arg1)) :=
  (ops2_keep _ main_v1 (by decide)).trans (A2_v1 m' c)
theorem A3_v3 (c : Dev nD) : A3 m' c (Proc.devRef .tc main_v3) = refDst (m' ((c.tc : Thread nD τ).loc main_arg1)) :=
  (ops2_keep _ main_v3 (by decide)).trans (A2_v3 m' c)
theorem A3_v12 (c : Dev nD) : A3 m' c (Proc.devRef .tc main_v12) = refDis (m' ((c.tc : Thread nD τ).loc main_arg1)) :=
  (ops2_keep _ main_v12 (by decide)).trans (A2_v12 m' c)

abbrev p0 (c : Dev nD) : (⟨S50000x256, .f32⟩ : BufTy).Contents (Elt F) :=
  Host.dotGeneral dot_S50000x373_S373x256_S50000x256_1_0_0_1_n_n none (m' ((c.tc : Thread nD τ).loc main_arg0)) (m' ((c.tc : Thread nD τ).loc main_arg3))

abbrev p1 (c : Dev nD) : (⟨S50000x128, .f32⟩ : BufTy).Contents (Elt F) :=
  Host.dotGeneral dot_S50000x256_S256x128_S50000x128_1_0_0_1_n_n none
    (layer256 (m' ((c.tc : Thread nD τ).loc main_arg1)) (p0 m' c) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)))
    (m' ((c.tc : Thread nD τ).loc main_arg9))

abbrev p2 (c : Dev nD) : (⟨S50000x128, .f32⟩ : BufTy).Contents (Elt F) :=
  Host.dotGeneral dot_S50000x128_S128x128_S50000x128_1_0_0_1_n_n none
    (layer128 (m' ((c.tc : Thread nD τ).loc main_arg1)) (p1 m' c) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)))
    (m' ((c.tc : Thread nD τ).loc main_arg15))

abbrev h3 (c : Dev nD) : (⟨S50000x128, .f32⟩ : BufTy).Contents (Elt F) :=
  layer128 (m' ((c.tc : Thread nD τ).loc main_arg1)) (p2 m' c) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20))

theorem A1_v13 (c : Dev nD) : A1 m' c (Proc.devRef .tc main_v13) = p0 m' c := ops0_v13 _

theorem A2_v64 (c : Dev nD) : A2 m' c (Proc.devRef .tc main_v64) = p1 m' c := by
  refine (ops1_v64 (A1 m' c) (m' ((c.tc : Thread nD τ).loc main_arg1)) (A1_v1 m' c) (A1_v3 m' c) (A1_v12 m' c)).trans ?_
  rw [A1_v13, A1_launch m' c main_arg4 (by decide), A1_launch m' c main_arg5 (by decide),
    A1_launch m' c main_arg6 (by decide), A1_launch m' c main_arg7 (by decide), A1_launch m' c main_arg8 (by decide),
    A1_launch m' c main_arg9 (by decide)]

theorem A3_v115 (c : Dev nD) : A3 m' c (Proc.devRef .tc main_v115) = p2 m' c := by
  refine (ops2_v115 (A2 m' c) (m' ((c.tc : Thread nD τ).loc main_arg1)) (A2_v1 m' c) (A2_v3 m' c) (A2_v12 m' c)).trans ?_
  rw [A2_v64, A2_launch m' c main_arg10 (by decide) (by decide), A2_launch m' c main_arg11 (by decide) (by decide),
    A2_launch m' c main_arg12 (by decide) (by decide), A2_launch m' c main_arg13 (by decide) (by decide),
    A2_launch m' c main_arg14 (by decide) (by decide), A2_launch m' c main_arg15 (by decide) (by decide)]

theorem A4_v165 (c : Dev nD) : A4 m' c (Proc.devRef .tc main_v165) = h3 m' c := by
  refine (ops3_v165 (A3 m' c) (m' ((c.tc : Thread nD τ).loc main_arg1)) (A3_v1 m' c) (A3_v3 m' c) (A3_v12 m' c)).trans ?_
  rw [A3_v115, A3_launch m' c main_arg16 (by decide) (by decide) (by decide),
    A3_launch m' c main_arg17 (by decide) (by decide) (by decide), A3_launch m' c main_arg18 (by decide) (by decide) (by decide),
    A3_launch m' c main_arg19 (by decide) (by decide) (by decide), A3_launch m' c main_arg20 (by decide) (by decide) (by decide)]

theorem res_eq (c : Dev nD) : after ops (launchContents m' c) (Proc.devRef .tc main_v197) = refResult m' c := by
  rw [after_ops]
  refine (ops4_v197 (A4 m' c)).trans ?_
  rw [A4_v165, A4_launch m' c main_arg2 (by decide) (by decide) (by decide) (by decide),
    A4_launch m' c main_arg21 (by decide) (by decide) (by decide) (by decide),
    A4_launch m' c main_arg22 (by decide) (by decide) (by decide) (by decide),
    A4_launch m' c main_arg23 (by decide) (by decide) (by decide) (by decide),
    A4_launch m' c main_arg24 (by decide) (by decide) (by decide) (by decide),
    A4_launch m' c main_arg25 (by decide) (by decide) (by decide) (by decide),
    A4_launch m' c main_arg26 (by decide) (by decide) (by decide) (by decide),
    A4_launch m' c main_arg27 (by decide) (by decide) (by decide) (by decide),
    A4_launch m' c main_arg28 (by decide) (by decide) (by decide) (by decide),
    A4_launch m' c main_arg29 (by decide) (by decide) (by decide) (by decide),
    A4_launch m' c main_arg30 (by decide) (by decide) (by decide) (by decide)]
  rfl

theorem ops_fresh : ∀ op ∈ (ops : List (HloOp τ sig (Elt F))), op.fresh = ∅ :=
  List.forall_iff_forall_mem.1
    (forall_append (forall_append (forall_append (forall_append ops0_fresh ops1_fresh) ops2_fresh) ops3_fresh) ops4_fresh)

set_option maxHeartbeats 16000000 in
theorem ref_run (ρ' : Dev nD → PrngReg) :
    θ_run defs (onTc (τ := τ) (main (F := F))) ⟨m', fun _ => 0, ρ'⟩ fun r => ∀ c : Dev nD,
      r.2.mem ((c.tc : Thread nD τ).loc main_v197) = refResult m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)
      ∧ r.2.mem ((c.tc : Thread nD τ).loc main_arg26) = m' ((c.tc : Thread nD τ).loc main_arg26)
      ∧ r.2.mem ((c.tc : Thread nD τ).loc main_arg27) = m' ((c.tc : Thread nD τ).loc main_arg27)
      ∧ r.2.mem ((c.tc : Thread nD τ).loc main_arg28) = m' ((c.tc : Thread nD τ).loc main_arg28)
      ∧ r.2.mem ((c.tc : Thread nD τ).loc main_arg29) = m' ((c.tc : Thread nD τ).loc main_arg29)
      ∧ r.2.mem ((c.tc : Thread nD τ).loc main_arg30) = m' ((c.tc : Thread nD τ).loc main_arg30) :=
  (θ_run defs _ _).mono (fun _ h c => ⟨(h c main_v197).trans (res_eq m' c),
      (h c main_arg0).trans (arg_keep m' c main_arg0 (by decide) (by decide) (by decide) (by decide) (by decide)),
      (h c main_arg1).trans (arg_keep m' c main_arg1 (by decide) (by decide) (by decide) (by decide) (by decide)),
      (h c main_arg2).trans (arg_keep m' c main_arg2 (by decide) (by decide) (by decide) (by decide) (by decide)),
      (h c main_arg3).trans (arg_keep m' c main_arg3 (by decide) (by decide) (by decide) (by decide) (by decide)),
      (h c main_arg4).trans (arg_keep m' c main_arg4 (by decide) (by decide) (by decide) (by decide) (by decide)),
      (h c main_arg5).trans (arg_keep m' c main_arg5 (by decide) (by decide) (by decide) (by decide) (by decide)),
      (h c main_arg6).trans (arg_keep m' c main_arg6 (by decide) (by decide) (by decide) (by decide) (by decide)),
      (h c main_arg7).trans (arg_keep m' c main_arg7 (by decide) (by decide) (by decide) (by decide) (by decide)),
      (h c main_arg8).trans (arg_keep m' c main_arg8 (by decide) (by decide) (by decide) (by decide) (by decide)),
      (h c main_arg9).trans (arg_keep m' c main_arg9 (by decide) (by decide) (by decide) (by decide) (by decide)),
      (h c main_arg10).trans (arg_keep m' c main_arg10 (by decide) (by decide) (by decide) (by decide) (by decide)),
      (h c main_arg11).trans (arg_keep m' c main_arg11 (by decide) (by decide) (by decide) (by decide) (by decide)),
      (h c main_arg12).trans (arg_keep m' c main_arg12 (by decide) (by decide) (by decide) (by decide) (by decide)),
      (h c main_arg13).trans (arg_keep m' c main_arg13 (by decide) (by decide) (by decide) (by decide) (by decide)),
      (h c main_arg14).trans (arg_keep m' c main_arg14 (by decide) (by decide) (by decide) (by decide) (by decide)),
      (h c main_arg15).trans (arg_keep m' c main_arg15 (by decide) (by decide) (by decide) (by decide) (by decide)),
      (h c main_arg16).trans (arg_keep m' c main_arg16 (by decide) (by decide) (by decide) (by decide) (by decide)),
      (h c main_arg17).trans (arg_keep m' c main_arg17 (by decide) (by decide) (by decide) (by decide) (by decide)),
      (h c main_arg18).trans (arg_keep m' c main_arg18 (by decide) (by decide) (by decide) (by decide) (by decide)),
      (h c main_arg19).trans (arg_keep m' c main_arg19 (by decide) (by decide) (by decide) (by decide) (by decide)),
      (h c main_arg20).trans (arg_keep m' c main_arg20 (by decide) (by decide) (by decide) (by decide) (by decide)),
      (h c main_arg21).trans (arg_keep m' c main_arg21 (by decide) (by decide) (by decide) (by decide) (by decide)),
      (h c main_arg22).trans (arg_keep m' c main_arg22 (by decide) (by decide) (by decide) (by decide) (by decide)),
      (h c main_arg23).trans (arg_keep m' c main_arg23 (by decide) (by decide) (by decide) (by decide) (by decide)),
      (h c main_arg24).trans (arg_keep m' c main_arg24 (by decide) (by decide) (by decide) (by decide) (by decide)),
      (h c main_arg25).trans (arg_keep m' c main_arg25 (by decide) (by decide) (by decide) (by decide) (by decide)),
      (h c main_arg26).trans (arg_keep m' c main_arg26 (by decide) (by decide) (by decide) (by decide) (by decide)),
      (h c main_arg27).trans (arg_keep m' c main_arg27 (by decide) (by decide) (by decide) (by decide) (by decide)),
      (h c main_arg28).trans (arg_keep m' c main_arg28 (by decide) (by decide) (by decide) (by decide) (by decide)),
      (h c main_arg29).trans (arg_keep m' c main_arg29 (by decide) (by decide) (by decide) (by decide) (by decide)),
      (h c main_arg30).trans (arg_keep m' c main_arg30 (by decide) (by decide) (by decide) (by decide) (by decide))⟩)
    (run_seq scopedRefs_eq scopedSems_eq defs main (fun _ => ops) main_eq (fun _ => ops_sub) m' ρ' (fun _ => ops_fresh))

end Cert.Proof.Ref

end
-- ==== Proof.lean ====
/-
  A three-layer graph convolution network with sum pooling and a three-layer head, in five kernel regions among stretches of
  host operations, against the same network written with whole-array operations. The word-level program and its
  idealization are one text, so one run, generic in the float instance, gives both frames. On the extended reals a
  projection region is the whole matrix product, the pooling region's accumulator is the reference's scatter-add, and in the
  head g · rsqrt(v + ε) is g / sqrt(v + ε) because the precondition's last conjunct makes v + ε positive.
-/
import proofs.«402287_j53498112639137_1_alg».proof.Defs
import proofs.«402287_j53498112639137_1_alg».proof.Proof.Gen.Kernel
import proofs.«402287_j53498112639137_1_alg».proof.Proof.Gen.KernelIdeal
import proofs.«402287_j53498112639137_1_alg».proof.Proof.Gen.ReferenceIdeal
import proofs.«402287_j53498112639137_1_alg».proof.Proof.Gen.Pre_finite_inputs
import proofs.«402287_j53498112639137_1_alg».proof.Proof.K.Frame
import proofs.«402287_j53498112639137_1_alg».proof.Proof.KI.Frame
import proofs.«402287_j53498112639137_1_alg».proof.Proof.Val.PreV4
import proofs.«402287_j53498112639137_1_alg».proof.Proof.Val.ResultK
import proofs.«402287_j53498112639137_1_alg».proof.Proof.Ref.RefRun
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ =>
  (θ_run _ _ _).mono (fun r h c => by (repeat' apply And.intro) <;> exact (h c).2 _ (by decide))
    (Cert.Kernel.Hand.run_result (F := Bits) m ρ)

theorem frame_pi : Cert.frame_KernelIdeal := fun m ρ _ =>
  (θ_run _ _ _).mono (fun r h c => by (repeat' apply And.intro) <;> exact (h c).2 _ (by decide))
    (Cert.KernelIdeal.Hand.run_result (F := Ideal) m ρ)

theorem frame_ri : Cert.frame_ReferenceIdeal := fun m ρ _ =>
  (θ_run Cert.ReferenceIdeal.defs _ _).mono (fun _ h c => (h c).2) (Cert.Proof.Ref.ref_run (F := Ideal) m ρ)

theorem algebraic : Cert.algebraic_KernelIdeal_ReferenceIdeal := by
  intro m ρ m' ρ' hpre hagree
  refine ⟨fun c => Cert.KernelIdeal.Hand.W17 (F := Ideal) m c Cert.KernelIdeal.main_v140,
    (θ_run _ _ _).mono (fun r h c => ⟨(h c).1, by (repeat' apply And.intro) <;> exact (h c).2 _ (by decide)⟩)
      (Cert.KernelIdeal.Hand.run_result (F := Ideal) m ρ), ?_⟩
  refine (θ_run Cert.ReferenceIdeal.defs _ _).mono (fun _ h c => ⟨(h c).1.trans ?_, (h c).2⟩)
    (Cert.Proof.Ref.ref_run (F := Ideal) m' ρ')
  obtain ⟨h0, h1, h2, h3, h4, h5, h6, h7, h8, h9, h10, h11, h12, h13, h14, h15, h16, h17, h18, h19, h20, h21, h22, h23, h24, h25, h26, h27, h28, h29, h30⟩ := hagree c
  unfold Cert.Proof.Ref.refResult
  rw [h0, h1, h2, h3, h4, h5, h6, h7, h8, h9, h10, h11, h12, h13, h14, h15, h16, h17, h18, h19, h20, h21, h22, h23, h24, h25, h26, h27, h28, h29, h30]
  exact (Cert.Proof.Val.result_k m (fun c j => Cert.Proof.Val.v4_pos m hpre c j) c).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
